-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S_ : Shape := ⟨0, ![]⟩
abbrev S50000 : Shape := ⟨1, ![50000]⟩
abbrev S1x800000 : Shape := ⟨2, ![1, 800000]⟩
abbrev S800000x1 : Shape := ⟨2, ![800000, 1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  slices_S2x800000_S1x800000_1_0 : S2x800000.Slices ![1, 0] S1x800000
  shapeCasts_S1x800000_S800000 : S1x800000.ShapeCasts S800000
  bcast_S800000_S800000x1_0 : S800000.BroadcastsInDim S800000x1 (![0] : Fin 1 → Fin S800000x1.rank)
  reducesTo_S50000_S_d0 : S50000.ReducesTo [0] S_
  scatter_S50000_S800000x1_S800000_n_0_0_1_wf : ScatterDims.WF S50000 S800000x1 S800000 [] [0] [0] 1

variable [Facts]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def fn_part4 {F : FTy → Type} [FloatOps F] (main_arg1 : IVec S2x800000 32) (main_arg2 : FVec F S800000 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S50000 .f32 := broadcastInDim S50000 ![] bcast_S_S50000 main_cst_26
  let main_v70 : IVec S1x800000 32 := (extractStridedSlice S1x800000 ![1, 0] · slices_S2x800000_S1x800000_1_0) main_arg1
  let main_v71 : IVec S800000 32 := shapeCast S800000 main_v70 shapeCasts_S1x800000_S800000
  let main_c_27 : IVec S_ 32 := constantI S_ 32 0#32
  let main_v72 : IVec S800000 32 := broadcastInDim S800000 ![] bcast_S_S800000 main_c_27
  let main_v73 : IVec S800000 1 := cmpi .slt main_v71 main_v72
  let main_c_28 : IVec S_ 32 := constantI S_ 32 50000#32
  let main_v74 : IVec S800000 32 := broadcastInDim S800000 ![] bcast_S_S800000 main_c_28
  let main_v75 : IVec S800000 32 := addi main_v71 main_v74
  let main_v76 : IVec S800000 32 := select main_v73 main_v75 main_v71
  let main_v77 : IVec S800000x1 32 := broadcastInDim S800000x1 ![0] bcast_S800000_S800000x1_0 main_v76
  let main_v78 : FVec F S50000 .f32 := (fun x i u => Host.scatterAdd scatter_S50000_S800000x1_S800000_n_0_0_1 x i u) main_v69 main_v77 main_arg2
  let main_cst_29 : FVec F S_ .f32 := constant S_ .f32 0x3F800000#32
  let main_v79 : FVec F S50000 .f32 := broadcastInDim S50000 ![] bcast_S_S50000 main_cst_29
  let main_v80 : FVec F S50000 .f32 := addf main_v78 main_v79
  let main_cst_30 : FVec F S_ .f32 := constant S_ .f32 0x00000000#32
  let main_v81 : FVec F S50000 .f32 := broadcastInDim S50000 ![] bcast_S_S50000 main_cst_30
  let main_v82 : IVec S50000 1 := cmpf .ogt main_v80 main_v81
  let main_c_31 : IVec S_ 1 := constantI S_ 1 1#1
  let main_v83 : IVec S_ 1 := (fun x v => Host.reduce IntOp.andi x v reducesTo_S50000_S_d0 h_S_) main_v82 main_c_31
  let main_v84 : IVec S_ 1 := andi main_v68 main_v83
  main_v84

def fn_part3 {F : FTy → Type} [FloatOps F] (main_arg1 : IVec S2x800000 32) (main_arg2 : FVec F S800000 .f32) (main_arg12 : FVec F S128 .f32) (main_arg13 : FVec F S128x1 .f32) (main_arg14 : FVec F S1 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_arg2 main_v63 main_v67

def fn_part2 {F : FTy → Type} [FloatOps F] (main_arg1 : IVec S2x800000 32) (main_arg2 : FVec F S800000 .f32) (main_arg8 : FVec F S128 .f32) (main_arg9 : FVec F S128 .f32) (main_arg10 : FVec F S128 .f32) (main_arg11 : FVec F S384x128 .f32) (main_arg12 : FVec F S128 .f32) (main_arg13 : FVec F S128x1 .f32) (main_arg14 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg1 main_arg2 main_arg12 main_arg13 main_arg14 main_v48 main_v49 main_v50

def fn_part1 {F : FTy → Type} [FloatOps F] (main_arg1 : IVec S2x800000 32) (main_arg2 : FVec F S800000 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S384x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg8 main_arg9 main_arg10 main_arg11 main_arg12 main_arg13 main_arg14 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S384x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S1x800000 : Shape := ⟨2, ![1, 800000]⟩
abbrev S5000x128 : Shape := ⟨2, ![5000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2x128 : Shape := ⟨2, ![2, 128]⟩
abbrev S5000x1 : Shape := ⟨2, ![5000, 1]⟩
abbrev S50000x384 : Shape := ⟨2, ![50000, 384]⟩
abbrev S1x1 : Shape := ⟨2, ![1, 1]⟩
abbrev S5000x384 : Shape := ⟨2, ![5000, 384]⟩

abbrev nBuf : Space → Nat
  | .hbm => 186
  | .vmem => 54
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S384x128, .f32⟩
  | 12 => ⟨S128, .f32⟩
  | 13 => ⟨S128x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000x128, .f32⟩
  | 20 => ⟨S_, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S50000x128, .f32⟩
  | 78 => ⟨S50000, .f32⟩
  | 79 => ⟨S50000x1, .f32⟩
  | 80 => ⟨S1x128, .f32⟩
  | 81 => ⟨S50000x128, .f32⟩
  | 82 => ⟨S2x128, .f32⟩
  | 83 => ⟨S1x128, .f32⟩
  | 84 => ⟨S128, .f32⟩
  | 85 => ⟨S_, .f32⟩
  | 86 => ⟨S128, .f32⟩
  | 87 => ⟨S128, .f32⟩
  | 88 => ⟨S1x128, .f32⟩
  | 89 => ⟨S128, .f32⟩
  | 90 => ⟨S_, .f32⟩
  | 91 => ⟨S128, .f32⟩
  | 92 => ⟨S128, .f32⟩
  | 93 => ⟨S128, .f32⟩
  | 94 => ⟨S128, .f32⟩
  | 95 => ⟨S1x128, .f32⟩
  | 96 => ⟨S1x128, .f32⟩
  | 97 => ⟨S1x128, .f32⟩
  | 98 => ⟨S1x128, .f32⟩
  | 99 => ⟨S50000x128, .f32⟩
  | 100 => ⟨S50000x128, .f32⟩
  | 101 => ⟨S_, .f32⟩
  | 102 => ⟨S50000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S50000, .f32⟩
  | 112 => ⟨S_, .f32⟩
  | 113 => ⟨S50000, .f32⟩
  | 114 => ⟨S50000, .f32⟩
  | 115 => ⟨S50000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S800000x1, .f32⟩
  | 20 => ⟨S800000x128, .f32⟩
  | 21 => ⟨S800000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S50000x128, .f32⟩
  | 31 => ⟨S50000, .f32⟩
  | 32 => ⟨S50000x1, .f32⟩
  | 33 => ⟨S1x128, .f32⟩
  | 34 => ⟨S50000x128, .f32⟩
  | 35 => ⟨S2x128, .f32⟩
  | 36 => ⟨S1x128, .f32⟩
  | 37 => ⟨S128, .f32⟩
  | 38 => ⟨S_, .f32⟩
  | 39 => ⟨S128, .f32⟩
  | 40 => ⟨S128, .f32⟩
  | 41 => ⟨S1x128, .f32⟩
  | 42 => ⟨S128, .f32⟩
  | 43 => ⟨S_, .f32⟩
  | 44 => ⟨S128, .f32⟩
  | 45 => ⟨S128, .f32⟩
  | 46 => ⟨S128, .f32⟩
  | 47 => ⟨S128, .f32⟩
  | 48 => ⟨S1x128, .f32⟩
  | 49 => ⟨S1x128, .f32⟩
  | 50 => ⟨S1x128, .f32⟩
  | 51 => ⟨S1x128, .f32⟩
  | 52 => ⟨S50000x128, .f32⟩
  | 53 => ⟨S50000x384, .f32⟩
  | 54 => ⟨S1x128, .f32⟩
  | 55 => ⟨S1x1, .f32⟩
  | 56 => ⟨S50000x1, .f32⟩
  | 57 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S2x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S2x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x384, .f32⟩
  | .local _ .vmem, ⟨47, _⟩ => ⟨S5000x384, .f32⟩
  | .local _ .vmem, ⟨48, _⟩ => ⟨S384x128, .f32⟩
  | .local _ .vmem, ⟨49, _⟩ => ⟨S1x128, .f32⟩
  | .local _ .vmem, ⟨50, _⟩ => ⟨S128x1, .f32⟩
  | .local _ .vmem, ⟨51, _⟩ => ⟨S1x1, .f32⟩
  | .local _ .vmem, ⟨52, _⟩ => ⟨S5000x1, .f32⟩
  | .local _ .vmem, ⟨53, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53_0 : Ref sig .tc := ⟨.hbm, 81, rfl⟩
abbrev main_v53_1 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_19 : Ref sig .tc := ⟨.hbm, 126, rfl⟩
abbrev main_v89 : Ref sig .tc := ⟨.hbm, 127, rfl⟩
abbrev main_v90 : Ref sig .tc := ⟨.hbm, 128, rfl⟩
abbrev main_c_20 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_c_22 : Ref sig .tc := ⟨.hbm, 138, rfl⟩
abbrev main_v98 : Ref sig .tc := ⟨.hbm, 139, rfl⟩
abbrev main_v99 : Ref sig .tc := ⟨.hbm, 140, rfl⟩
abbrev main_c_23 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_24 : Ref sig .tc := ⟨.hbm, 150, rfl⟩
abbrev main_v108 : Ref sig .tc := ⟨.hbm, 151, rfl⟩
abbrev main_v109 : Ref sig .tc := ⟨.hbm, 152, rfl⟩
abbrev main_c_25 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118_0 : Ref sig .tc := ⟨.hbm, 162, rfl⟩
abbrev main_v118_1 : Ref sig .tc := ⟨.hbm, 163, rfl⟩
abbrev main_v119 : Ref sig .tc := ⟨.hbm, 164, rfl⟩
abbrev main_v120 : Ref sig .tc := ⟨.hbm, 165, rfl⟩
abbrev main_cst_26 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_27 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem4_1 : DmaSem sig := 36
abbrev cc4_sem5_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S2x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x384 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S384x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  shapeCasts_S50000_S50000x1 : S50000.ShapeCasts S50000x1
  shapeCasts_S128_S1x128 : S128.ShapeCasts S1x128
  inb_S2x128_S2x128_0_0 : ∀ a, (![0, 0] : Fin 2 → Nat) a + S2x128.size a ≤ S2x128.size a
  h_S2x128 : 0 < S2x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  concatenates_S50000x128_S50000x128_S50000x128_S50000x384_d1 : Shape.Concatenates [S50000x128, S50000x128, S50000x128] S50000x384 1
  shapeCasts_S1_S1x1 : S1.ShapeCasts S1x1
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S384x128_S384x128_0_0 : ∀ a, (![0, 0] : Fin 2 → Nat) a + S384x128.size a ≤ S384x128.size a
  h_S384x128 : 0 < S384x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x384_S384x128_S5000x128_1_0_0_1_n_n_wf : DotDims.WF S5000x384 S384x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2x128.size a ≤ S2x128.size a
  hwx4_5 : ∀ i : grid4.Coords, EltTy.bits .f32 = 32 ∨ (Rect.block (s := S2x128) S2x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x384.size a ≤ S50000x384.size a
  hwx6_0 : ∀ i : grid6.Coords, EltTy.bits .f32 = 32 ∨ (Rect.block (s := S50000x384) S5000x384.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x128.size a ≤ S384x128.size a
  hwx6_1 : ∀ i : grid6.Coords, EltTy.bits .f32 = 32 ∨ (Rect.block (s := S384x128) S384x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S50000x1.size a
  hwx6_5 : ∀ i : grid6.Coords, EltTy.bits .f32 = 32 ∨ (Rect.block (s := S50000x1) S5000x1.size (cc6_transform_5 i) (hinb6_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53_1) S2x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v114) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v116) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v117) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v118_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v118_1) S2x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v118_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v130) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v131) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v132) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v133) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v134) S5000x384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S384x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v135) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v136) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v137) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x384 : Shape := ⟨2, ![50000, 384]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S384x128, .f32⟩
  | 12 => ⟨S128, .f32⟩
  | 13 => ⟨S128x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000x128, .f32⟩
  | 20 => ⟨S_, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S50000x128, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S50000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x1, .f32⟩
  | 53 => ⟨S800000x128, .f32⟩
  | 54 => ⟨S800000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x384, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x1, .f32⟩
  | _ => ⟨S50000x128, .f32⟩

abbrev hbmTy0_2 (i : Nat) : BufTy := match i % 128 with
  | 0 => ⟨S1x1, .f32⟩
  | 1 => ⟨S50000x1, .f32⟩
  | 2 => ⟨S50000x1, .f32⟩
  | 3 => ⟨S_, .f32⟩
  | 4 => ⟨S50000x1, .f32⟩
  | 5 => ⟨S50000x1, .f32⟩
  | 6 => ⟨S50000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_cst : Ref sig .tc := ⟨.hbm, 86, rfl⟩
abbrev main_call0_v0 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_cst_1 : Ref sig .tc := ⟨.hbm, 105, rfl⟩
abbrev main_call1_v8 : Ref sig .tc := ⟨.hbm, 106, rfl⟩
abbrev main_call1_cst_2 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_cst_3 : Ref sig .tc := ⟨.hbm, 111, rfl⟩
abbrev main_call1_v12 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_14 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_15 : Ref sig .tc := ⟨.hbm, 134, rfl⟩
abbrev main_v79 : Ref sig .tc := ⟨.hbm, 135, rfl⟩
abbrev main_c_16 : Ref sig .tc := ⟨.hbm, 136, rfl⟩
abbrev main_v80 : Ref sig .tc := ⟨.hbm, 137, rfl⟩
abbrev main_v81 : Ref sig .tc := ⟨.hbm, 138, rfl⟩
abbrev main_c_17 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_18 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_19 : Ref sig .tc := ⟨.hbm, 149, rfl⟩
abbrev main_v90 : Ref sig .tc := ⟨.hbm, 150, rfl⟩
abbrev main_v91 : Ref sig .tc := ⟨.hbm, 151, rfl⟩
abbrev main_c_20 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_21 : Ref sig .tc := ⟨.hbm, 159, rfl⟩
abbrev main_v98 : Ref sig .tc := ⟨.hbm, 160, rfl⟩
abbrev main_v99 : Ref sig .tc := ⟨.hbm, 161, rfl⟩
abbrev main_c_22 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_23 : Ref sig .tc := ⟨.hbm, 169, rfl⟩
abbrev main_v106 : Ref sig .tc := ⟨.hbm, 170, rfl⟩
abbrev main_c_24 : Ref sig .tc := ⟨.hbm, 171, rfl⟩
abbrev main_v107 : Ref sig .tc := ⟨.hbm, 172, rfl⟩
abbrev main_v108 : Ref sig .tc := ⟨.hbm, 173, rfl⟩
abbrev main_c_25 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_c_26 : Ref sig .tc := ⟨.hbm, 183, rfl⟩
abbrev main_v117 : Ref sig .tc := ⟨.hbm, 184, rfl⟩
abbrev main_v118 : Ref sig .tc := ⟨.hbm, 185, rfl⟩
abbrev main_c_27 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_call2_cst : Ref sig .tc := ⟨.hbm, 200, rfl⟩
abbrev main_call2_v0 : Ref sig .tc := ⟨.hbm, 201, rfl⟩
abbrev main_v132 : Ref sig .tc := ⟨.hbm, 202, rfl⟩
abbrev main_cst_28 : Ref sig .tc := ⟨.hbm, 203, rfl⟩
abbrev main_v133 : Ref sig .tc := ⟨.hbm, 204, rfl⟩
abbrev main_cst_29 : Ref sig .tc := ⟨.hbm, 205, rfl⟩
abbrev main_v134 : Ref sig .tc := ⟨.hbm, 206, rfl⟩
abbrev main_v135 : Ref sig .tc := ⟨.hbm, 207, rfl⟩
abbrev main_c_30 : Ref sig .tc := ⟨.hbm, 208, rfl⟩
abbrev main_call3_cst : Ref sig .tc := ⟨.hbm, 209, rfl⟩
abbrev main_call3_v0 : Ref sig .tc := ⟨.hbm, 210, rfl⟩
abbrev main_call3_v1 : Ref sig .tc := ⟨.hbm, 211, rfl⟩
abbrev main_call3_cst_0 : Ref sig .tc := ⟨.hbm, 212, rfl⟩
abbrev main_call3_v2 : Ref sig .tc := ⟨.hbm, 213, rfl⟩
abbrev main_call3_v3 : Ref sig .tc := ⟨.hbm, 214, rfl⟩
abbrev main_call3_v4 : Ref sig .tc := ⟨.hbm, 215, rfl⟩
abbrev main_call3_v5 : Ref sig .tc := ⟨.hbm, 216, rfl⟩
abbrev main_call3_v6 : Ref sig .tc := ⟨.hbm, 217, rfl⟩
abbrev main_call3_v7 : Ref sig .tc := ⟨.hbm, 218, rfl⟩
abbrev main_call3_cst_1 : Ref sig .tc := ⟨.hbm, 219, rfl⟩
abbrev main_call3_v8 : Ref sig .tc := ⟨.hbm, 220, rfl⟩
abbrev main_call3_cst_2 : Ref sig .tc := ⟨.hbm, 221, rfl⟩
abbrev main_call3_v9 : Ref sig .tc := ⟨.hbm, 222, rfl⟩
abbrev main_call3_v10 : Ref sig .tc := ⟨.hbm, 223, rfl⟩
abbrev main_call3_v11 : Ref sig .tc := ⟨.hbm, 224, rfl⟩
abbrev main_call3_cst_3 : Ref sig .tc := ⟨.hbm, 225, rfl⟩
abbrev main_call3_v12 : Ref sig .tc := ⟨.hbm, 226, rfl⟩
abbrev main_call3_cst_4 : Ref sig .tc := ⟨.hbm, 227, rfl⟩
abbrev main_call3_call0_v0 : Ref sig .tc := ⟨.hbm, 228, rfl⟩
abbrev main_call3_call0_v1 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_cst_31 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_call4_cst : Ref sig .tc := ⟨.hbm, 252, rfl⟩
abbrev main_call4_v0 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_call5_cst : Ref sig .tc := ⟨.hbm, 259, rfl⟩
abbrev main_call5_v0 : Ref sig .tc := ⟨.hbm, 260, rfl⟩
abbrev main_v162 : Ref sig .tc := ⟨.hbm, 261, rfl⟩
abbrev main_v163 : Ref sig .tc := ⟨.hbm, 262, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  concatenates_S50000x128_S50000x128_S50000x128_S50000x384_d1 : Shape.Concatenates [S50000x128, S50000x128, S50000x128] S50000x384 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x384_S384x128_S50000x128_1_0_0_1_n_n_wf : DotDims.WF S50000x384 S384x128 S50000x128 [1] [0] [0] [1] [] []
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KReg0.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

-- The one store covers the whole output, so what it leaves does not depend on what was there.
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns c.tc arg1 fullShare x0 ∗ owns c.tc arg2 fullShare x1
        ∗ (∃ d, owns c.tc arg3 fullShare d)
        ∗ (iprop(owns c.tc arg1 fullShare x0 ∗ owns c.tc arg2 fullShare x1
            ∗ owns c.tc arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton, owns_eq_rep c.tc arg1, owns_eq_rep c.tc arg2]; unfold cc0__linear_kernel_skel owns
  iintro ⟨H0, H1, ⟨%d2, %f2, -, H2⟩, Hk⟩
  sl_exec
  sl_step
  iapply Hk
  iframe H0 H1
  iexists _; isplitr
  swap; · iexact H2
  ipureintro
  simp only [View.readAt_rep]
  exact View.read_writes_eq_canon _ _ _ (View.cover_of_tiled _ S5000x128.size (by rfl))

-- The body does not write an input, so what it finds there is what it leaves.
theorem before0 (c : Dev nD) (t : Fin cfg0.N) (w : Fin cfg0.W) (hw : (cfg0.win w).isOut = false) (d) :
    (dat0 V c).before w t d = (dat0 V c).after w t := by
  fin_cases w <;> first
    | exact absurd hw (by decide)
    | exact ((dat0 V c).before_in_eq_fetched _ hw (fun _ => rfl) (fun _ _ _ => rfl) (fun _ => rfl) t d).trans rfl

theorem body_obligation0 (c : Dev nD) : BodyObligation (dat0 (F := F) V c) (defs₀ (F := F)) Variants.none () Set.univ := fun t => by
  simp only [bigSep_W0, before0 V c t 0 rfl, before0 V c t 1 rfl]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩⟩
  iapply sound_kernel0 c Set.univ _ _ _ _ _ _ _ (iblk0 V c 0 t) (iblk0 V c 1 t) _
  iframe H0 H1
  isplitl [H2]; · iexists _; iexact H2
  iintro ⟨H0, H1, H2⟩
  iframe

end Cert.Kernel.Hand

end
-- ==== Proof.KReg1.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

abbrev VO1_4 : View sig .tc .vmem S5000x128 .f32 := (Memref.whole cc1_stg4_0 : Memref sig .tc .vmem S5000x128 .f32).view
abbrev VO1_5 : View sig .tc .vmem S2x128 .f32 := (Memref.whole cc1_stg5_0 : Memref sig .tc .vmem S2x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x128 .f32 := win1_5.stage (cfg1.slots t 5)
abbrev hs1_5 (t : Fin cfg1.N) : (ms1_5 t).IsWhole := hstage1_5 ((cfg1.slots t 5).cast nbuf1_5)

theorem owns_unread1 {s : Shape} {e : EltTy} (c : Dev nD) {m : Memref sig .tc .vmem s e} (hm : m.IsWhole) (x : Vec F s e) :
    (owns (c : Thread nD τ) m fullShare x : sProp 𝕄) = iprop(m.view.loc (c : Thread nD τ) ↦[m.view.set]{fullShare} hm.unread x) := by
  unfold owns
  refine BI.equiv_iff.mp ⟨(?_ : (_ : sProp 𝕄) ⊢ _), (?_ : (_ : sProp 𝕄) ⊢ _)⟩
  · iintro ⟨%f, %hf, H⟩; obtain rfl := hm.eq_unread hf; iexact H
  · iintro H; iexists _; isplitr; · ipureintro; exact hm.read_unread _
    iexact H

section
variable (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole)

section
variable (hc0 : cond1_0 i) (x0 : Vec F S5000x128 .f32) (x1 : Vec F S5000x128 .f32) (x2 : Vec F S5000x1 .f32) (x3 : Vec F S1x128 .f32)

set_option maxHeartbeats 1000000 in
noncomputable def kernelRun1_A :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc1__combine_stats_kernel i arg1 harg1 arg2 harg2 arg3 harg3 arg4 harg4 arg5 harg5 arg6 harg6) K } := by
  refine ⟨(?_, ?_), fun E K => ?run⟩
  case run =>
    simp only [cc1__combine_stats_kernel_eq_skeleton]; unfold cc1__combine_stats_kernel_skel
    simp only [k1_part1_eq_skeleton, owns_unread1 c harg1, owns_unread1 c harg2, owns_unread1 c harg3, owns_unread1 c harg4, owns_unread1 c harg5, owns_unread1 c harg6]
    iintro ⟨H0, H1, H2, H3, ⟨%d4, H4⟩, ⟨%d5, H5⟩, Hk⟩
    sl_exec (disch := first | exact hc0)
    sl_step
    iapply Hk
    iframe H0 H1 H2 H3
    isplitl [H4]; · iexists _; iexact H4
    iexists _; iexact H5

theorem cover1_A_4 (y : S5000x128.Idx) : ∃ pc ∈ (kernelRun1_A c i arg1 harg1 arg2 harg2 arg3 harg3 arg4 harg4 arg5 harg5 arg6 harg6 hc0 x0 x1 x2 x3).1.1, y ∈ pc.1.set :=
  View.cover_of_tiledL _ S5000x128.size (by sl_kernel_rfl) y

def out1_A_4 : Vec F S5000x128 .f32 := VO1_4.read (Elt F) (VO1_4.writes (Elt F) VO1_4.junk (kernelRun1_A c i arg1 harg1 arg2 harg2 arg3 harg3 arg4 harg4 arg5 harg5 arg6 harg6 hc0 x0 x1 x2 x3).1.1)

theorem cover1_A_5 (y : S2x128.Idx) : ∃ pc ∈ (kernelRun1_A c i arg1 harg1 arg2 harg2 arg3 harg3 arg4 harg4 arg5 harg5 arg6 harg6 hc0 x0 x1 x2 x3).1.2, y ∈ pc.1.set :=
  View.cover_of_tiledL (s := S2x128) _ S1x128.size (by sl_kernel_rfl) y

def out1_A_5 : Vec F S2x128 .f32 := VO1_5.read (Elt F) (VO1_5.writes (Elt F) VO1_5.junk (kernelRun1_A c i arg1 harg1 arg2 harg2 arg3 harg3 arg4 harg4 arg5 harg5 arg6 harg6 hc0 x0 x1 x2 x3).1.2)

end

section
variable (hc0 : ¬cond1_0 i) (x0 : Vec F S5000x128 .f32) (x1 : Vec F S5000x128 .f32) (x2 : Vec F S5000x1 .f32) (x3 : Vec F S1x128 .f32) (xo5 : Vec F S2x128 .f32)

set_option maxHeartbeats 1000000 in
noncomputable def kernelRun1_B :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc1__combine_stats_kernel i arg1 harg1 arg2 harg2 arg3 harg3 arg4 harg4 arg5 harg5 arg6 harg6) K } := by
  refine ⟨(?_, ?_), fun E K => ?run⟩
  case run =>
    simp only [cc1__combine_stats_kernel_eq_skeleton]; unfold cc1__combine_stats_kernel_skel
    simp only [k1_part1_eq_skeleton, owns_unread1 c harg1, owns_unread1 c harg2, owns_unread1 c harg3, owns_unread1 c harg4, owns_unread1 c harg5, owns_unread1 c harg6]
    iintro ⟨H0, H1, H2, H3, ⟨%d4, H4⟩, H5, Hk⟩
    sl_exec (disch := first | exact hc0)
    sl_step
    iapply Hk
    iframe H0 H1 H2 H3
    isplitl [H4]; · iexists _; iexact H4
    iexists _; iexact H5

theorem cover1_B_4 (y : S5000x128.Idx) : ∃ pc ∈ (kernelRun1_B c i arg1 harg1 arg2 harg2 arg3 harg3 arg4 harg4 arg5 harg5 arg6 harg6 hc0 x0 x1 x2 x3 xo5).1.1, y ∈ pc.1.set :=
  View.cover_of_tiledL _ S5000x128.size (by sl_kernel_rfl) y

def out1_B_4 : Vec F S5000x128 .f32 := VO1_4.read (Elt F) (VO1_4.writes (Elt F) VO1_4.junk (kernelRun1_B c i arg1 harg1 arg2 harg2 arg3 harg3 arg4 harg4 arg5 harg5 arg6 harg6 hc0 x0 x1 x2 x3 xo5).1.1)

theorem cover1_B_5 (y : S2x128.Idx) : ∃ pc ∈ (kernelRun1_B c i arg1 harg1 arg2 harg2 arg3 harg3 arg4 harg4 arg5 harg5 arg6 harg6 hc0 x0 x1 x2 x3 xo5).1.2, y ∈ pc.1.set :=
  View.cover_of_tiledL (s := S2x128) _ S1x128.size (by sl_kernel_rfl) y

def out1_B_5 : Vec F S2x128 .f32 := VO1_5.read (Elt F) (VO1_5.writes (Elt F) VO1_5.junk (kernelRun1_B c i arg1 harg1 arg2 harg2 arg3 harg3 arg4 harg4 arg5 harg5 arg6 harg6 hc0 x0 x1 x2 x3 xo5).1.2)

end

end

def outs1_A (c : Dev nD) (t : Fin cfg1.N) (h0 : t.val % 10 = 0) : Vec F S5000x128 .f32 × Vec F S2x128 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t))

def outs1_B (c : Dev nD) (t : Fin cfg1.N) (h0 : ¬t.val % 10 = 0) (xo5 : Vec F S2x128 .f32) : Vec F S5000x128 .f32 × Vec F S2x128 .f32 :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) xo5,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) xo5)

-- The two outputs after point `n`, by recursion on `n`: a later point adds its column sums to the sums so far.
def outsAt1 (c : Dev nD) : (n : ℕ) → n < cfg1.N → Vec F S5000x128 .f32 × Vec F S2x128 .f32
  | 0, hn => outs1_A V c ⟨0, hn⟩ (Nat.zero_mod _)
  | n + 1, hn =>
    if h0 : (n + 1) % 10 = 0 then outs1_A V c ⟨n + 1, hn⟩ h0
    else outs1_B V c ⟨n + 1, hn⟩ h0 (outsAt1 c n (Nat.lt_of_succ_lt hn)).2

theorem outsAt1_A (c : Dev nD) (t : Fin cfg1.N) (h0 : t.val % 10 = 0) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => by rw [after1_2]; rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => by rw [after1_3]; rfl) t d).trans rfl

theorem before1_5_B (c : Dev nD) (t : Fin cfg1.N) (h0 : ¬t.val % 10 = 0) (d) :
    (dat1 V c).before 5 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

set_option maxHeartbeats 800000 in
-- Each output's pieces cover its block, so they read back the same over any prior contents.
theorem body_obligation1 (c : Dev nD) : BodyObligation (dat1 (F := F) V c) (defs₀ (F := F)) Variants.none () Set.univ := fun t => by
  rw [bigSep_W1, bigSep_W1]
  change (iprop(_ ∗ _ ∗ (∃ d, owns (c : Thread nD τ) (ms1_0 t) _ ((dat1 V c).before 0 t d)) ∗ (∃ d, owns (c : Thread nD τ) (ms1_1 t) _ ((dat1 V c).before 1 t d)) ∗ (∃ d, owns (c : Thread nD τ) (ms1_2 t) _ ((dat1 V c).before 2 t d)) ∗ (∃ d, owns (c : Thread nD τ) (ms1_3 t) _ ((dat1 V c).before 3 t d)) ∗ (∃ d, owns (c : Thread nD τ) (ms1_4 t) _ _) ∗ (∃ d, owns (c : Thread nD τ) (ms1_5 t) _ ((dat1 V c).before 5 t d))) : sProp 𝕄)
    ⊢ wp _ _ _ (bodyAt1 t) fun _ => iprop((dat1 V c).Φ t.castSucc ∗ (dat1 V c).owesAt () t.castSucc ∗ owns (c : Thread nD τ) (ms1_0 t) _ ((dat1 V c).after 0 t) ∗ owns (c : Thread nD τ) (ms1_1 t) _ ((dat1 V c).after 1 t) ∗ owns (c : Thread nD τ) (ms1_2 t) _ ((dat1 V c).after 2 t) ∗ owns (c : Thread nD τ) (ms1_3 t) _ ((dat1 V c).after 3 t) ∗ owns (c : Thread nD τ) (ms1_4 t) _ ((dat1 V c).after 4 t) ∗ owns (c : Thread nD τ) (ms1_5 t) _ ((dat1 V c).after 5 t))
  simp only [before1_0, before1_1, before1_2, before1_3]
  rw [after1_0, after1_1, after1_2, after1_3, after1_4, after1_5]
  by_cases h0 : t.val % 10 = 0
  · rw [outsAt1_A V c t h0]
    dsimp only
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover1_A_4 c _ _ _ _ _ _ _ _ _ _ _ _ _ _ _ _ _ _)
    iexists _; iframe H5; ipureintro; exact View.read_writes_of_cover _ _ _ _ _ (cover1_A_5 c _ _ _ _ _ _ _ _ _ _ _ _ _ _ _ _ _ _)
  · rw [outsAt1_B V c t h0]
    dsimp only
    simp only [before1_5_B V c t h0]
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2 Set.univ _)
    iframe H0 H1 H2 H3 H5
    isplitl [H4]; · iexists _; iexact H4
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover1_B_4 c _ _ _ _ _ _ _ _ _ _ _ _ _ _ _ _ _ _ _)
    iexists _; iframe H5; ipureintro; exact View.read_writes_of_cover _ _ _ _ _ (cover1_B_5 c _ _ _ _ _ _ _ _ _ _ _ _ _ _ _ _ _ _ _)

end Cert.Kernel.Hand

end
-- ==== Proof.KReg2.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

def out2_5 (x0 : Vec F S5000x128 .f32) (x1 x2 x3 x4 : Vec F S1x128 .f32) : Vec F S5000x128 .f32 :=
  View.canon [⟨r2_0, k2_pay1 (View.ld x2 r2_1) (View.ld x3 r2_1) (View.ld x0 r2_0) (View.ld x1 r2_1) (View.ld x4 r2_1)⟩]

set_option maxHeartbeats 1000000 in
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fout, -, Hout⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; isplitr
  swap; · iexact Hout
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => by rw [after2_0]; rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => by rw [after2_1]; rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => by rw [after2_2]; rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => by rw [after2_3]; rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => by rw [after2_4]; rfl) t d).trans rfl

theorem body_obligation2 (c : Dev nD) : BodyObligation (dat2 (F := F) V c) (defs₀ (F := F)) Variants.none () Set.univ := fun t => by
  rw [bigSep_W2, bigSep_W2]
  change (iprop(_ ∗ _ ∗ (∃ d, owns (c : Thread nD τ) (st2_0 t) _ ((dat2 V c).before 0 t d)) ∗ (∃ d, owns (c : Thread nD τ) (st2_1 t) _ ((dat2 V c).before 1 t d)) ∗ (∃ d, owns (c : Thread nD τ) (st2_2 t) _ ((dat2 V c).before 2 t d)) ∗ (∃ d, owns (c : Thread nD τ) (st2_3 t) _ ((dat2 V c).before 3 t d)) ∗ (∃ d, owns (c : Thread nD τ) (st2_4 t) _ ((dat2 V c).before 4 t d)) ∗ (∃ d, owns (c : Thread nD τ) (st2_5 t) _ _)) : sProp 𝕄)
    ⊢ wp _ _ _ (bodyAt2 t) fun _ => iprop((dat2 V c).Φ t.castSucc ∗ (dat2 V c).owesAt () t.castSucc ∗ owns (c : Thread nD τ) (st2_0 t) _ ((dat2 V c).after 0 t) ∗ owns (c : Thread nD τ) (st2_1 t) _ ((dat2 V c).after 1 t) ∗ owns (c : Thread nD τ) (st2_2 t) _ ((dat2 V c).after 2 t) ∗ owns (c : Thread nD τ) (st2_3 t) _ ((dat2 V c).after 3 t) ∗ owns (c : Thread nD τ) (st2_4 t) _ ((dat2 V c).after 4 t) ∗ owns (c : Thread nD τ) (st2_5 t) _ ((dat2 V c).after 5 t))
  simp only [before2_0, before2_1, before2_2, before2_3, before2_4]
  rw [after2_0, after2_1, after2_2, after2_3, after2_4, after2_5]
  iintro ⟨HΦ, Ho, ⟨%d0, H0⟩, ⟨%d1, H1⟩, ⟨%d2, H2⟩, ⟨%d3, H3⟩, ⟨%d4, H4⟩, ⟨%dout, Hout⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  iframe H0 H1 H2 H3 H4
  isplitl [Hout]; · iexists _; iexact Hout
  iintro ⟨H0, H1, H2, H3, H4, Hout⟩
  iframe

end Cert.Kernel.Hand

end
-- ==== Proof.KReg3.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨r3_2, k3_pay1 (View.ld x0 r3_0) (View.ld x1 r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

-- The one store covers the whole output, so what it leaves does not depend on what was there.
theorem sound_kernel3 (c : Dev nD) (E : Set ℕ) (i : grid3.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns c.tc arg1 fullShare x0 ∗ owns c.tc arg2 fullShare x1
        ∗ (∃ d, owns c.tc arg3 fullShare d)
        ∗ (iprop(owns c.tc arg1 fullShare x0 ∗ owns c.tc arg2 fullShare x1
            ∗ owns c.tc arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton, owns_eq_rep c.tc arg1, owns_eq_rep c.tc arg2]; unfold cc3__linear_kernel_skel owns
  iintro ⟨H0, H1, ⟨%d2, %f2, -, H2⟩, Hk⟩
  sl_exec
  sl_step
  iapply Hk
  iframe H0 H1
  iexists _; isplitr
  swap; · iexact H2
  ipureintro
  simp only [View.readAt_rep]
  exact View.read_writes_eq_canon _ _ _ (View.cover_of_tiled _ S5000x128.size (by rfl))

-- The body does not write an input, so what it finds there is what it leaves.
theorem before3 (c : Dev nD) (t : Fin cfg3.N) (w : Fin cfg3.W) (hw : (cfg3.win w).isOut = false) (d) :
    (dat3 V c).before w t d = (dat3 V c).after w t := by
  fin_cases w <;> first
    | exact absurd hw (by decide)
    | exact ((dat3 V c).before_in_eq_fetched _ hw (fun _ => rfl) (fun _ _ _ => rfl) (fun _ => rfl) t d).trans rfl

theorem body_obligation3 (c : Dev nD) : BodyObligation (dat3 (F := F) V c) (defs₀ (F := F)) Variants.none () Set.univ := fun t => by
  simp only [bigSep_W3, before3 V c t 0 rfl, before3 V c t 1 rfl]
  rw [show (dat3 V c).owesAt () t.succ = (dat3 V c).owesAt () t.castSucc from rfl]
  dsimp only [dat3]
  show _ ⊢ wp _ _ _ (bodyAt3 t) _
  iintro ⟨HΦ, Ho, ⟨%d0, H0⟩, ⟨%d1, H1⟩, ⟨%d2, H2⟩⟩
  iapply sound_kernel3 c Set.univ _ _ _ _ _ _ _ (iblk3 V c 0 t) (iblk3 V c 1 t) _
  iframe H0 H1
  isplitl [H2]; · iexists _; iexact H2
  iintro ⟨H0, H1, H2⟩
  iframe

end Cert.Kernel.Hand

end
-- ==== Proof.KReg4.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev VO4_4 : View sig .tc .vmem S5000x128 .f32 := (Memref.whole cc4_stg4_0 : Memref sig .tc .vmem S5000x128 .f32).view
abbrev VO4_5 : View sig .tc .vmem S2x128 .f32 := (Memref.whole cc4_stg5_0 : Memref sig .tc .vmem S2x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2x128 .f32 := win4_5.stage (cfg4.slots t 5)
abbrev hs4_5 (t : Fin cfg4.N) : (ms4_5 t).IsWhole := hstage4_5 ((cfg4.slots t 5).cast nbuf4_5)

theorem owns_unread4 {s : Shape} {e : EltTy} (c : Dev nD) {m : Memref sig .tc .vmem s e} (hm : m.IsWhole) (x : Vec F s e) :
    (owns (c : Thread nD τ) m fullShare x : sProp 𝕄) = iprop(m.view.loc (c : Thread nD τ) ↦[m.view.set]{fullShare} hm.unread x) := by
  unfold owns
  refine BI.equiv_iff.mp ⟨(?_ : (_ : sProp 𝕄) ⊢ _), (?_ : (_ : sProp 𝕄) ⊢ _)⟩
  · iintro ⟨%f, %hf, H⟩; obtain rfl := hm.eq_unread hf; iexact H
  · iintro H; iexists _; isplitr; · ipureintro; exact hm.read_unread _
    iexact H

section
variable (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole)

section
variable (hc0 : cond4_0 i) (x0 : Vec F S5000x128 .f32) (x1 : Vec F S5000x128 .f32) (x2 : Vec F S5000x1 .f32) (x3 : Vec F S1x128 .f32)

set_option maxHeartbeats 1000000 in
noncomputable def kernelRun4_A :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc4__combine_stats_kernel i arg1 harg1 arg2 harg2 arg3 harg3 arg4 harg4 arg5 harg5 arg6 harg6) K } := by
  refine ⟨(?_, ?_), fun E K => ?run⟩
  case run =>
    simp only [cc4__combine_stats_kernel_eq_skeleton]; unfold cc4__combine_stats_kernel_skel
    simp only [k4_part1_eq_skeleton, owns_unread4 c harg1, owns_unread4 c harg2, owns_unread4 c harg3, owns_unread4 c harg4, owns_unread4 c harg5, owns_unread4 c harg6]
    iintro ⟨H0, H1, H2, H3, ⟨%d4, H4⟩, ⟨%d5, H5⟩, Hk⟩
    sl_exec (disch := first | exact hc0)
    sl_step
    iapply Hk
    iframe H0 H1 H2 H3
    isplitl [H4]; · iexists _; iexact H4
    iexists _; iexact H5

theorem cover4_A_4 (y : S5000x128.Idx) : ∃ pc ∈ (kernelRun4_A c i arg1 harg1 arg2 harg2 arg3 harg3 arg4 harg4 arg5 harg5 arg6 harg6 hc0 x0 x1 x2 x3).1.1, y ∈ pc.1.set :=
  View.cover_of_tiledL _ S5000x128.size (by sl_kernel_rfl) y

def out4_A_4 : Vec F S5000x128 .f32 := VO4_4.read (Elt F) (VO4_4.writes (Elt F) VO4_4.junk (kernelRun4_A c i arg1 harg1 arg2 harg2 arg3 harg3 arg4 harg4 arg5 harg5 arg6 harg6 hc0 x0 x1 x2 x3).1.1)

theorem cover4_A_5 (y : S2x128.Idx) : ∃ pc ∈ (kernelRun4_A c i arg1 harg1 arg2 harg2 arg3 harg3 arg4 harg4 arg5 harg5 arg6 harg6 hc0 x0 x1 x2 x3).1.2, y ∈ pc.1.set :=
  View.cover_of_tiledL (s := S2x128) _ S1x128.size (by sl_kernel_rfl) y

def out4_A_5 : Vec F S2x128 .f32 := VO4_5.read (Elt F) (VO4_5.writes (Elt F) VO4_5.junk (kernelRun4_A c i arg1 harg1 arg2 harg2 arg3 harg3 arg4 harg4 arg5 harg5 arg6 harg6 hc0 x0 x1 x2 x3).1.2)

end

section
variable (hc0 : ¬cond4_0 i) (x0 : Vec F S5000x128 .f32) (x1 : Vec F S5000x128 .f32) (x2 : Vec F S5000x1 .f32) (x3 : Vec F S1x128 .f32) (xo5 : Vec F S2x128 .f32)

set_option maxHeartbeats 1000000 in
noncomputable def kernelRun4_B :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc4__combine_stats_kernel i arg1 harg1 arg2 harg2 arg3 harg3 arg4 harg4 arg5 harg5 arg6 harg6) K } := by
  refine ⟨(?_, ?_), fun E K => ?run⟩
  case run =>
    simp only [cc4__combine_stats_kernel_eq_skeleton]; unfold cc4__combine_stats_kernel_skel
    simp only [k4_part1_eq_skeleton, owns_unread4 c harg1, owns_unread4 c harg2, owns_unread4 c harg3, owns_unread4 c harg4, owns_unread4 c harg5, owns_unread4 c harg6]
    iintro ⟨H0, H1, H2, H3, ⟨%d4, H4⟩, H5, Hk⟩
    sl_exec (disch := first | exact hc0)
    sl_step
    iapply Hk
    iframe H0 H1 H2 H3
    isplitl [H4]; · iexists _; iexact H4
    iexists _; iexact H5

theorem cover4_B_4 (y : S5000x128.Idx) : ∃ pc ∈ (kernelRun4_B c i arg1 harg1 arg2 harg2 arg3 harg3 arg4 harg4 arg5 harg5 arg6 harg6 hc0 x0 x1 x2 x3 xo5).1.1, y ∈ pc.1.set :=
  View.cover_of_tiledL _ S5000x128.size (by sl_kernel_rfl) y

def out4_B_4 : Vec F S5000x128 .f32 := VO4_4.read (Elt F) (VO4_4.writes (Elt F) VO4_4.junk (kernelRun4_B c i arg1 harg1 arg2 harg2 arg3 harg3 arg4 harg4 arg5 harg5 arg6 harg6 hc0 x0 x1 x2 x3 xo5).1.1)

theorem cover4_B_5 (y : S2x128.Idx) : ∃ pc ∈ (kernelRun4_B c i arg1 harg1 arg2 harg2 arg3 harg3 arg4 harg4 arg5 harg5 arg6 harg6 hc0 x0 x1 x2 x3 xo5).1.2, y ∈ pc.1.set :=
  View.cover_of_tiledL (s := S2x128) _ S1x128.size (by sl_kernel_rfl) y

def out4_B_5 : Vec F S2x128 .f32 := VO4_5.read (Elt F) (VO4_5.writes (Elt F) VO4_5.junk (kernelRun4_B c i arg1 harg1 arg2 harg2 arg3 harg3 arg4 harg4 arg5 harg5 arg6 harg6 hc0 x0 x1 x2 x3 xo5).1.2)

end

end

def outs4_A (c : Dev nD) (t : Fin cfg4.N) (h0 : t.val % 10 = 0) : Vec F S5000x128 .f32 × Vec F S2x128 .f32 :=
  (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t),
   out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t))

def outs4_B (c : Dev nD) (t : Fin cfg4.N) (h0 : ¬t.val % 10 = 0) (xo5 : Vec F S2x128 .f32) : Vec F S5000x128 .f32 × Vec F S2x128 .f32 :=
  (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) xo5,
   out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) xo5)

-- The two outputs after point `n`, by recursion on `n`: a later point adds its column sums to the sums so far.
def outsAt4 (c : Dev nD) : (n : ℕ) → n < cfg4.N → Vec F S5000x128 .f32 × Vec F S2x128 .f32
  | 0, hn => outs4_A V c ⟨0, hn⟩ (Nat.zero_mod _)
  | n + 1, hn =>
    if h0 : (n + 1) % 10 = 0 then outs4_A V c ⟨n + 1, hn⟩ h0
    else outs4_B V c ⟨n + 1, hn⟩ h0 (outsAt4 c n (Nat.lt_of_succ_lt hn)).2

theorem outsAt4_A (c : Dev nD) (t : Fin cfg4.N) (h0 : t.val % 10 = 0) :
    outsAt4 V c t.val t.isLt =
      (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t),
       out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t)) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt =
      (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2,
       out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => by rw [after4_0]; rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => by rw [after4_1]; rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => by rw [after4_2]; rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => by rw [after4_3]; rfl) t d).trans rfl

theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

set_option maxHeartbeats 800000 in
-- Each output's pieces cover its block, so they read back the same over any prior contents.
theorem body_obligation4 (c : Dev nD) : BodyObligation (dat4 (F := F) V c) (defs₀ (F := F)) Variants.none () Set.univ := fun t => by
  rw [bigSep_W4, bigSep_W4]
  change (iprop(_ ∗ _ ∗ (∃ d, owns (c : Thread nD τ) (ms4_0 t) _ ((dat4 V c).before 0 t d)) ∗ (∃ d, owns (c : Thread nD τ) (ms4_1 t) _ ((dat4 V c).before 1 t d)) ∗ (∃ d, owns (c : Thread nD τ) (ms4_2 t) _ ((dat4 V c).before 2 t d)) ∗ (∃ d, owns (c : Thread nD τ) (ms4_3 t) _ ((dat4 V c).before 3 t d)) ∗ (∃ d, owns (c : Thread nD τ) (ms4_4 t) _ _) ∗ (∃ d, owns (c : Thread nD τ) (ms4_5 t) _ ((dat4 V c).before 5 t d))) : sProp 𝕄)
    ⊢ wp _ _ _ (bodyAt4 t) fun _ => iprop((dat4 V c).Φ t.castSucc ∗ (dat4 V c).owesAt () t.castSucc ∗ owns (c : Thread nD τ) (ms4_0 t) _ ((dat4 V c).after 0 t) ∗ owns (c : Thread nD τ) (ms4_1 t) _ ((dat4 V c).after 1 t) ∗ owns (c : Thread nD τ) (ms4_2 t) _ ((dat4 V c).after 2 t) ∗ owns (c : Thread nD τ) (ms4_3 t) _ ((dat4 V c).after 3 t) ∗ owns (c : Thread nD τ) (ms4_4 t) _ ((dat4 V c).after 4 t) ∗ owns (c : Thread nD τ) (ms4_5 t) _ ((dat4 V c).after 5 t))
  simp only [before4_0, before4_1, before4_2, before4_3]
  rw [after4_0, after4_1, after4_2, after4_3, after4_4, after4_5]
  by_cases h0 : t.val % 10 = 0
  · rw [outsAt4_A V c t h0]
    dsimp only
    unfold out4_A_4 out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (iblk4 V c 0 t) (iblk4 V c 1 t) (iblk4 V c 2 t) (iblk4 V c 3 t)).2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover4_A_4 c _ _ _ _ _ _ _ _ _ _ _ _ _ _ _ _ _ _)
    iexists _; iframe H5; ipureintro; exact View.read_writes_of_cover _ _ _ _ _ (cover4_A_5 c _ _ _ _ _ _ _ _ _ _ _ _ _ _ _ _ _ _)
  · rw [outsAt4_B V c t h0]
    dsimp only
    simp only [before4_5_B V c t h0]
    unfold out4_B_4 out4_B_5
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) _ _ _ _ _ _ _ _ _ _ _ _ (fun h => h0 ((hcond4_0 t).mp h)) (iblk4 V c 0 t) (iblk4 V c 1 t) (iblk4 V c 2 t) (iblk4 V c 3 t) _).2 Set.univ _)
    iframe H0 H1 H2 H3 H5
    isplitl [H4]; · iexists _; iexact H4
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover4_B_4 c _ _ _ _ _ _ _ _ _ _ _ _ _ _ _ _ _ _ _)
    iexists _; iframe H5; ipureintro; exact View.read_writes_of_cover _ _ _ _ _ (cover4_B_5 c _ _ _ _ _ _ _ _ _ _ _ _ _ _ _ _ _ _ _)

end Cert.Kernel.Hand

end
-- ==== Proof.KReg5.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

def out5_5 (x0 : Vec F S5000x128 .f32) (x1 x2 x3 x4 : Vec F S1x128 .f32) : Vec F S5000x128 .f32 :=
  View.canon [⟨r5_0, k5_pay1 (View.ld x2 r5_1) (View.ld x3 r5_1) (View.ld x0 r5_0) (View.ld x1 r5_1) (View.ld x4 r5_1)⟩]

set_option maxHeartbeats 1000000 in
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fout, -, Hout⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; isplitr
  swap; · iexact Hout
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => by rw [after5_0]; rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => by rw [after5_1]; rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => by rw [after5_2]; rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => by rw [after5_3]; rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => by rw [after5_4]; rfl) t d).trans rfl

theorem body_obligation5 (c : Dev nD) : BodyObligation (dat5 (F := F) V c) (defs₀ (F := F)) Variants.none () Set.univ := fun t => by
  rw [bigSep_W5, bigSep_W5]
  change (iprop(_ ∗ _ ∗ (∃ d, owns (c : Thread nD τ) (st5_0 t) _ ((dat5 V c).before 0 t d)) ∗ (∃ d, owns (c : Thread nD τ) (st5_1 t) _ ((dat5 V c).before 1 t d)) ∗ (∃ d, owns (c : Thread nD τ) (st5_2 t) _ ((dat5 V c).before 2 t d)) ∗ (∃ d, owns (c : Thread nD τ) (st5_3 t) _ ((dat5 V c).before 3 t d)) ∗ (∃ d, owns (c : Thread nD τ) (st5_4 t) _ ((dat5 V c).before 4 t d)) ∗ (∃ d, owns (c : Thread nD τ) (st5_5 t) _ _)) : sProp 𝕄)
    ⊢ wp _ _ _ (bodyAt5 t) fun _ => iprop((dat5 V c).Φ t.castSucc ∗ (dat5 V c).owesAt () t.castSucc ∗ owns (c : Thread nD τ) (st5_0 t) _ ((dat5 V c).after 0 t) ∗ owns (c : Thread nD τ) (st5_1 t) _ ((dat5 V c).after 1 t) ∗ owns (c : Thread nD τ) (st5_2 t) _ ((dat5 V c).after 2 t) ∗ owns (c : Thread nD τ) (st5_3 t) _ ((dat5 V c).after 3 t) ∗ owns (c : Thread nD τ) (st5_4 t) _ ((dat5 V c).after 4 t) ∗ owns (c : Thread nD τ) (st5_5 t) _ ((dat5 V c).after 5 t))
  simp only [before5_0, before5_1, before5_2, before5_3, before5_4]
  rw [after5_0, after5_1, after5_2, after5_3, after5_4, after5_5]
  iintro ⟨HΦ, Ho, ⟨%d0, H0⟩, ⟨%d1, H1⟩, ⟨%d2, H2⟩, ⟨%d3, H3⟩, ⟨%d4, H4⟩, ⟨%dout, Hout⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [Hout]; · iexists _; iexact Hout
  iintro ⟨H0, H1, H2, H3, H4, Hout⟩
  iframe

end Cert.Kernel.Hand

end
-- ==== Proof.KReg6.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x384 := Rect.unit (s := S5000x384) ![0, 0] S5000x384.size inb_S5000x384_S5000x384_0_0
abbrev r6_1 : Rect S384x128 := Rect.unit (s := S384x128) ![0, 0] S384x128.size inb_S384x128_S384x128_0_0
abbrev r6_2 : Rect S1x128 := Rect.unit (s := S1x128) ![0, 0] S1x128.size inb_S1x128_S1x128_0_0
abbrev r6_3 : Rect S128x1 := Rect.unit (s := S128x1) ![0, 0] S128x1.size inb_S128x1_S128x1_0_0
abbrev r6_4 : Rect S1x1 := Rect.unit (s := S1x1) ![0, 0] S1x1.size inb_S1x1_S1x1_0_0
abbrev r6_5 : Rect S5000x1 := Rect.unit (s := S5000x1) ![0, 0] S5000x1.size inb_S5000x1_S5000x1_0_0

def out6_5 (x0 : Vec F S5000x384 .f32) (x1 : Vec F S384x128 .f32) (x2 : Vec F S1x128 .f32) (x3 : Vec F S128x1 .f32)
    (x4 : Vec F S1x1 .f32) : Vec F S5000x1 .f32 :=
  View.canon [⟨r6_5, k6_pay1 (View.ld x0 r6_0) (View.ld x1 r6_1) (View.ld x2 r6_2) (View.ld x3 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

-- The one store covers the whole output, so what it leaves does not depend on what was there.
theorem sound_kernel6 (c : Dev nD) (E : Set ℕ) (i : grid6.Coords)
    (arg1 : Memref sig .tc .vmem S5000x384 .f32) (harg1 : arg1.IsWhole)
    (arg2 : Memref sig .tc .vmem S384x128 .f32) (harg2 : arg2.IsWhole)
    (arg3 : Memref sig .tc .vmem S1x128 .f32) (harg3 : arg3.IsWhole)
    (arg4 : Memref sig .tc .vmem S128x1 .f32) (harg4 : arg4.IsWhole)
    (arg5 : Memref sig .tc .vmem S1x1 .f32) (harg5 : arg5.IsWhole)
    (arg6 : Memref sig .tc .vmem S5000x1 .f32) (harg6 : arg6.IsWhole)
    (x0 : Vec F S5000x384 .f32) (x1 : Vec F S384x128 .f32) (x2 : Vec F S1x128 .f32) (x3 : Vec F S128x1 .f32)
    (x4 : Vec F S1x1 .f32) (K : PUnit → sProp 𝕄) :
    iprop(owns c.tc arg1 fullShare x0 ∗ owns c.tc arg2 fullShare x1
        ∗ owns c.tc arg3 fullShare x2 ∗ owns c.tc arg4 fullShare x3
        ∗ owns c.tc arg5 fullShare x4
        ∗ (∃ d, owns c.tc arg6 fullShare d)
        ∗ (iprop(owns c.tc arg1 fullShare x0 ∗ owns c.tc arg2 fullShare x1
            ∗ owns c.tc arg3 fullShare x2 ∗ owns c.tc arg4 fullShare x3
            ∗ owns c.tc arg5 fullShare x4
            ∗ owns c.tc arg6 fullShare (out6_5 x0 x1 x2 x3 x4)) -∗ K ⟨⟩))
      ⊢ wp frame (wpE (defs₀ (F := F)) Variants.none c none) E
          (cc6__mlp_kernel i arg1 harg1 arg2 harg2 arg3 harg3 arg4 harg4 arg5 harg5 arg6 harg6) K := by
  simp only [cc6__mlp_kernel_eq_skeleton, owns_eq_rep c.tc arg1, owns_eq_rep c.tc arg2, owns_eq_rep c.tc arg3, owns_eq_rep c.tc arg4,
    owns_eq_rep c.tc arg5]; unfold cc6__mlp_kernel_skel owns
  iintro ⟨H0, H1, H2, H3, H4, ⟨%d5, %f5, -, H5⟩, Hk⟩
  sl_exec
  sl_step
  iapply Hk
  iframe H0 H1 H2 H3 H4
  iexists _; isplitr
  swap; · iexact H5
  ipureintro
  simp only [View.readAt_rep]
  exact View.read_writes_eq_canon _ _ _ (View.cover_of_tiled _ S5000x1.size (by rfl))

-- The body does not write an input, so what it finds there is what it leaves.
theorem before6 (c : Dev nD) (t : Fin cfg6.N) (w : Fin cfg6.W) (hw : (cfg6.win w).isOut = false) (d) :
    (dat6 V c).before w t d = (dat6 V c).after w t := by
  fin_cases w <;> first
    | exact absurd hw (by decide)
    | exact ((dat6 V c).before_in_eq_fetched _ hw (fun _ => rfl) (fun _ _ _ => rfl) (fun _ => rfl) t d).trans rfl

theorem body_obligation6 (c : Dev nD) : BodyObligation (dat6 (F := F) V c) (defs₀ (F := F)) Variants.none () Set.univ := fun t => by
  simp only [bigSep_W6, before6 V c t 0 rfl, before6 V c t 1 rfl, before6 V c t 2 rfl, before6 V c t 3 rfl, before6 V c t 4 rfl]
  rw [show (dat6 V c).owesAt () t.succ = (dat6 V c).owesAt () t.castSucc from rfl]
  dsimp only [dat6]
  show _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩⟩
  iapply sound_kernel6 c Set.univ _ _ _ _ _ _ _ _ _ _ _ _ _
    (iblk6 V c 0 t) (iblk6 V c 1 t) (iblk6 V c 2 t) (iblk6 V c 3 t) (iblk6 V c 4 t) _
  iframe H0 H1 H2 H3 H4
  isplitl [H5]; · iexists _; iexact H5
  iintro ⟨H0, H1, H2, H3, H4, H5⟩
  iframe

end Cert.Kernel.Hand

end
-- ==== Proof.KRun.lean ====
import proofs.«101480_j18889266168017_1_alg».proof.Proof.Gen.Kernel.Launch
import proofs.«101480_j18889266168017_1_alg».proof.Proof.Gen.Kernel.Skeleton
import proofs.«101480_j18889266168017_1_alg».proof.Proof.Gen.Kernel.Points
import proofs.«101480_j18889266168017_1_alg».proof.Proof.Gen.Kernel.Regions
import proofs.«101480_j18889266168017_1_alg».proof.Proof.KReg0
import proofs.«101480_j18889266168017_1_alg».proof.Proof.KReg1
import proofs.«101480_j18889266168017_1_alg».proof.Proof.KReg2
import proofs.«101480_j18889266168017_1_alg».proof.Proof.KReg3
import proofs.«101480_j18889266168017_1_alg».proof.Proof.KReg4
import proofs.«101480_j18889266168017_1_alg».proof.Proof.KReg5
import proofs.«101480_j18889266168017_1_alg».proof.Proof.KReg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A region changes no array but those of its output windows.
theorem withArrays_keep {cfg : Cfg sig Λ₀} {c : Dev nD} (dat : Dat τ (Elt F) Unit ℕ (UR sig nD τ) ℕ cfg c)
    (hinj : Function.Injective (Pipeline.arrRef cfg.spec)) (Wp : Valuation τ sig (Elt F))
    (hA : ∀ w, dat.A w = Wp (Proc.devRef .tc (Pipeline.arrRef cfg.spec w))) (b : Ref sig .tc)
    (hb : ∀ w, Pipeline.arrRef cfg.spec w = b → (cfg.win w).isOut = false) :
    Pipeline.withArrays cfg.spec c Wp (fun w => dat.arrAt w cfg.N) (Proc.devRef .tc b) = Wp (Proc.devRef .tc b) := by
  by_cases h : ∃ w, Pipeline.arrRef cfg.spec w = b
  · obtain ⟨w, rfl⟩ := h
    exact (Pipeline.withArrays_arr _ hinj c _ _ w).trans ((dat.arrAt_in w (hb w rfl) _).trans (hA w))
  · exact Pipeline.withArrays_of_ne _ c _ _ b fun w e => h ⟨w, e⟩

variable (m : (ℓ : Loc nD τ sig) → Buf (Elt F) ℓ) (ρ : Dev nD → PrngReg)

-- W j is the contents of the buffers after item j − 1 of the main function, folded from the launch memory; V j reads it by array.
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N
abbrev V7 : (c : Dev nD) → (b : Ref sig .tc) → Buf (Elt F) ((c : Thread nD τ).loc b) := fun c b => W7 m ρ c b
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec4 c (W8 m ρ c) fun w => (dat4 (V8 m ρ) c).arrAt w cfg4.N
abbrev V9 : (c : Dev nD) → (b : Ref sig .tc) → Buf (Elt F) ((c : Thread nD τ).loc b) := fun c b => W9 m ρ c b
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec5 c (W10 m ρ c) fun w => (dat5 (V10 m ρ) c).arrAt w cfg5.N
abbrev V11 : (c : Dev nD) → (b : Ref sig .tc) → Buf (Elt F) ((c : Thread nD τ).loc b) := fun c b => W11 m ρ c b
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b
def W13 (c : Dev nD) : Valuation τ sig (Elt F) :=
  Pipeline.withArrays spec6 c (W12 m ρ c) fun w => (dat6 (V12 m ρ) c).arrAt w cfg6.N
abbrev V13 : (c : Dev nD) → (b : Ref sig .tc) → Buf (Elt F) ((c : Thread nD τ).loc b) := fun c b => W13 m ρ c b
abbrev W14 : Dev nD → Valuation τ sig (Elt F) := fun c => StableHlo.after hostOps7 (W13 m ρ c)

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_keep (c : Dev nD) (b : Ref sig .tc) (h : b ∉ ([main_v4] : List (Ref sig .tc))) :
    W2 m ρ c (Proc.devRef .tc b) = W1 m ρ c (Proc.devRef .tc b) :=
  withArrays_keep (dat0 (V1 m ρ) c) launch0.win.arr_inj _ (A_eq0 (V1 m ρ) c) b fun w e =>
    (by decide : ∀ w : Fin cfg0.W, Pipeline.arrRef spec0 w ∉ ([main_v4] : List (Ref sig .tc)) → (cfg0.win w).isOut = false) w (e ▸ h)
theorem W2_out (c : Dev nD) : W2 m ρ c (Proc.devRef .tc main_v4) = (dat0 (V1 m ρ) c).arrAt 2 cfg0.N :=
  Pipeline.withArrays_arr spec0 launch0.win.arr_inj c _ _ 2
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_keep (c : Dev nD) (b : Ref sig .tc) (h : b ∉ ([main_v53_0, main_v53_1] : List (Ref sig .tc))) :
    W4 m ρ c (Proc.devRef .tc b) = W3 m ρ c (Proc.devRef .tc b) :=
  withArrays_keep (dat1 (V3 m ρ) c) launch1.win.arr_inj _ (A_eq1 (V3 m ρ) c) b fun w e =>
    (by decide : ∀ w : Fin cfg1.W, Pipeline.arrRef spec1 w ∉ ([main_v53_0, main_v53_1] : List (Ref sig .tc)) → (cfg1.win w).isOut = false) w (e ▸ h)
theorem W4_out0 (c : Dev nD) : W4 m ρ c (Proc.devRef .tc main_v53_0) = (dat1 (V3 m ρ) c).arrAt 4 cfg1.N :=
  Pipeline.withArrays_arr spec1 launch1.win.arr_inj c _ _ 4
theorem W4_out1 (c : Dev nD) : W4 m ρ c (Proc.devRef .tc main_v53_1) = (dat1 (V3 m ρ) c).arrAt 5 cfg1.N :=
  Pipeline.withArrays_arr spec1 launch1.win.arr_inj c _ _ 5
theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h
theorem W6_keep (c : Dev nD) (b : Ref sig .tc) (h : b ∉ ([main_v68] : List (Ref sig .tc))) :
    W6 m ρ c (Proc.devRef .tc b) = W5 m ρ c (Proc.devRef .tc b) :=
  withArrays_keep (dat2 (V5 m ρ) c) launch2.win.arr_inj _ (A_eq2 (V5 m ρ) c) b fun w e =>
    (by decide : ∀ w : Fin cfg2.W, Pipeline.arrRef spec2 w ∉ ([main_v68] : List (Ref sig .tc)) → (cfg2.win w).isOut = false) w (e ▸ h)
theorem W6_out (c : Dev nD) : W6 m ρ c (Proc.devRef .tc main_v68) = (dat2 (V5 m ρ) c).arrAt 5 cfg2.N :=
  Pipeline.withArrays_arr spec2 launch2.win.arr_inj c _ _ 5
theorem W7_keep (c : Dev nD) (b : Ref sig .tc) (h : b ∉ ([main_v69] : List (Ref sig .tc))) :
    W7 m ρ c (Proc.devRef .tc b) = W6 m ρ c (Proc.devRef .tc b) :=
  withArrays_keep (dat3 (V6 m ρ) c) launch3.win.arr_inj _ (A_eq3 (V6 m ρ) c) b fun w e =>
    (by decide : ∀ w : Fin cfg3.W, Pipeline.arrRef spec3 w ∉ ([main_v69] : List (Ref sig .tc)) → (cfg3.win w).isOut = false) w (e ▸ h)
theorem W7_out (c : Dev nD) : W7 m ρ c (Proc.devRef .tc main_v69) = (dat3 (V6 m ρ) c).arrAt 2 cfg3.N :=
  Pipeline.withArrays_arr spec3 launch3.win.arr_inj c _ _ 2
theorem W8_keep (c : Dev nD) (b : Ref sig .tc) (h : b ∉ hostOps4_W) :
    W8 m ρ c (Proc.devRef .tc b) = W7 m ρ c (Proc.devRef .tc b) :=
  StableHlo.after_of_writes_sub hostOps4 _ hostOps4_writes h
theorem W9_keep (c : Dev nD) (b : Ref sig .tc) (h : b ∉ ([main_v118_0, main_v118_1] : List (Ref sig .tc))) :
    W9 m ρ c (Proc.devRef .tc b) = W8 m ρ c (Proc.devRef .tc b) :=
  withArrays_keep (dat4 (V8 m ρ) c) launch4.win.arr_inj _ (A_eq4 (V8 m ρ) c) b fun w e =>
    (by decide : ∀ w : Fin cfg4.W, Pipeline.arrRef spec4 w ∉ ([main_v118_0, main_v118_1] : List (Ref sig .tc)) → (cfg4.win w).isOut = false) w (e ▸ h)
theorem W9_out0 (c : Dev nD) : W9 m ρ c (Proc.devRef .tc main_v118_0) = (dat4 (V8 m ρ) c).arrAt 4 cfg4.N :=
  Pipeline.withArrays_arr spec4 launch4.win.arr_inj c _ _ 4
theorem W9_out1 (c : Dev nD) : W9 m ρ c (Proc.devRef .tc main_v118_1) = (dat4 (V8 m ρ) c).arrAt 5 cfg4.N :=
  Pipeline.withArrays_arr spec4 launch4.win.arr_inj c _ _ 5
theorem W10_keep (c : Dev nD) (b : Ref sig .tc) (h : b ∉ hostOps5_W) :
    W10 m ρ c (Proc.devRef .tc b) = W9 m ρ c (Proc.devRef .tc b) :=
  StableHlo.after_of_writes_sub hostOps5 _ hostOps5_writes h
theorem W11_keep (c : Dev nD) (b : Ref sig .tc) (h : b ∉ ([main_v133] : List (Ref sig .tc))) :
    W11 m ρ c (Proc.devRef .tc b) = W10 m ρ c (Proc.devRef .tc b) :=
  withArrays_keep (dat5 (V10 m ρ) c) launch5.win.arr_inj _ (A_eq5 (V10 m ρ) c) b fun w e =>
    (by decide : ∀ w : Fin cfg5.W, Pipeline.arrRef spec5 w ∉ ([main_v133] : List (Ref sig .tc)) → (cfg5.win w).isOut = false) w (e ▸ h)
theorem W11_out (c : Dev nD) : W11 m ρ c (Proc.devRef .tc main_v133) = (dat5 (V10 m ρ) c).arrAt 5 cfg5.N :=
  Pipeline.withArrays_arr spec5 launch5.win.arr_inj c _ _ 5
theorem W12_keep (c : Dev nD) (b : Ref sig .tc) (h : b ∉ hostOps6_W) :
    W12 m ρ c (Proc.devRef .tc b) = W11 m ρ c (Proc.devRef .tc b) :=
  StableHlo.after_of_writes_sub hostOps6 _ hostOps6_writes h
theorem W13_keep (c : Dev nD) (b : Ref sig .tc) (h : b ∉ ([main_v137] : List (Ref sig .tc))) :
    W13 m ρ c (Proc.devRef .tc b) = W12 m ρ c (Proc.devRef .tc b) :=
  withArrays_keep (dat6 (V12 m ρ) c) launch6.win.arr_inj _ (A_eq6 (V12 m ρ) c) b fun w e =>
    (by decide : ∀ w : Fin cfg6.W, Pipeline.arrRef spec6 w ∉ ([main_v137] : List (Ref sig .tc)) → (cfg6.win w).isOut = false) w (e ▸ h)
theorem W13_out (c : Dev nD) : W13 m ρ c (Proc.devRef .tc main_v137) = (dat6 (V12 m ρ) c).arrAt 5 cfg6.N :=
  Pipeline.withArrays_arr spec6 launch6.win.arr_inj c _ _ 5
theorem W14_keep (c : Dev nD) (b : Ref sig .tc) (h : b ∉ hostOps7_W) :
    W14 m ρ c (Proc.devRef .tc b) = W13 m ρ c (Proc.devRef .tc b) :=
  StableHlo.after_of_writes_sub hostOps7 _ hostOps7_writes h

-- A buffer no item writes holds at the end what the launch memory held.
theorem W14_unwritten (c : Dev nD) (b : Ref sig .tc)
    (h1 : b ∉ hostOps0_W) (h2 : b ∉ ([main_v4] : List (Ref sig .tc))) (h3 : b ∉ hostOps1_W) (h4 : b ∉ ([main_v53_0, main_v53_1] : List (Ref sig .tc))) (h5 : b ∉ hostOps2_W) (h6 : b ∉ ([main_v68] : List (Ref sig .tc))) (h7 : b ∉ ([main_v69] : List (Ref sig .tc))) (h8 : b ∉ hostOps4_W) (h9 : b ∉ ([main_v118_0, main_v118_1] : List (Ref sig .tc))) (h10 : b ∉ hostOps5_W) (h11 : b ∉ ([main_v133] : List (Ref sig .tc))) (h12 : b ∉ hostOps6_W) (h13 : b ∉ ([main_v137] : List (Ref sig .tc))) (h14 : b ∉ hostOps7_W) :
    W14 m ρ c (Proc.devRef .tc b) = m ((c : Thread nD τ).loc b) :=
  (W14_keep m ρ c b h14).trans <| (W13_keep m ρ c b h13).trans <| (W12_keep m ρ c b h12).trans <|
    (W11_keep m ρ c b h11).trans <| (W10_keep m ρ c b h10).trans <| (W9_keep m ρ c b h9).trans <|
    (W8_keep m ρ c b h8).trans <| (W7_keep m ρ c b h7).trans <| (W6_keep m ρ c b h6).trans <|
    (W5_keep m ρ c b h5).trans <| (W4_keep m ρ c b h4).trans <| (W3_keep m ρ c b h3).trans <|
    (W2_keep m ρ c b h2).trans (W1_keep m ρ c b h1)

abbrev args : List (Ref sig .tc) := [main_arg0, main_arg1, main_arg2, main_arg3, main_arg4, main_arg5, main_arg6, main_arg7, main_arg8, main_arg9, main_arg10, main_arg11, main_arg12, main_arg13, main_arg14]

-- No item writes an argument.
theorem W14_arg (c : Dev nD) (b : Ref sig .tc) (hb : b ∈ args) :
    W14 m ρ c (Proc.devRef .tc b) = m ((c : Thread nD τ).loc b) :=
  W14_unwritten m ρ c b
    ((by decide : ∀ b ∈ args, b ∉ hostOps0_W) b hb)
    ((by decide : ∀ b ∈ args, b ∉ ([main_v4] : List (Ref sig .tc))) b hb)
    ((by decide : ∀ b ∈ args, b ∉ hostOps1_W) b hb)
    ((by decide : ∀ b ∈ args, b ∉ ([main_v53_0, main_v53_1] : List (Ref sig .tc))) b hb)
    ((by decide : ∀ b ∈ args, b ∉ hostOps2_W) b hb)
    ((by decide : ∀ b ∈ args, b ∉ ([main_v68] : List (Ref sig .tc))) b hb)
    ((by decide : ∀ b ∈ args, b ∉ ([main_v69] : List (Ref sig .tc))) b hb)
    ((by decide : ∀ b ∈ args, b ∉ hostOps4_W) b hb)
    ((by decide : ∀ b ∈ args, b ∉ ([main_v118_0, main_v118_1] : List (Ref sig .tc))) b hb)
    ((by decide : ∀ b ∈ args, b ∉ hostOps5_W) b hb)
    ((by decide : ∀ b ∈ args, b ∉ ([main_v133] : List (Ref sig .tc))) b hb)
    ((by decide : ∀ b ∈ args, b ∉ hostOps6_W) b hb)
    ((by decide : ∀ b ∈ args, b ∉ ([main_v137] : List (Ref sig .tc))) b hb)
    ((by decide : ∀ b ∈ args, b ∉ hostOps7_W) b hb)

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

-- Region p's exit contents from its entry contents Wi: its output arrays as it leaves them, every other buffer as entered.
abbrev regOut (p : Fin 7) (Wi : Dev nD → Valuation τ sig (Elt F)) (c : Dev nD) : Valuation τ sig (Elt F) :=
  Pipeline.withArrays (Pipeline.pin (pcfgs (F := F)) adm p).spec c (Wi c) fun w => (pdats m ρ p c).arrAt w (Pipeline.pin (pcfgs (F := F)) adm p).N

set_option backward.isDefEq.respectTransparency.types false in
-- Region p as one segment of the main function, from the contents Wi to regOut p Wi.
def regSeg (p : Fin 7) (lf : Pipeline.LaunchFacts (nD := nD) (τ := τ) cfgs p) (Wi : Dev nD → Valuation τ sig (Elt F))
    (hbody : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c i, (pdats m ρ p c).Φ i = Pipeline.ΦA (Pipeline.pin (pcfgs (F := F)) adm p).spec c)
    (hA : ∀ c w, (pdats m ρ p c).A w = Wi c (Proc.devRef .tc (Pipeline.arrRef (Pipeline.pin (pcfgs (F := F)) adm p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (regOut m ρ p Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => regOut m ρ p Wi c b) ((pdats m ρ p c).arrAt · (Pipeline.pin (pcfgs (F := F)) adm p).N)
      (fun w => (Pipeline.withArrays_arr _ lf.win.arr_inj c (Wi c) (fun w => (pdats m ρ p c).arrAt w (Pipeline.pin (pcfgs (F := F)) adm p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

abbrev reg0 := regSeg m ρ 0 launch0 (W1 m ρ) (fun c => (body_obligation0 (V1 m ρ) c).loose)
  (fun _ _ => rfl) (fun _ _ => rfl) (fun _ _ => rfl) (fun _ _ => rfl) (fun _ _ => rfl)
abbrev reg1 := regSeg m ρ 1 launch1 (W3 m ρ) (fun c => (body_obligation1 (V3 m ρ) c).loose)
  (fun _ _ => rfl) (fun _ _ => rfl) (fun _ _ => rfl) (fun _ _ => rfl) (fun _ _ => rfl)
abbrev reg2 := regSeg m ρ 2 launch2 (W5 m ρ) (fun c => (body_obligation2 (V5 m ρ) c).loose)
  (fun _ _ => rfl) (fun _ _ => rfl) (fun _ _ => rfl) (fun _ _ => rfl) (fun _ _ => rfl)
abbrev reg3 := regSeg m ρ 3 launch3 (W6 m ρ) (fun c => (body_obligation3 (V6 m ρ) c).loose)
  (fun _ _ => rfl) (fun _ _ => rfl) (fun _ _ => rfl) (fun _ _ => rfl) (fun _ _ => rfl)
abbrev reg4 := regSeg m ρ 4 launch4 (W8 m ρ) (fun c => (body_obligation4 (V8 m ρ) c).loose)
  (fun _ _ => rfl) (fun _ _ => rfl) (fun _ _ => rfl) (fun _ _ => rfl) (fun _ _ => rfl)
abbrev reg5 := regSeg m ρ 5 launch5 (W10 m ρ) (fun c => (body_obligation5 (V10 m ρ) c).loose)
  (fun _ _ => rfl) (fun _ _ => rfl) (fun _ _ => rfl) (fun _ _ => rfl) (fun _ _ => rfl)
abbrev reg6 := regSeg m ρ 6 launch6 (W12 m ρ) (fun c => (body_obligation6 (V12 m ρ) c).loose)
  (fun _ _ => rfl) (fun _ _ => rfl) (fun _ _ => rfl) (fun _ _ => rfl) (fun _ _ => rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)) ]
theorem main_run (c : Dev nD) : main (F := F) c = Pipeline.Seg.run (segs m ρ) := (main_chain c).trans (by chain_rfl)

theorem last_split (c : Dev nD) :
    (iprop(StableHlo.held (c : Thread nD τ) (Pipeline.ucRefs τ sig) (W14 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
-- The main function terminates, nothing faulting, with every buffer at the last fold's contents.
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => last_split m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

-- The result array ends at the last fold's value there, and every argument ends as launched.
theorem run_result : θ_run defs (onTc (τ := τ) (main (F := F))) ⟨m, fun _ => 0, ρ⟩ (fun r => ∀ c : Dev nD,
      r.2.mem ((c.tc : Thread nD τ).loc main_v138) = W14 m ρ c (Proc.devRef .tc main_v138)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).mono (fun r h c =>
    have arg : ∀ b ∈ args, r.2.mem ((c.tc : Thread nD τ).loc b) = m ((c.tc : Thread nD τ).loc b) := fun b hb =>
      (h c _ (mem_uc b ((by decide : ∀ b ∈ args, ¬ (Proc.devRef .tc b : DevRef τ sig).isScoped) b hb))).trans (W14_arg m ρ c b hb)
    ⟨h c _ (mem_uc main_v138 (by decide)),
     arg main_arg0 (by decide),
     arg main_arg1 (by decide),
     arg main_arg2 (by decide),
     arg main_arg3 (by decide),
     arg main_arg4 (by decide),
     arg main_arg5 (by decide),
     arg main_arg6 (by decide),
     arg main_arg7 (by decide),
     arg main_arg8 (by decide),
     arg main_arg9 (by decide),
     arg main_arg10 (by decide),
     arg main_arg11 (by decide),
     arg main_arg12 (by decide),
     arg main_arg13 (by decide),
     arg main_arg14 (by decide)⟩) (run m ρ)

end Cert.Kernel.Hand

end
-- ==== Proof.KIReg0.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

-- The one store covers the whole output, so what it leaves does not depend on what was there.
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns c.tc arg1 fullShare x0 ∗ owns c.tc arg2 fullShare x1
        ∗ (∃ d, owns c.tc arg3 fullShare d)
        ∗ (iprop(owns c.tc arg1 fullShare x0 ∗ owns c.tc arg2 fullShare x1
            ∗ owns c.tc arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton, owns_eq_rep c.tc arg1, owns_eq_rep c.tc arg2]; unfold cc0__linear_kernel_skel owns
  iintro ⟨H0, H1, ⟨%d2, %f2, -, H2⟩, Hk⟩
  sl_exec
  sl_step
  iapply Hk
  iframe H0 H1
  iexists _; isplitr
  swap; · iexact H2
  ipureintro
  simp only [View.readAt_rep]
  exact View.read_writes_eq_canon _ _ _ (View.cover_of_tiled _ S5000x128.size (by rfl))

-- The body does not write an input, so what it finds there is what it leaves.
theorem before0 (c : Dev nD) (t : Fin cfg0.N) (w : Fin cfg0.W) (hw : (cfg0.win w).isOut = false) (d) :
    (dat0 V c).before w t d = (dat0 V c).after w t := by
  fin_cases w <;> first
    | exact absurd hw (by decide)
    | exact ((dat0 V c).before_in_eq_fetched _ hw (fun _ => rfl) (fun _ _ _ => rfl) (fun _ => rfl) t d).trans rfl

theorem body_obligation0 (c : Dev nD) : BodyObligation (dat0 (F := F) V c) (defs₀ (F := F)) Variants.none () Set.univ := fun t => by
  simp only [bigSep_W0, before0 V c t 0 rfl, before0 V c t 1 rfl]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩⟩
  iapply sound_kernel0 c Set.univ _ _ _ _ _ _ _ (iblk0 V c 0 t) (iblk0 V c 1 t) _
  iframe H0 H1
  isplitl [H2]; · iexists _; iexact H2
  iintro ⟨H0, H1, H2⟩
  iframe

end Cert.KernelIdeal.Hand

end
-- ==== Proof.KIReg1.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

abbrev VO1_4 : View sig .tc .vmem S5000x128 .f32 := (Memref.whole cc1_stg4_0 : Memref sig .tc .vmem S5000x128 .f32).view
abbrev VO1_5 : View sig .tc .vmem S2x128 .f32 := (Memref.whole cc1_stg5_0 : Memref sig .tc .vmem S2x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x128 .f32 := win1_5.stage (cfg1.slots t 5)
abbrev hs1_5 (t : Fin cfg1.N) : (ms1_5 t).IsWhole := hstage1_5 ((cfg1.slots t 5).cast nbuf1_5)

theorem owns_unread1 {s : Shape} {e : EltTy} (c : Dev nD) {m : Memref sig .tc .vmem s e} (hm : m.IsWhole) (x : Vec F s e) :
    (owns (c : Thread nD τ) m fullShare x : sProp 𝕄) = iprop(m.view.loc (c : Thread nD τ) ↦[m.view.set]{fullShare} hm.unread x) := by
  unfold owns
  refine BI.equiv_iff.mp ⟨(?_ : (_ : sProp 𝕄) ⊢ _), (?_ : (_ : sProp 𝕄) ⊢ _)⟩
  · iintro ⟨%f, %hf, H⟩; obtain rfl := hm.eq_unread hf; iexact H
  · iintro H; iexists _; isplitr; · ipureintro; exact hm.read_unread _
    iexact H

section
variable (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole)

section
variable (hc0 : cond1_0 i) (x0 : Vec F S5000x128 .f32) (x1 : Vec F S5000x128 .f32) (x2 : Vec F S5000x1 .f32) (x3 : Vec F S1x128 .f32)

set_option maxHeartbeats 1000000 in
noncomputable def kernelRun1_A :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc1__combine_stats_kernel i arg1 harg1 arg2 harg2 arg3 harg3 arg4 harg4 arg5 harg5 arg6 harg6) K } := by
  refine ⟨(?_, ?_), fun E K => ?run⟩
  case run =>
    simp only [cc1__combine_stats_kernel_eq_skeleton]; unfold cc1__combine_stats_kernel_skel
    simp only [k1_part1_eq_skeleton, owns_unread1 c harg1, owns_unread1 c harg2, owns_unread1 c harg3, owns_unread1 c harg4, owns_unread1 c harg5, owns_unread1 c harg6]
    iintro ⟨H0, H1, H2, H3, ⟨%d4, H4⟩, ⟨%d5, H5⟩, Hk⟩
    sl_exec (disch := first | exact hc0)
    sl_step
    iapply Hk
    iframe H0 H1 H2 H3
    isplitl [H4]; · iexists _; iexact H4
    iexists _; iexact H5

theorem cover1_A_4 (y : S5000x128.Idx) : ∃ pc ∈ (kernelRun1_A c i arg1 harg1 arg2 harg2 arg3 harg3 arg4 harg4 arg5 harg5 arg6 harg6 hc0 x0 x1 x2 x3).1.1, y ∈ pc.1.set :=
  View.cover_of_tiledL _ S5000x128.size (by sl_kernel_rfl) y

def out1_A_4 : Vec F S5000x128 .f32 := VO1_4.read (Elt F) (VO1_4.writes (Elt F) VO1_4.junk (kernelRun1_A c i arg1 harg1 arg2 harg2 arg3 harg3 arg4 harg4 arg5 harg5 arg6 harg6 hc0 x0 x1 x2 x3).1.1)

theorem cover1_A_5 (y : S2x128.Idx) : ∃ pc ∈ (kernelRun1_A c i arg1 harg1 arg2 harg2 arg3 harg3 arg4 harg4 arg5 harg5 arg6 harg6 hc0 x0 x1 x2 x3).1.2, y ∈ pc.1.set :=
  View.cover_of_tiledL (s := S2x128) _ S1x128.size (by sl_kernel_rfl) y

def out1_A_5 : Vec F S2x128 .f32 := VO1_5.read (Elt F) (VO1_5.writes (Elt F) VO1_5.junk (kernelRun1_A c i arg1 harg1 arg2 harg2 arg3 harg3 arg4 harg4 arg5 harg5 arg6 harg6 hc0 x0 x1 x2 x3).1.2)

end

section
variable (hc0 : ¬cond1_0 i) (x0 : Vec F S5000x128 .f32) (x1 : Vec F S5000x128 .f32) (x2 : Vec F S5000x1 .f32) (x3 : Vec F S1x128 .f32) (xo5 : Vec F S2x128 .f32)

set_option maxHeartbeats 1000000 in
noncomputable def kernelRun1_B :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc1__combine_stats_kernel i arg1 harg1 arg2 harg2 arg3 harg3 arg4 harg4 arg5 harg5 arg6 harg6) K } := by
  refine ⟨(?_, ?_), fun E K => ?run⟩
  case run =>
    simp only [cc1__combine_stats_kernel_eq_skeleton]; unfold cc1__combine_stats_kernel_skel
    simp only [k1_part1_eq_skeleton, owns_unread1 c harg1, owns_unread1 c harg2, owns_unread1 c harg3, owns_unread1 c harg4, owns_unread1 c harg5, owns_unread1 c harg6]
    iintro ⟨H0, H1, H2, H3, ⟨%d4, H4⟩, H5, Hk⟩
    sl_exec (disch := first | exact hc0)
    sl_step
    iapply Hk
    iframe H0 H1 H2 H3
    isplitl [H4]; · iexists _; iexact H4
    iexists _; iexact H5

theorem cover1_B_4 (y : S5000x128.Idx) : ∃ pc ∈ (kernelRun1_B c i arg1 harg1 arg2 harg2 arg3 harg3 arg4 harg4 arg5 harg5 arg6 harg6 hc0 x0 x1 x2 x3 xo5).1.1, y ∈ pc.1.set :=
  View.cover_of_tiledL _ S5000x128.size (by sl_kernel_rfl) y

def out1_B_4 : Vec F S5000x128 .f32 := VO1_4.read (Elt F) (VO1_4.writes (Elt F) VO1_4.junk (kernelRun1_B c i arg1 harg1 arg2 harg2 arg3 harg3 arg4 harg4 arg5 harg5 arg6 harg6 hc0 x0 x1 x2 x3 xo5).1.1)

theorem cover1_B_5 (y : S2x128.Idx) : ∃ pc ∈ (kernelRun1_B c i arg1 harg1 arg2 harg2 arg3 harg3 arg4 harg4 arg5 harg5 arg6 harg6 hc0 x0 x1 x2 x3 xo5).1.2, y ∈ pc.1.set :=
  View.cover_of_tiledL (s := S2x128) _ S1x128.size (by sl_kernel_rfl) y

def out1_B_5 : Vec F S2x128 .f32 := VO1_5.read (Elt F) (VO1_5.writes (Elt F) VO1_5.junk (kernelRun1_B c i arg1 harg1 arg2 harg2 arg3 harg3 arg4 harg4 arg5 harg5 arg6 harg6 hc0 x0 x1 x2 x3 xo5).1.2)

end

end

def outs1_A (c : Dev nD) (t : Fin cfg1.N) (h0 : t.val % 10 = 0) : Vec F S5000x128 .f32 × Vec F S2x128 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t))

def outs1_B (c : Dev nD) (t : Fin cfg1.N) (h0 : ¬t.val % 10 = 0) (xo5 : Vec F S2x128 .f32) : Vec F S5000x128 .f32 × Vec F S2x128 .f32 :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) xo5,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) xo5)

-- The two outputs after point `n`, by recursion on `n`: a later point adds its column sums to the sums so far.
def outsAt1 (c : Dev nD) : (n : ℕ) → n < cfg1.N → Vec F S5000x128 .f32 × Vec F S2x128 .f32
  | 0, hn => outs1_A V c ⟨0, hn⟩ (Nat.zero_mod _)
  | n + 1, hn =>
    if h0 : (n + 1) % 10 = 0 then outs1_A V c ⟨n + 1, hn⟩ h0
    else outs1_B V c ⟨n + 1, hn⟩ h0 (outsAt1 c n (Nat.lt_of_succ_lt hn)).2

theorem outsAt1_A (c : Dev nD) (t : Fin cfg1.N) (h0 : t.val % 10 = 0) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => by rw [after1_2]; rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => by rw [after1_3]; rfl) t d).trans rfl

theorem before1_5_B (c : Dev nD) (t : Fin cfg1.N) (h0 : ¬t.val % 10 = 0) (d) :
    (dat1 V c).before 5 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

set_option maxHeartbeats 800000 in
-- Each output's pieces cover its block, so they read back the same over any prior contents.
theorem body_obligation1 (c : Dev nD) : BodyObligation (dat1 (F := F) V c) (defs₀ (F := F)) Variants.none () Set.univ := fun t => by
  rw [bigSep_W1, bigSep_W1]
  change (iprop(_ ∗ _ ∗ (∃ d, owns (c : Thread nD τ) (ms1_0 t) _ ((dat1 V c).before 0 t d)) ∗ (∃ d, owns (c : Thread nD τ) (ms1_1 t) _ ((dat1 V c).before 1 t d)) ∗ (∃ d, owns (c : Thread nD τ) (ms1_2 t) _ ((dat1 V c).before 2 t d)) ∗ (∃ d, owns (c : Thread nD τ) (ms1_3 t) _ ((dat1 V c).before 3 t d)) ∗ (∃ d, owns (c : Thread nD τ) (ms1_4 t) _ _) ∗ (∃ d, owns (c : Thread nD τ) (ms1_5 t) _ ((dat1 V c).before 5 t d))) : sProp 𝕄)
    ⊢ wp _ _ _ (bodyAt1 t) fun _ => iprop((dat1 V c).Φ t.castSucc ∗ (dat1 V c).owesAt () t.castSucc ∗ owns (c : Thread nD τ) (ms1_0 t) _ ((dat1 V c).after 0 t) ∗ owns (c : Thread nD τ) (ms1_1 t) _ ((dat1 V c).after 1 t) ∗ owns (c : Thread nD τ) (ms1_2 t) _ ((dat1 V c).after 2 t) ∗ owns (c : Thread nD τ) (ms1_3 t) _ ((dat1 V c).after 3 t) ∗ owns (c : Thread nD τ) (ms1_4 t) _ ((dat1 V c).after 4 t) ∗ owns (c : Thread nD τ) (ms1_5 t) _ ((dat1 V c).after 5 t))
  simp only [before1_0, before1_1, before1_2, before1_3]
  rw [after1_0, after1_1, after1_2, after1_3, after1_4, after1_5]
  by_cases h0 : t.val % 10 = 0
  · rw [outsAt1_A V c t h0]
    dsimp only
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover1_A_4 c _ _ _ _ _ _ _ _ _ _ _ _ _ _ _ _ _ _)
    iexists _; iframe H5; ipureintro; exact View.read_writes_of_cover _ _ _ _ _ (cover1_A_5 c _ _ _ _ _ _ _ _ _ _ _ _ _ _ _ _ _ _)
  · rw [outsAt1_B V c t h0]
    dsimp only
    simp only [before1_5_B V c t h0]
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2 Set.univ _)
    iframe H0 H1 H2 H3 H5
    isplitl [H4]; · iexists _; iexact H4
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover1_B_4 c _ _ _ _ _ _ _ _ _ _ _ _ _ _ _ _ _ _ _)
    iexists _; iframe H5; ipureintro; exact View.read_writes_of_cover _ _ _ _ _ (cover1_B_5 c _ _ _ _ _ _ _ _ _ _ _ _ _ _ _ _ _ _ _)

end Cert.KernelIdeal.Hand

end
-- ==== Proof.KIReg2.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

def out2_5 (x0 : Vec F S5000x128 .f32) (x1 x2 x3 x4 : Vec F S1x128 .f32) : Vec F S5000x128 .f32 :=
  View.canon [⟨r2_0, k2_pay1 (View.ld x2 r2_1) (View.ld x3 r2_1) (View.ld x0 r2_0) (View.ld x1 r2_1) (View.ld x4 r2_1)⟩]

set_option maxHeartbeats 1000000 in
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fout, -, Hout⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; isplitr
  swap; · iexact Hout
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => by rw [after2_0]; rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => by rw [after2_1]; rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => by rw [after2_2]; rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => by rw [after2_3]; rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => by rw [after2_4]; rfl) t d).trans rfl

theorem body_obligation2 (c : Dev nD) : BodyObligation (dat2 (F := F) V c) (defs₀ (F := F)) Variants.none () Set.univ := fun t => by
  rw [bigSep_W2, bigSep_W2]
  change (iprop(_ ∗ _ ∗ (∃ d, owns (c : Thread nD τ) (st2_0 t) _ ((dat2 V c).before 0 t d)) ∗ (∃ d, owns (c : Thread nD τ) (st2_1 t) _ ((dat2 V c).before 1 t d)) ∗ (∃ d, owns (c : Thread nD τ) (st2_2 t) _ ((dat2 V c).before 2 t d)) ∗ (∃ d, owns (c : Thread nD τ) (st2_3 t) _ ((dat2 V c).before 3 t d)) ∗ (∃ d, owns (c : Thread nD τ) (st2_4 t) _ ((dat2 V c).before 4 t d)) ∗ (∃ d, owns (c : Thread nD τ) (st2_5 t) _ _)) : sProp 𝕄)
    ⊢ wp _ _ _ (bodyAt2 t) fun _ => iprop((dat2 V c).Φ t.castSucc ∗ (dat2 V c).owesAt () t.castSucc ∗ owns (c : Thread nD τ) (st2_0 t) _ ((dat2 V c).after 0 t) ∗ owns (c : Thread nD τ) (st2_1 t) _ ((dat2 V c).after 1 t) ∗ owns (c : Thread nD τ) (st2_2 t) _ ((dat2 V c).after 2 t) ∗ owns (c : Thread nD τ) (st2_3 t) _ ((dat2 V c).after 3 t) ∗ owns (c : Thread nD τ) (st2_4 t) _ ((dat2 V c).after 4 t) ∗ owns (c : Thread nD τ) (st2_5 t) _ ((dat2 V c).after 5 t))
  simp only [before2_0, before2_1, before2_2, before2_3, before2_4]
  rw [after2_0, after2_1, after2_2, after2_3, after2_4, after2_5]
  iintro ⟨HΦ, Ho, ⟨%d0, H0⟩, ⟨%d1, H1⟩, ⟨%d2, H2⟩, ⟨%d3, H3⟩, ⟨%d4, H4⟩, ⟨%dout, Hout⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  iframe H0 H1 H2 H3 H4
  isplitl [Hout]; · iexists _; iexact Hout
  iintro ⟨H0, H1, H2, H3, H4, Hout⟩
  iframe

end Cert.KernelIdeal.Hand

end
-- ==== Proof.KIReg3.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨r3_2, k3_pay1 (View.ld x0 r3_0) (View.ld x1 r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

-- The one store covers the whole output, so what it leaves does not depend on what was there.
theorem sound_kernel3 (c : Dev nD) (E : Set ℕ) (i : grid3.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns c.tc arg1 fullShare x0 ∗ owns c.tc arg2 fullShare x1
        ∗ (∃ d, owns c.tc arg3 fullShare d)
        ∗ (iprop(owns c.tc arg1 fullShare x0 ∗ owns c.tc arg2 fullShare x1
            ∗ owns c.tc arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton, owns_eq_rep c.tc arg1, owns_eq_rep c.tc arg2]; unfold cc3__linear_kernel_skel owns
  iintro ⟨H0, H1, ⟨%d2, %f2, -, H2⟩, Hk⟩
  sl_exec
  sl_step
  iapply Hk
  iframe H0 H1
  iexists _; isplitr
  swap; · iexact H2
  ipureintro
  simp only [View.readAt_rep]
  exact View.read_writes_eq_canon _ _ _ (View.cover_of_tiled _ S5000x128.size (by rfl))

-- The body does not write an input, so what it finds there is what it leaves.
theorem before3 (c : Dev nD) (t : Fin cfg3.N) (w : Fin cfg3.W) (hw : (cfg3.win w).isOut = false) (d) :
    (dat3 V c).before w t d = (dat3 V c).after w t := by
  fin_cases w <;> first
    | exact absurd hw (by decide)
    | exact ((dat3 V c).before_in_eq_fetched _ hw (fun _ => rfl) (fun _ _ _ => rfl) (fun _ => rfl) t d).trans rfl

theorem body_obligation3 (c : Dev nD) : BodyObligation (dat3 (F := F) V c) (defs₀ (F := F)) Variants.none () Set.univ := fun t => by
  simp only [bigSep_W3, before3 V c t 0 rfl, before3 V c t 1 rfl]
  rw [show (dat3 V c).owesAt () t.succ = (dat3 V c).owesAt () t.castSucc from rfl]
  dsimp only [dat3]
  show _ ⊢ wp _ _ _ (bodyAt3 t) _
  iintro ⟨HΦ, Ho, ⟨%d0, H0⟩, ⟨%d1, H1⟩, ⟨%d2, H2⟩⟩
  iapply sound_kernel3 c Set.univ _ _ _ _ _ _ _ (iblk3 V c 0 t) (iblk3 V c 1 t) _
  iframe H0 H1
  isplitl [H2]; · iexists _; iexact H2
  iintro ⟨H0, H1, H2⟩
  iframe

end Cert.KernelIdeal.Hand

end
-- ==== Proof.KIReg4.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev VO4_4 : View sig .tc .vmem S5000x128 .f32 := (Memref.whole cc4_stg4_0 : Memref sig .tc .vmem S5000x128 .f32).view
abbrev VO4_5 : View sig .tc .vmem S2x128 .f32 := (Memref.whole cc4_stg5_0 : Memref sig .tc .vmem S2x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2x128 .f32 := win4_5.stage (cfg4.slots t 5)
abbrev hs4_5 (t : Fin cfg4.N) : (ms4_5 t).IsWhole := hstage4_5 ((cfg4.slots t 5).cast nbuf4_5)

theorem owns_unread4 {s : Shape} {e : EltTy} (c : Dev nD) {m : Memref sig .tc .vmem s e} (hm : m.IsWhole) (x : Vec F s e) :
    (owns (c : Thread nD τ) m fullShare x : sProp 𝕄) = iprop(m.view.loc (c : Thread nD τ) ↦[m.view.set]{fullShare} hm.unread x) := by
  unfold owns
  refine BI.equiv_iff.mp ⟨(?_ : (_ : sProp 𝕄) ⊢ _), (?_ : (_ : sProp 𝕄) ⊢ _)⟩
  · iintro ⟨%f, %hf, H⟩; obtain rfl := hm.eq_unread hf; iexact H
  · iintro H; iexists _; isplitr; · ipureintro; exact hm.read_unread _
    iexact H

section
variable (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole)

section
variable (hc0 : cond4_0 i) (x0 : Vec F S5000x128 .f32) (x1 : Vec F S5000x128 .f32) (x2 : Vec F S5000x1 .f32) (x3 : Vec F S1x128 .f32)

set_option maxHeartbeats 1000000 in
noncomputable def kernelRun4_A :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc4__combine_stats_kernel i arg1 harg1 arg2 harg2 arg3 harg3 arg4 harg4 arg5 harg5 arg6 harg6) K } := by
  refine ⟨(?_, ?_), fun E K => ?run⟩
  case run =>
    simp only [cc4__combine_stats_kernel_eq_skeleton]; unfold cc4__combine_stats_kernel_skel
    simp only [k4_part1_eq_skeleton, owns_unread4 c harg1, owns_unread4 c harg2, owns_unread4 c harg3, owns_unread4 c harg4, owns_unread4 c harg5, owns_unread4 c harg6]
    iintro ⟨H0, H1, H2, H3, ⟨%d4, H4⟩, ⟨%d5, H5⟩, Hk⟩
    sl_exec (disch := first | exact hc0)
    sl_step
    iapply Hk
    iframe H0 H1 H2 H3
    isplitl [H4]; · iexists _; iexact H4
    iexists _; iexact H5

theorem cover4_A_4 (y : S5000x128.Idx) : ∃ pc ∈ (kernelRun4_A c i arg1 harg1 arg2 harg2 arg3 harg3 arg4 harg4 arg5 harg5 arg6 harg6 hc0 x0 x1 x2 x3).1.1, y ∈ pc.1.set :=
  View.cover_of_tiledL _ S5000x128.size (by sl_kernel_rfl) y

def out4_A_4 : Vec F S5000x128 .f32 := VO4_4.read (Elt F) (VO4_4.writes (Elt F) VO4_4.junk (kernelRun4_A c i arg1 harg1 arg2 harg2 arg3 harg3 arg4 harg4 arg5 harg5 arg6 harg6 hc0 x0 x1 x2 x3).1.1)

theorem cover4_A_5 (y : S2x128.Idx) : ∃ pc ∈ (kernelRun4_A c i arg1 harg1 arg2 harg2 arg3 harg3 arg4 harg4 arg5 harg5 arg6 harg6 hc0 x0 x1 x2 x3).1.2, y ∈ pc.1.set :=
  View.cover_of_tiledL (s := S2x128) _ S1x128.size (by sl_kernel_rfl) y

def out4_A_5 : Vec F S2x128 .f32 := VO4_5.read (Elt F) (VO4_5.writes (Elt F) VO4_5.junk (kernelRun4_A c i arg1 harg1 arg2 harg2 arg3 harg3 arg4 harg4 arg5 harg5 arg6 harg6 hc0 x0 x1 x2 x3).1.2)

end

section
variable (hc0 : ¬cond4_0 i) (x0 : Vec F S5000x128 .f32) (x1 : Vec F S5000x128 .f32) (x2 : Vec F S5000x1 .f32) (x3 : Vec F S1x128 .f32) (xo5 : Vec F S2x128 .f32)

set_option maxHeartbeats 1000000 in
noncomputable def kernelRun4_B :
    { L : List (View.Piece (Elt F) S5000x128 .f32) × List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc4__combine_stats_kernel i arg1 harg1 arg2 harg2 arg3 harg3 arg4 harg4 arg5 harg5 arg6 harg6) K } := by
  refine ⟨(?_, ?_), fun E K => ?run⟩
  case run =>
    simp only [cc4__combine_stats_kernel_eq_skeleton]; unfold cc4__combine_stats_kernel_skel
    simp only [k4_part1_eq_skeleton, owns_unread4 c harg1, owns_unread4 c harg2, owns_unread4 c harg3, owns_unread4 c harg4, owns_unread4 c harg5, owns_unread4 c harg6]
    iintro ⟨H0, H1, H2, H3, ⟨%d4, H4⟩, H5, Hk⟩
    sl_exec (disch := first | exact hc0)
    sl_step
    iapply Hk
    iframe H0 H1 H2 H3
    isplitl [H4]; · iexists _; iexact H4
    iexists _; iexact H5

theorem cover4_B_4 (y : S5000x128.Idx) : ∃ pc ∈ (kernelRun4_B c i arg1 harg1 arg2 harg2 arg3 harg3 arg4 harg4 arg5 harg5 arg6 harg6 hc0 x0 x1 x2 x3 xo5).1.1, y ∈ pc.1.set :=
  View.cover_of_tiledL _ S5000x128.size (by sl_kernel_rfl) y

def out4_B_4 : Vec F S5000x128 .f32 := VO4_4.read (Elt F) (VO4_4.writes (Elt F) VO4_4.junk (kernelRun4_B c i arg1 harg1 arg2 harg2 arg3 harg3 arg4 harg4 arg5 harg5 arg6 harg6 hc0 x0 x1 x2 x3 xo5).1.1)

theorem cover4_B_5 (y : S2x128.Idx) : ∃ pc ∈ (kernelRun4_B c i arg1 harg1 arg2 harg2 arg3 harg3 arg4 harg4 arg5 harg5 arg6 harg6 hc0 x0 x1 x2 x3 xo5).1.2, y ∈ pc.1.set :=
  View.cover_of_tiledL (s := S2x128) _ S1x128.size (by sl_kernel_rfl) y

def out4_B_5 : Vec F S2x128 .f32 := VO4_5.read (Elt F) (VO4_5.writes (Elt F) VO4_5.junk (kernelRun4_B c i arg1 harg1 arg2 harg2 arg3 harg3 arg4 harg4 arg5 harg5 arg6 harg6 hc0 x0 x1 x2 x3 xo5).1.2)

end

end

def outs4_A (c : Dev nD) (t : Fin cfg4.N) (h0 : t.val % 10 = 0) : Vec F S5000x128 .f32 × Vec F S2x128 .f32 :=
  (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t),
   out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t))

def outs4_B (c : Dev nD) (t : Fin cfg4.N) (h0 : ¬t.val % 10 = 0) (xo5 : Vec F S2x128 .f32) : Vec F S5000x128 .f32 × Vec F S2x128 .f32 :=
  (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) xo5,
   out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) xo5)

-- The two outputs after point `n`, by recursion on `n`: a later point adds its column sums to the sums so far.
def outsAt4 (c : Dev nD) : (n : ℕ) → n < cfg4.N → Vec F S5000x128 .f32 × Vec F S2x128 .f32
  | 0, hn => outs4_A V c ⟨0, hn⟩ (Nat.zero_mod _)
  | n + 1, hn =>
    if h0 : (n + 1) % 10 = 0 then outs4_A V c ⟨n + 1, hn⟩ h0
    else outs4_B V c ⟨n + 1, hn⟩ h0 (outsAt4 c n (Nat.lt_of_succ_lt hn)).2

theorem outsAt4_A (c : Dev nD) (t : Fin cfg4.N) (h0 : t.val % 10 = 0) :
    outsAt4 V c t.val t.isLt =
      (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t),
       out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t)) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt =
      (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2,
       out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => by rw [after4_0]; rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => by rw [after4_1]; rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => by rw [after4_2]; rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => by rw [after4_3]; rfl) t d).trans rfl

theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

set_option maxHeartbeats 800000 in
-- Each output's pieces cover its block, so they read back the same over any prior contents.
theorem body_obligation4 (c : Dev nD) : BodyObligation (dat4 (F := F) V c) (defs₀ (F := F)) Variants.none () Set.univ := fun t => by
  rw [bigSep_W4, bigSep_W4]
  change (iprop(_ ∗ _ ∗ (∃ d, owns (c : Thread nD τ) (ms4_0 t) _ ((dat4 V c).before 0 t d)) ∗ (∃ d, owns (c : Thread nD τ) (ms4_1 t) _ ((dat4 V c).before 1 t d)) ∗ (∃ d, owns (c : Thread nD τ) (ms4_2 t) _ ((dat4 V c).before 2 t d)) ∗ (∃ d, owns (c : Thread nD τ) (ms4_3 t) _ ((dat4 V c).before 3 t d)) ∗ (∃ d, owns (c : Thread nD τ) (ms4_4 t) _ _) ∗ (∃ d, owns (c : Thread nD τ) (ms4_5 t) _ ((dat4 V c).before 5 t d))) : sProp 𝕄)
    ⊢ wp _ _ _ (bodyAt4 t) fun _ => iprop((dat4 V c).Φ t.castSucc ∗ (dat4 V c).owesAt () t.castSucc ∗ owns (c : Thread nD τ) (ms4_0 t) _ ((dat4 V c).after 0 t) ∗ owns (c : Thread nD τ) (ms4_1 t) _ ((dat4 V c).after 1 t) ∗ owns (c : Thread nD τ) (ms4_2 t) _ ((dat4 V c).after 2 t) ∗ owns (c : Thread nD τ) (ms4_3 t) _ ((dat4 V c).after 3 t) ∗ owns (c : Thread nD τ) (ms4_4 t) _ ((dat4 V c).after 4 t) ∗ owns (c : Thread nD τ) (ms4_5 t) _ ((dat4 V c).after 5 t))
  simp only [before4_0, before4_1, before4_2, before4_3]
  rw [after4_0, after4_1, after4_2, after4_3, after4_4, after4_5]
  by_cases h0 : t.val % 10 = 0
  · rw [outsAt4_A V c t h0]
    dsimp only
    unfold out4_A_4 out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (iblk4 V c 0 t) (iblk4 V c 1 t) (iblk4 V c 2 t) (iblk4 V c 3 t)).2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover4_A_4 c _ _ _ _ _ _ _ _ _ _ _ _ _ _ _ _ _ _)
    iexists _; iframe H5; ipureintro; exact View.read_writes_of_cover _ _ _ _ _ (cover4_A_5 c _ _ _ _ _ _ _ _ _ _ _ _ _ _ _ _ _ _)
  · rw [outsAt4_B V c t h0]
    dsimp only
    simp only [before4_5_B V c t h0]
    unfold out4_B_4 out4_B_5
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) _ _ _ _ _ _ _ _ _ _ _ _ (fun h => h0 ((hcond4_0 t).mp h)) (iblk4 V c 0 t) (iblk4 V c 1 t) (iblk4 V c 2 t) (iblk4 V c 3 t) _).2 Set.univ _)
    iframe H0 H1 H2 H3 H5
    isplitl [H4]; · iexists _; iexact H4
    iintro ⟨H0, H1, H2, H3, ⟨%e4, H4⟩, ⟨%e5, H5⟩⟩
    iframe HΦ Ho H0 H1 H2 H3
    unfold owns
    isplitl [H4]; · iexists _; iframe H4; ipureintro; exact View.read_writes_of_cover _ _ _ _ _ (cover4_B_4 c _ _ _ _ _ _ _ _ _ _ _ _ _ _ _ _ _ _ _)
    iexists _; iframe H5; ipureintro; exact View.read_writes_of_cover _ _ _ _ _ (cover4_B_5 c _ _ _ _ _ _ _ _ _ _ _ _ _ _ _ _ _ _ _)

end Cert.KernelIdeal.Hand

end
-- ==== Proof.KIReg5.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

def out5_5 (x0 : Vec F S5000x128 .f32) (x1 x2 x3 x4 : Vec F S1x128 .f32) : Vec F S5000x128 .f32 :=
  View.canon [⟨r5_0, k5_pay1 (View.ld x2 r5_1) (View.ld x3 r5_1) (View.ld x0 r5_0) (View.ld x1 r5_1) (View.ld x4 r5_1)⟩]

set_option maxHeartbeats 1000000 in
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fout, -, Hout⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; isplitr
  swap; · iexact Hout
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => by rw [after5_0]; rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => by rw [after5_1]; rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => by rw [after5_2]; rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => by rw [after5_3]; rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => by rw [after5_4]; rfl) t d).trans rfl

theorem body_obligation5 (c : Dev nD) : BodyObligation (dat5 (F := F) V c) (defs₀ (F := F)) Variants.none () Set.univ := fun t => by
  rw [bigSep_W5, bigSep_W5]
  change (iprop(_ ∗ _ ∗ (∃ d, owns (c : Thread nD τ) (st5_0 t) _ ((dat5 V c).before 0 t d)) ∗ (∃ d, owns (c : Thread nD τ) (st5_1 t) _ ((dat5 V c).before 1 t d)) ∗ (∃ d, owns (c : Thread nD τ) (st5_2 t) _ ((dat5 V c).before 2 t d)) ∗ (∃ d, owns (c : Thread nD τ) (st5_3 t) _ ((dat5 V c).before 3 t d)) ∗ (∃ d, owns (c : Thread nD τ) (st5_4 t) _ ((dat5 V c).before 4 t d)) ∗ (∃ d, owns (c : Thread nD τ) (st5_5 t) _ _)) : sProp 𝕄)
    ⊢ wp _ _ _ (bodyAt5 t) fun _ => iprop((dat5 V c).Φ t.castSucc ∗ (dat5 V c).owesAt () t.castSucc ∗ owns (c : Thread nD τ) (st5_0 t) _ ((dat5 V c).after 0 t) ∗ owns (c : Thread nD τ) (st5_1 t) _ ((dat5 V c).after 1 t) ∗ owns (c : Thread nD τ) (st5_2 t) _ ((dat5 V c).after 2 t) ∗ owns (c : Thread nD τ) (st5_3 t) _ ((dat5 V c).after 3 t) ∗ owns (c : Thread nD τ) (st5_4 t) _ ((dat5 V c).after 4 t) ∗ owns (c : Thread nD τ) (st5_5 t) _ ((dat5 V c).after 5 t))
  simp only [before5_0, before5_1, before5_2, before5_3, before5_4]
  rw [after5_0, after5_1, after5_2, after5_3, after5_4, after5_5]
  iintro ⟨HΦ, Ho, ⟨%d0, H0⟩, ⟨%d1, H1⟩, ⟨%d2, H2⟩, ⟨%d3, H3⟩, ⟨%d4, H4⟩, ⟨%dout, Hout⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [Hout]; · iexists _; iexact Hout
  iintro ⟨H0, H1, H2, H3, H4, Hout⟩
  iframe

end Cert.KernelIdeal.Hand

end
-- ==== Proof.KIReg6.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x384 := Rect.unit (s := S5000x384) ![0, 0] S5000x384.size inb_S5000x384_S5000x384_0_0
abbrev r6_1 : Rect S384x128 := Rect.unit (s := S384x128) ![0, 0] S384x128.size inb_S384x128_S384x128_0_0
abbrev r6_2 : Rect S1x128 := Rect.unit (s := S1x128) ![0, 0] S1x128.size inb_S1x128_S1x128_0_0
abbrev r6_3 : Rect S128x1 := Rect.unit (s := S128x1) ![0, 0] S128x1.size inb_S128x1_S128x1_0_0
abbrev r6_4 : Rect S1x1 := Rect.unit (s := S1x1) ![0, 0] S1x1.size inb_S1x1_S1x1_0_0
abbrev r6_5 : Rect S5000x1 := Rect.unit (s := S5000x1) ![0, 0] S5000x1.size inb_S5000x1_S5000x1_0_0

def out6_5 (x0 : Vec F S5000x384 .f32) (x1 : Vec F S384x128 .f32) (x2 : Vec F S1x128 .f32) (x3 : Vec F S128x1 .f32)
    (x4 : Vec F S1x1 .f32) : Vec F S5000x1 .f32 :=
  View.canon [⟨r6_5, k6_pay1 (View.ld x0 r6_0) (View.ld x1 r6_1) (View.ld x2 r6_2) (View.ld x3 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

-- The one store covers the whole output, so what it leaves does not depend on what was there.
theorem sound_kernel6 (c : Dev nD) (E : Set ℕ) (i : grid6.Coords)
    (arg1 : Memref sig .tc .vmem S5000x384 .f32) (harg1 : arg1.IsWhole)
    (arg2 : Memref sig .tc .vmem S384x128 .f32) (harg2 : arg2.IsWhole)
    (arg3 : Memref sig .tc .vmem S1x128 .f32) (harg3 : arg3.IsWhole)
    (arg4 : Memref sig .tc .vmem S128x1 .f32) (harg4 : arg4.IsWhole)
    (arg5 : Memref sig .tc .vmem S1x1 .f32) (harg5 : arg5.IsWhole)
    (arg6 : Memref sig .tc .vmem S5000x1 .f32) (harg6 : arg6.IsWhole)
    (x0 : Vec F S5000x384 .f32) (x1 : Vec F S384x128 .f32) (x2 : Vec F S1x128 .f32) (x3 : Vec F S128x1 .f32)
    (x4 : Vec F S1x1 .f32) (K : PUnit → sProp 𝕄) :
    iprop(owns c.tc arg1 fullShare x0 ∗ owns c.tc arg2 fullShare x1
        ∗ owns c.tc arg3 fullShare x2 ∗ owns c.tc arg4 fullShare x3
        ∗ owns c.tc arg5 fullShare x4
        ∗ (∃ d, owns c.tc arg6 fullShare d)
        ∗ (iprop(owns c.tc arg1 fullShare x0 ∗ owns c.tc arg2 fullShare x1
            ∗ owns c.tc arg3 fullShare x2 ∗ owns c.tc arg4 fullShare x3
            ∗ owns c.tc arg5 fullShare x4
            ∗ owns c.tc arg6 fullShare (out6_5 x0 x1 x2 x3 x4)) -∗ K ⟨⟩))
      ⊢ wp frame (wpE (defs₀ (F := F)) Variants.none c none) E
          (cc6__mlp_kernel i arg1 harg1 arg2 harg2 arg3 harg3 arg4 harg4 arg5 harg5 arg6 harg6) K := by
  simp only [cc6__mlp_kernel_eq_skeleton, owns_eq_rep c.tc arg1, owns_eq_rep c.tc arg2, owns_eq_rep c.tc arg3, owns_eq_rep c.tc arg4,
    owns_eq_rep c.tc arg5]; unfold cc6__mlp_kernel_skel owns
  iintro ⟨H0, H1, H2, H3, H4, ⟨%d5, %f5, -, H5⟩, Hk⟩
  sl_exec
  sl_step
  iapply Hk
  iframe H0 H1 H2 H3 H4
  iexists _; isplitr
  swap; · iexact H5
  ipureintro
  simp only [View.readAt_rep]
  exact View.read_writes_eq_canon _ _ _ (View.cover_of_tiled _ S5000x1.size (by rfl))

-- The body does not write an input, so what it finds there is what it leaves.
theorem before6 (c : Dev nD) (t : Fin cfg6.N) (w : Fin cfg6.W) (hw : (cfg6.win w).isOut = false) (d) :
    (dat6 V c).before w t d = (dat6 V c).after w t := by
  fin_cases w <;> first
    | exact absurd hw (by decide)
    | exact ((dat6 V c).before_in_eq_fetched _ hw (fun _ => rfl) (fun _ _ _ => rfl) (fun _ => rfl) t d).trans rfl

theorem body_obligation6 (c : Dev nD) : BodyObligation (dat6 (F := F) V c) (defs₀ (F := F)) Variants.none () Set.univ := fun t => by
  simp only [bigSep_W6, before6 V c t 0 rfl, before6 V c t 1 rfl, before6 V c t 2 rfl, before6 V c t 3 rfl, before6 V c t 4 rfl]
  rw [show (dat6 V c).owesAt () t.succ = (dat6 V c).owesAt () t.castSucc from rfl]
  dsimp only [dat6]
  show _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩⟩
  iapply sound_kernel6 c Set.univ _ _ _ _ _ _ _ _ _ _ _ _ _
    (iblk6 V c 0 t) (iblk6 V c 1 t) (iblk6 V c 2 t) (iblk6 V c 3 t) (iblk6 V c 4 t) _
  iframe H0 H1 H2 H3 H4
  isplitl [H5]; · iexists _; iexact H5
  iintro ⟨H0, H1, H2, H3, H4, H5⟩
  iframe

end Cert.KernelIdeal.Hand

end
-- ==== Proof.KIRun.lean ====
import proofs.«101480_j18889266168017_1_alg».proof.Proof.Gen.KernelIdeal.Launch
import proofs.«101480_j18889266168017_1_alg».proof.Proof.Gen.KernelIdeal.Skeleton
import proofs.«101480_j18889266168017_1_alg».proof.Proof.Gen.KernelIdeal.Points
import proofs.«101480_j18889266168017_1_alg».proof.Proof.Gen.KernelIdeal.Regions
import proofs.«101480_j18889266168017_1_alg».proof.Proof.KIReg0
import proofs.«101480_j18889266168017_1_alg».proof.Proof.KIReg1
import proofs.«101480_j18889266168017_1_alg».proof.Proof.KIReg2
import proofs.«101480_j18889266168017_1_alg».proof.Proof.KIReg3
import proofs.«101480_j18889266168017_1_alg».proof.Proof.KIReg4
import proofs.«101480_j18889266168017_1_alg».proof.Proof.KIReg5
import proofs.«101480_j18889266168017_1_alg».proof.Proof.KIReg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A region changes no array but those of its output windows.
theorem withArrays_keep {cfg : Cfg sig Λ₀} {c : Dev nD} (dat : Dat τ (Elt F) Unit ℕ (UR sig nD τ) ℕ cfg c)
    (hinj : Function.Injective (Pipeline.arrRef cfg.spec)) (Wp : Valuation τ sig (Elt F))
    (hA : ∀ w, dat.A w = Wp (Proc.devRef .tc (Pipeline.arrRef cfg.spec w))) (b : Ref sig .tc)
    (hb : ∀ w, Pipeline.arrRef cfg.spec w = b → (cfg.win w).isOut = false) :
    Pipeline.withArrays cfg.spec c Wp (fun w => dat.arrAt w cfg.N) (Proc.devRef .tc b) = Wp (Proc.devRef .tc b) := by
  by_cases h : ∃ w, Pipeline.arrRef cfg.spec w = b
  · obtain ⟨w, rfl⟩ := h
    exact (Pipeline.withArrays_arr _ hinj c _ _ w).trans ((dat.arrAt_in w (hb w rfl) _).trans (hA w))
  · exact Pipeline.withArrays_of_ne _ c _ _ b fun w e => h ⟨w, e⟩

variable (m : (ℓ : Loc nD τ sig) → Buf (Elt F) ℓ) (ρ : Dev nD → PrngReg)

-- W j is the contents of the buffers after item j − 1 of the main function, folded from the launch memory; V j reads it by array.
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N
abbrev V7 : (c : Dev nD) → (b : Ref sig .tc) → Buf (Elt F) ((c : Thread nD τ).loc b) := fun c b => W7 m ρ c b
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec4 c (W8 m ρ c) fun w => (dat4 (V8 m ρ) c).arrAt w cfg4.N
abbrev V9 : (c : Dev nD) → (b : Ref sig .tc) → Buf (Elt F) ((c : Thread nD τ).loc b) := fun c b => W9 m ρ c b
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec5 c (W10 m ρ c) fun w => (dat5 (V10 m ρ) c).arrAt w cfg5.N
abbrev V11 : (c : Dev nD) → (b : Ref sig .tc) → Buf (Elt F) ((c : Thread nD τ).loc b) := fun c b => W11 m ρ c b
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b
def W13 (c : Dev nD) : Valuation τ sig (Elt F) :=
  Pipeline.withArrays spec6 c (W12 m ρ c) fun w => (dat6 (V12 m ρ) c).arrAt w cfg6.N
abbrev V13 : (c : Dev nD) → (b : Ref sig .tc) → Buf (Elt F) ((c : Thread nD τ).loc b) := fun c b => W13 m ρ c b
abbrev W14 : Dev nD → Valuation τ sig (Elt F) := fun c => StableHlo.after hostOps7 (W13 m ρ c)

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_keep (c : Dev nD) (b : Ref sig .tc) (h : b ∉ ([main_v4] : List (Ref sig .tc))) :
    W2 m ρ c (Proc.devRef .tc b) = W1 m ρ c (Proc.devRef .tc b) :=
  withArrays_keep (dat0 (V1 m ρ) c) launch0.win.arr_inj _ (A_eq0 (V1 m ρ) c) b fun w e =>
    (by decide : ∀ w : Fin cfg0.W, Pipeline.arrRef spec0 w ∉ ([main_v4] : List (Ref sig .tc)) → (cfg0.win w).isOut = false) w (e ▸ h)
theorem W2_out (c : Dev nD) : W2 m ρ c (Proc.devRef .tc main_v4) = (dat0 (V1 m ρ) c).arrAt 2 cfg0.N :=
  Pipeline.withArrays_arr spec0 launch0.win.arr_inj c _ _ 2
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_keep (c : Dev nD) (b : Ref sig .tc) (h : b ∉ ([main_v53_0, main_v53_1] : List (Ref sig .tc))) :
    W4 m ρ c (Proc.devRef .tc b) = W3 m ρ c (Proc.devRef .tc b) :=
  withArrays_keep (dat1 (V3 m ρ) c) launch1.win.arr_inj _ (A_eq1 (V3 m ρ) c) b fun w e =>
    (by decide : ∀ w : Fin cfg1.W, Pipeline.arrRef spec1 w ∉ ([main_v53_0, main_v53_1] : List (Ref sig .tc)) → (cfg1.win w).isOut = false) w (e ▸ h)
theorem W4_out0 (c : Dev nD) : W4 m ρ c (Proc.devRef .tc main_v53_0) = (dat1 (V3 m ρ) c).arrAt 4 cfg1.N :=
  Pipeline.withArrays_arr spec1 launch1.win.arr_inj c _ _ 4
theorem W4_out1 (c : Dev nD) : W4 m ρ c (Proc.devRef .tc main_v53_1) = (dat1 (V3 m ρ) c).arrAt 5 cfg1.N :=
  Pipeline.withArrays_arr spec1 launch1.win.arr_inj c _ _ 5
theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h
theorem W6_keep (c : Dev nD) (b : Ref sig .tc) (h : b ∉ ([main_v68] : List (Ref sig .tc))) :
    W6 m ρ c (Proc.devRef .tc b) = W5 m ρ c (Proc.devRef .tc b) :=
  withArrays_keep (dat2 (V5 m ρ) c) launch2.win.arr_inj _ (A_eq2 (V5 m ρ) c) b fun w e =>
    (by decide : ∀ w : Fin cfg2.W, Pipeline.arrRef spec2 w ∉ ([main_v68] : List (Ref sig .tc)) → (cfg2.win w).isOut = false) w (e ▸ h)
theorem W6_out (c : Dev nD) : W6 m ρ c (Proc.devRef .tc main_v68) = (dat2 (V5 m ρ) c).arrAt 5 cfg2.N :=
  Pipeline.withArrays_arr spec2 launch2.win.arr_inj c _ _ 5
theorem W7_keep (c : Dev nD) (b : Ref sig .tc) (h : b ∉ ([main_v69] : List (Ref sig .tc))) :
    W7 m ρ c (Proc.devRef .tc b) = W6 m ρ c (Proc.devRef .tc b) :=
  withArrays_keep (dat3 (V6 m ρ) c) launch3.win.arr_inj _ (A_eq3 (V6 m ρ) c) b fun w e =>
    (by decide : ∀ w : Fin cfg3.W, Pipeline.arrRef spec3 w ∉ ([main_v69] : List (Ref sig .tc)) → (cfg3.win w).isOut = false) w (e ▸ h)
theorem W7_out (c : Dev nD) : W7 m ρ c (Proc.devRef .tc main_v69) = (dat3 (V6 m ρ) c).arrAt 2 cfg3.N :=
  Pipeline.withArrays_arr spec3 launch3.win.arr_inj c _ _ 2
theorem W8_keep (c : Dev nD) (b : Ref sig .tc) (h : b ∉ hostOps4_W) :
    W8 m ρ c (Proc.devRef .tc b) = W7 m ρ c (Proc.devRef .tc b) :=
  StableHlo.after_of_writes_sub hostOps4 _ hostOps4_writes h
theorem W9_keep (c : Dev nD) (b : Ref sig .tc) (h : b ∉ ([main_v118_0, main_v118_1] : List (Ref sig .tc))) :
    W9 m ρ c (Proc.devRef .tc b) = W8 m ρ c (Proc.devRef .tc b) :=
  withArrays_keep (dat4 (V8 m ρ) c) launch4.win.arr_inj _ (A_eq4 (V8 m ρ) c) b fun w e =>
    (by decide : ∀ w : Fin cfg4.W, Pipeline.arrRef spec4 w ∉ ([main_v118_0, main_v118_1] : List (Ref sig .tc)) → (cfg4.win w).isOut = false) w (e ▸ h)
theorem W9_out0 (c : Dev nD) : W9 m ρ c (Proc.devRef .tc main_v118_0) = (dat4 (V8 m ρ) c).arrAt 4 cfg4.N :=
  Pipeline.withArrays_arr spec4 launch4.win.arr_inj c _ _ 4
theorem W9_out1 (c : Dev nD) : W9 m ρ c (Proc.devRef .tc main_v118_1) = (dat4 (V8 m ρ) c).arrAt 5 cfg4.N :=
  Pipeline.withArrays_arr spec4 launch4.win.arr_inj c _ _ 5
theorem W10_keep (c : Dev nD) (b : Ref sig .tc) (h : b ∉ hostOps5_W) :
    W10 m ρ c (Proc.devRef .tc b) = W9 m ρ c (Proc.devRef .tc b) :=
  StableHlo.after_of_writes_sub hostOps5 _ hostOps5_writes h
theorem W11_keep (c : Dev nD) (b : Ref sig .tc) (h : b ∉ ([main_v133] : List (Ref sig .tc))) :
    W11 m ρ c (Proc.devRef .tc b) = W10 m ρ c (Proc.devRef .tc b) :=
  withArrays_keep (dat5 (V10 m ρ) c) launch5.win.arr_inj _ (A_eq5 (V10 m ρ) c) b fun w e =>
    (by decide : ∀ w : Fin cfg5.W, Pipeline.arrRef spec5 w ∉ ([main_v133] : List (Ref sig .tc)) → (cfg5.win w).isOut = false) w (e ▸ h)
theorem W11_out (c : Dev nD) : W11 m ρ c (Proc.devRef .tc main_v133) = (dat5 (V10 m ρ) c).arrAt 5 cfg5.N :=
  Pipeline.withArrays_arr spec5 launch5.win.arr_inj c _ _ 5
theorem W12_keep (c : Dev nD) (b : Ref sig .tc) (h : b ∉ hostOps6_W) :
    W12 m ρ c (Proc.devRef .tc b) = W11 m ρ c (Proc.devRef .tc b) :=
  StableHlo.after_of_writes_sub hostOps6 _ hostOps6_writes h
theorem W13_keep (c : Dev nD) (b : Ref sig .tc) (h : b ∉ ([main_v137] : List (Ref sig .tc))) :
    W13 m ρ c (Proc.devRef .tc b) = W12 m ρ c (Proc.devRef .tc b) :=
  withArrays_keep (dat6 (V12 m ρ) c) launch6.win.arr_inj _ (A_eq6 (V12 m ρ) c) b fun w e =>
    (by decide : ∀ w : Fin cfg6.W, Pipeline.arrRef spec6 w ∉ ([main_v137] : List (Ref sig .tc)) → (cfg6.win w).isOut = false) w (e ▸ h)
theorem W13_out (c : Dev nD) : W13 m ρ c (Proc.devRef .tc main_v137) = (dat6 (V12 m ρ) c).arrAt 5 cfg6.N :=
  Pipeline.withArrays_arr spec6 launch6.win.arr_inj c _ _ 5
theorem W14_keep (c : Dev nD) (b : Ref sig .tc) (h : b ∉ hostOps7_W) :
    W14 m ρ c (Proc.devRef .tc b) = W13 m ρ c (Proc.devRef .tc b) :=
  StableHlo.after_of_writes_sub hostOps7 _ hostOps7_writes h

-- A buffer no item writes holds at the end what the launch memory held.
theorem W14_unwritten (c : Dev nD) (b : Ref sig .tc)
    (h1 : b ∉ hostOps0_W) (h2 : b ∉ ([main_v4] : List (Ref sig .tc))) (h3 : b ∉ hostOps1_W) (h4 : b ∉ ([main_v53_0, main_v53_1] : List (Ref sig .tc))) (h5 : b ∉ hostOps2_W) (h6 : b ∉ ([main_v68] : List (Ref sig .tc))) (h7 : b ∉ ([main_v69] : List (Ref sig .tc))) (h8 : b ∉ hostOps4_W) (h9 : b ∉ ([main_v118_0, main_v118_1] : List (Ref sig .tc))) (h10 : b ∉ hostOps5_W) (h11 : b ∉ ([main_v133] : List (Ref sig .tc))) (h12 : b ∉ hostOps6_W) (h13 : b ∉ ([main_v137] : List (Ref sig .tc))) (h14 : b ∉ hostOps7_W) :
    W14 m ρ c (Proc.devRef .tc b) = m ((c : Thread nD τ).loc b) :=
  (W14_keep m ρ c b h14).trans <| (W13_keep m ρ c b h13).trans <| (W12_keep m ρ c b h12).trans <|
    (W11_keep m ρ c b h11).trans <| (W10_keep m ρ c b h10).trans <| (W9_keep m ρ c b h9).trans <|
    (W8_keep m ρ c b h8).trans <| (W7_keep m ρ c b h7).trans <| (W6_keep m ρ c b h6).trans <|
    (W5_keep m ρ c b h5).trans <| (W4_keep m ρ c b h4).trans <| (W3_keep m ρ c b h3).trans <|
    (W2_keep m ρ c b h2).trans (W1_keep m ρ c b h1)

abbrev args : List (Ref sig .tc) := [main_arg0, main_arg1, main_arg2, main_arg3, main_arg4, main_arg5, main_arg6, main_arg7, main_arg8, main_arg9, main_arg10, main_arg11, main_arg12, main_arg13, main_arg14]

-- No item writes an argument.
theorem W14_arg (c : Dev nD) (b : Ref sig .tc) (hb : b ∈ args) :
    W14 m ρ c (Proc.devRef .tc b) = m ((c : Thread nD τ).loc b) :=
  W14_unwritten m ρ c b
    ((by decide : ∀ b ∈ args, b ∉ hostOps0_W) b hb)
    ((by decide : ∀ b ∈ args, b ∉ ([main_v4] : List (Ref sig .tc))) b hb)
    ((by decide : ∀ b ∈ args, b ∉ hostOps1_W) b hb)
    ((by decide : ∀ b ∈ args, b ∉ ([main_v53_0, main_v53_1] : List (Ref sig .tc))) b hb)
    ((by decide : ∀ b ∈ args, b ∉ hostOps2_W) b hb)
    ((by decide : ∀ b ∈ args, b ∉ ([main_v68] : List (Ref sig .tc))) b hb)
    ((by decide : ∀ b ∈ args, b ∉ ([main_v69] : List (Ref sig .tc))) b hb)
    ((by decide : ∀ b ∈ args, b ∉ hostOps4_W) b hb)
    ((by decide : ∀ b ∈ args, b ∉ ([main_v118_0, main_v118_1] : List (Ref sig .tc))) b hb)
    ((by decide : ∀ b ∈ args, b ∉ hostOps5_W) b hb)
    ((by decide : ∀ b ∈ args, b ∉ ([main_v133] : List (Ref sig .tc))) b hb)
    ((by decide : ∀ b ∈ args, b ∉ hostOps6_W) b hb)
    ((by decide : ∀ b ∈ args, b ∉ ([main_v137] : List (Ref sig .tc))) b hb)
    ((by decide : ∀ b ∈ args, b ∉ hostOps7_W) b hb)

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

-- Region p's exit contents from its entry contents Wi: its output arrays as it leaves them, every other buffer as entered.
abbrev regOut (p : Fin 7) (Wi : Dev nD → Valuation τ sig (Elt F)) (c : Dev nD) : Valuation τ sig (Elt F) :=
  Pipeline.withArrays (Pipeline.pin (pcfgs (F := F)) adm p).spec c (Wi c) fun w => (pdats m ρ p c).arrAt w (Pipeline.pin (pcfgs (F := F)) adm p).N

set_option backward.isDefEq.respectTransparency.types false in
-- Region p as one segment of the main function, from the contents Wi to regOut p Wi.
def regSeg (p : Fin 7) (lf : Pipeline.LaunchFacts (nD := nD) (τ := τ) cfgs p) (Wi : Dev nD → Valuation τ sig (Elt F))
    (hbody : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c i, (pdats m ρ p c).Φ i = Pipeline.ΦA (Pipeline.pin (pcfgs (F := F)) adm p).spec c)
    (hA : ∀ c w, (pdats m ρ p c).A w = Wi c (Proc.devRef .tc (Pipeline.arrRef (Pipeline.pin (pcfgs (F := F)) adm p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (regOut m ρ p Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => regOut m ρ p Wi c b) ((pdats m ρ p c).arrAt · (Pipeline.pin (pcfgs (F := F)) adm p).N)
      (fun w => (Pipeline.withArrays_arr _ lf.win.arr_inj c (Wi c) (fun w => (pdats m ρ p c).arrAt w (Pipeline.pin (pcfgs (F := F)) adm p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

abbrev reg0 := regSeg m ρ 0 launch0 (W1 m ρ) (fun c => (body_obligation0 (V1 m ρ) c).loose)
  (fun _ _ => rfl) (fun _ _ => rfl) (fun _ _ => rfl) (fun _ _ => rfl) (fun _ _ => rfl)
abbrev reg1 := regSeg m ρ 1 launch1 (W3 m ρ) (fun c => (body_obligation1 (V3 m ρ) c).loose)
  (fun _ _ => rfl) (fun _ _ => rfl) (fun _ _ => rfl) (fun _ _ => rfl) (fun _ _ => rfl)
abbrev reg2 := regSeg m ρ 2 launch2 (W5 m ρ) (fun c => (body_obligation2 (V5 m ρ) c).loose)
  (fun _ _ => rfl) (fun _ _ => rfl) (fun _ _ => rfl) (fun _ _ => rfl) (fun _ _ => rfl)
abbrev reg3 := regSeg m ρ 3 launch3 (W6 m ρ) (fun c => (body_obligation3 (V6 m ρ) c).loose)
  (fun _ _ => rfl) (fun _ _ => rfl) (fun _ _ => rfl) (fun _ _ => rfl) (fun _ _ => rfl)
abbrev reg4 := regSeg m ρ 4 launch4 (W8 m ρ) (fun c => (body_obligation4 (V8 m ρ) c).loose)
  (fun _ _ => rfl) (fun _ _ => rfl) (fun _ _ => rfl) (fun _ _ => rfl) (fun _ _ => rfl)
abbrev reg5 := regSeg m ρ 5 launch5 (W10 m ρ) (fun c => (body_obligation5 (V10 m ρ) c).loose)
  (fun _ _ => rfl) (fun _ _ => rfl) (fun _ _ => rfl) (fun _ _ => rfl) (fun _ _ => rfl)
abbrev reg6 := regSeg m ρ 6 launch6 (W12 m ρ) (fun c => (body_obligation6 (V12 m ρ) c).loose)
  (fun _ _ => rfl) (fun _ _ => rfl) (fun _ _ => rfl) (fun _ _ => rfl) (fun _ _ => rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)) ]
theorem main_run (c : Dev nD) : main (F := F) c = Pipeline.Seg.run (segs m ρ) := (main_chain c).trans (by chain_rfl)

theorem last_split (c : Dev nD) :
    (iprop(StableHlo.held (c : Thread nD τ) (Pipeline.ucRefs τ sig) (W14 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
-- The main function terminates, nothing faulting, with every buffer at the last fold's contents.
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => last_split m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

-- The result array ends at the last fold's value there, and every argument ends as launched.
theorem run_result : θ_run defs (onTc (τ := τ) (main (F := F))) ⟨m, fun _ => 0, ρ⟩ (fun r => ∀ c : Dev nD,
      r.2.mem ((c.tc : Thread nD τ).loc main_v138) = W14 m ρ c (Proc.devRef .tc main_v138)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).mono (fun r h c =>
    have arg : ∀ b ∈ args, r.2.mem ((c.tc : Thread nD τ).loc b) = m ((c.tc : Thread nD τ).loc b) := fun b hb =>
      (h c _ (mem_uc b ((by decide : ∀ b ∈ args, ¬ (Proc.devRef .tc b : DevRef τ sig).isScoped) b hb))).trans (W14_arg m ρ c b hb)
    ⟨h c _ (mem_uc main_v138 (by decide)),
     arg main_arg0 (by decide),
     arg main_arg1 (by decide),
     arg main_arg2 (by decide),
     arg main_arg3 (by decide),
     arg main_arg4 (by decide),
     arg main_arg5 (by decide),
     arg main_arg6 (by decide),
     arg main_arg7 (by decide),
     arg main_arg8 (by decide),
     arg main_arg9 (by decide),
     arg main_arg10 (by decide),
     arg main_arg11 (by decide),
     arg main_arg12 (by decide),
     arg main_arg13 (by decide),
     arg main_arg14 (by decide)⟩) (run m ρ)

end Cert.KernelIdeal.Hand

end
-- ==== Proof.RefRun.lean ====
import proofs.«101480_j18889266168017_1_alg».proof.Proof.Gen.ReferenceIdeal
import Idealize.ShloMosaic.Lib.StableHlo.Run
import Idealize.ShloMosaic.Lib.Pipeline.Frame

set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

abbrev seg_idx : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000 ]

abbrev seg_lin1 : List (HloOp τ sig (Elt F)) :=
  [ binary main_arg0 main_arg3 main_v4 (fun l r => Host.dotGeneral dot_S50000x128_S128x128_S50000x128_1_0_0_1_n_n none l r) ]

abbrev seg_agg1a : List (HloOp τ sig (Elt F)) :=
  [ nullary main_cst (constant S_ .f32 0x00000000#32),
    unary main_cst main_v5 (broadcastInDim S50000 ![] bcast_S_S50000),
    nullary main_c (constantI S_ 32 0#32),
    unary main_c main_v6 (broadcastInDim S800000 ![] bcast_S_S800000),
    binary main_v3 main_v6 main_v7 (cmpi .slt),
    nullary main_c_0 (constantI S_ 32 50000#32),
    unary main_c_0 main_v8 (broadcastInDim S800000 ![] bcast_S_S800000),
    binary main_v3 main_v8 main_v9 addi,
    ternary main_v7 main_v9 main_v3 main_v10 select,
    unary main_v10 main_v11 (broadcastInDim S800000x1 ![0] bcast_S800000_S800000x1_0),
    ternary main_v5 main_v11 main_arg2 main_v12 (fun x i u => Host.scatterAdd scatter_S50000_S800000x1_S800000_n_0_0_1 x i u),
    nullary main_cst_1 (constant S_ .f32 0x3F800000#32),
    unary main_cst_1 main_v13 (broadcastInDim S50000 ![] bcast_S_S50000),
    binary main_v12 main_v13 main_v14 addf,
    unary main_v14 main_v15 Host.rsqrt,
    nullary main_c_2 (constantI S_ 32 0#32),
    unary main_c_2 main_v16 (broadcastInDim S800000 ![] bcast_S_S800000),
    binary main_v1 main_v16 main_v17 (cmpi .slt),
    nullary main_c_3 (constantI S_ 32 50000#32),
    unary main_c_3 main_v18 (broadcastInDim S800000 ![] bcast_S_S800000),
    binary main_v1 main_v18 main_v19 addi,
    ternary main_v17 main_v19 main_v1 main_v20 select,
    unary main_v20 main_v21 (broadcastInDim S800000x1 ![0] bcast_S800000_S800000x1_0),
    binary main_v15 main_v21 main_v22 (fun x i => Host.gather gather_S50000_S800000x1_S800000_n_0_n_n_0_1_1 x i),
    binary main_v22 main_arg2 main_v23 mulf,
    nullary main_c_4 (constantI S_ 32 0#32),
    unary main_c_4 main_v24 (broadcastInDim S800000 ![] bcast_S_S800000),
    binary main_v3 main_v24 main_v25 (cmpi .slt),
    nullary main_c_5 (constantI S_ 32 50000#32),
    unary main_c_5 main_v26 (broadcastInDim S800000 ![] bcast_S_S800000),
    binary main_v3 main_v26 main_v27 addi,
    ternary main_v25 main_v27 main_v3 main_v28 select,
    unary main_v28 main_v29 (broadcastInDim S800000x1 ![0] bcast_S800000_S800000x1_0),
    binary main_v15 main_v29 main_v30 (fun x i => Host.gather gather_S50000_S800000x1_S800000_n_0_n_n_0_1_1 x i),
    binary main_v23 main_v30 main_v31 mulf,
    nullary main_cst_6 (constant S_ .f32 0x00000000#32),
    unary main_cst_6 main_v32 (broadcastInDim S50000x128 ![] bcast_S_S50000x128),
    nullary main_c_7 (constantI S_ 32 0#32),
    unary main_c_7 main_v33 (broadcastInDim S800000 ![] bcast_S_S800000),
    binary main_v1 main_v33 main_v34 (cmpi .slt),
    nullary main_c_8 (constantI S_ 32 50000#32),
    unary main_c_8 main_v35 (broadcastInDim S800000 ![] bcast_S_S800000),
    binary main_v1 main_v35 main_v36 addi,
    ternary main_v34 main_v36 main_v1 main_v37 select,
    unary main_v37 main_v38 (broadcastInDim S800000x1 ![0] bcast_S800000_S800000x1_0),
    binary main_v4 main_v38 main_v39 (fun x i => Host.gather gather_S50000x128_S800000x1_S800000x128_1_0_n_n_0_1_1128 x i),
    unary main_v31 main_v40 (broadcastInDim S800000x1 ![0] bcast_S800000_S800000x1_0),
    unary main_v40 main_v41 (broadcastInDim S800000x128 ![0, 1] bcast_S800000x1_S800000x128_0_1),
    binary main_v39 main_v41 main_v42 mulf,
    nullary main_c_9 (constantI S_ 32 0#32),
    unary main_c_9 main_v43 (broadcastInDim S800000 ![] bcast_S_S800000),
    binary main_v3 main_v43 main_v44 (cmpi .slt),
    nullary main_c_10 (constantI S_ 32 50000#32),
    unary main_c_10 main_v45 (broadcastInDim S800000 ![] bcast_S_S800000),
    binary main_v3 main_v45 main_v46 addi ]

abbrev seg_agg1b : List (HloOp τ sig (Elt F)) :=
  [ ternary main_v44 main_v46 main_v3 main_v47 select,
    unary main_v47 main_v48 (broadcastInDim S800000x1 ![0] bcast_S800000_S800000x1_0),
    ternary main_v32 main_v48 main_v42 main_v49 (fun x i u => Host.scatterAdd scatter_S50000x128_S800000x1_S800000x128_1_0_0_1 x i u),
    binary main_v15 main_v15 main_v50 mulf,
    unary main_v50 main_v51 (broadcastInDim S50000x1 ![0] bcast_S50000_S50000x1_0),
    unary main_v51 main_v52 (broadcastInDim S50000x128 ![0, 1] bcast_S50000x1_S50000x128_0_1),
    binary main_v4 main_v52 main_v53 mulf,
    binary main_v49 main_v53 main_v54 addf,
    unary main_arg4 main_v55 (broadcastInDim S1x128 ![1] bcast_S128_S1x128_1),
    unary main_v55 main_v56 (broadcastInDim S50000x128 ![0, 1] bcast_S1x128_S50000x128_0_1),
    binary main_v54 main_v56 main_v57 addf ]

abbrev seg_agg1 : List (HloOp τ sig (Elt F)) := seg_agg1a ++ seg_agg1b

abbrev seg_bn1 : List (HloOp τ sig (Elt F)) :=
  [ TRef.nullary main_call0.cst (constant S_ .f32 0x00000000#32),
    TRef.unary main_call0.cst main_call0.v0 (broadcastInDim S50000x128 ![] bcast_S_S50000x128),
    TRef.binary (.of main_v57) main_call0.v0 main_call0.v1 maximumf,
    nullary main_cst_11 (constant S_ .f32 0x00000000#32),
    binary main_v58 main_cst_11 main_v59 (fun x v => Host.reduceAdd x v reducesTo_S50000x128_S128_d0 h_S_),
    nullary main_cst_12 (constant S_ .f32 0x47435000#32),
    unary main_cst_12 main_v60 (broadcastInDim S128 ![] bcast_S_S128),
    binary main_v59 main_v60 main_v61 Host.divf,
    nullary main_c_13 (constantI S_ 32 0#32),
    TRef.nullary main_call1.cst (constant S_ .f32 0x00000000#32),
    TRef.binary (.of main_v58) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v58) main_call1.v4 main_call1.v5 subf,
    TRef.binary main_call1.v5 main_call1.v5 main_call1.v6 mulf,
    TRef.unary (.of main_c_13) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v61 main_v63 (broadcastInDim S1x128 ![1] bcast_S128_S1x128_1),
    unary main_v63 main_v64 (broadcastInDim S50000x128 ![0, 1] bcast_S1x128_S50000x128_0_1),
    binary main_v58 main_v64 main_v65 subf,
    unary main_arg7 main_v66 (broadcastInDim S1x128 ![1] bcast_S128_S1x128_1),
    unary main_v66 main_v67 (broadcastInDim S50000x128 ![0, 1] bcast_S1x128_S50000x128_0_1),
    binary main_v67 main_v65 main_v68 mulf,
    nullary main_cst_14 (constant S_ .f32 0x3727C5AC#32),
    unary main_cst_14 main_v69 (broadcastInDim S128 ![] bcast_S_S128),
    binary main_v62 main_v69 main_v70 addf,
    unary main_v70 main_v71 Host.rsqrt,
    unary main_v71 main_v72 (broadcastInDim S1x128 ![1] bcast_S128_S1x128_1),
    unary main_v72 main_v73 (broadcastInDim S50000x128 ![0, 1] bcast_S1x128_S50000x128_0_1),
    binary main_v68 main_v73 main_v74 mulf,
    unary main_arg8 main_v75 (broadcastInDim S1x128 ![1] bcast_S128_S1x128_1),
    unary main_v75 main_v76 (broadcastInDim S50000x128 ![0, 1] bcast_S1x128_S50000x128_0_1),
    binary main_v74 main_v76 main_v77 addf ]

abbrev seg_lin2 : List (HloOp τ sig (Elt F)) :=
  [ binary main_v77 main_arg5 main_v78 (fun l r => Host.dotGeneral dot_S50000x128_S128x128_S50000x128_1_0_0_1_n_n none l r) ]

abbrev seg_agg2a : List (HloOp τ sig (Elt F)) :=
  [ nullary main_cst_15 (constant S_ .f32 0x00000000#32),
    unary main_cst_15 main_v79 (broadcastInDim S50000 ![] bcast_S_S50000),
    nullary main_c_16 (constantI S_ 32 0#32),
    unary main_c_16 main_v80 (broadcastInDim S800000 ![] bcast_S_S800000),
    binary main_v3 main_v80 main_v81 (cmpi .slt),
    nullary main_c_17 (constantI S_ 32 50000#32),
    unary main_c_17 main_v82 (broadcastInDim S800000 ![] bcast_S_S800000),
    binary main_v3 main_v82 main_v83 addi,
    ternary main_v81 main_v83 main_v3 main_v84 select,
    unary main_v84 main_v85 (broadcastInDim S800000x1 ![0] bcast_S800000_S800000x1_0),
    ternary main_v79 main_v85 main_arg2 main_v86 (fun x i u => Host.scatterAdd scatter_S50000_S800000x1_S800000_n_0_0_1 x i u),
    nullary main_cst_18 (constant S_ .f32 0x3F800000#32),
    unary main_cst_18 main_v87 (broadcastInDim S50000 ![] bcast_S_S50000),
    binary main_v86 main_v87 main_v88 addf,
    unary main_v88 main_v89 Host.rsqrt,
    nullary main_c_19 (constantI S_ 32 0#32),
    unary main_c_19 main_v90 (broadcastInDim S800000 ![] bcast_S_S800000),
    binary main_v1 main_v90 main_v91 (cmpi .slt),
    nullary main_c_20 (constantI S_ 32 50000#32),
    unary main_c_20 main_v92 (broadcastInDim S800000 ![] bcast_S_S800000),
    binary main_v1 main_v92 main_v93 addi,
    ternary main_v91 main_v93 main_v1 main_v94 select,
    unary main_v94 main_v95 (broadcastInDim S800000x1 ![0] bcast_S800000_S800000x1_0),
    binary main_v89 main_v95 main_v96 (fun x i => Host.gather gather_S50000_S800000x1_S800000_n_0_n_n_0_1_1 x i) ]

abbrev seg_agg2b : List (HloOp τ sig (Elt F)) :=
  [ binary main_v96 main_arg2 main_v97 mulf,
    nullary main_c_21 (constantI S_ 32 0#32),
    unary main_c_21 main_v98 (broadcastInDim S800000 ![] bcast_S_S800000),
    binary main_v3 main_v98 main_v99 (cmpi .slt),
    nullary main_c_22 (constantI S_ 32 50000#32),
    unary main_c_22 main_v100 (broadcastInDim S800000 ![] bcast_S_S800000),
    binary main_v3 main_v100 main_v101 addi,
    ternary main_v99 main_v101 main_v3 main_v102 select,
    unary main_v102 main_v103 (broadcastInDim S800000x1 ![0] bcast_S800000_S800000x1_0),
    binary main_v89 main_v103 main_v104 (fun x i => Host.gather gather_S50000_S800000x1_S800000_n_0_n_n_0_1_1 x i),
    binary main_v97 main_v104 main_v105 mulf,
    nullary main_cst_23 (constant S_ .f32 0x00000000#32),
    unary main_cst_23 main_v106 (broadcastInDim S50000x128 ![] bcast_S_S50000x128),
    nullary main_c_24 (constantI S_ 32 0#32),
    unary main_c_24 main_v107 (broadcastInDim S800000 ![] bcast_S_S800000),
    binary main_v1 main_v107 main_v108 (cmpi .slt),
    nullary main_c_25 (constantI S_ 32 50000#32),
    unary main_c_25 main_v109 (broadcastInDim S800000 ![] bcast_S_S800000),
    binary main_v1 main_v109 main_v110 addi,
    ternary main_v108 main_v110 main_v1 main_v111 select,
    unary main_v111 main_v112 (broadcastInDim S800000x1 ![0] bcast_S800000_S800000x1_0),
    binary main_v78 main_v112 main_v113 (fun x i => Host.gather gather_S50000x128_S800000x1_S800000x128_1_0_n_n_0_1_1128 x i),
    unary main_v105 main_v114 (broadcastInDim S800000x1 ![0] bcast_S800000_S800000x1_0),
    unary main_v114 main_v115 (broadcastInDim S800000x128 ![0, 1] bcast_S800000x1_S800000x128_0_1),
    binary main_v113 main_v115 main_v116 mulf,
    nullary main_c_26 (constantI S_ 32 0#32),
    unary main_c_26 main_v117 (broadcastInDim S800000 ![] bcast_S_S800000),
    binary main_v3 main_v117 main_v118 (cmpi .slt),
    nullary main_c_27 (constantI S_ 32 50000#32),
    unary main_c_27 main_v119 (broadcastInDim S800000 ![] bcast_S_S800000),
    binary main_v3 main_v119 main_v120 addi,
    ternary main_v118 main_v120 main_v3 main_v121 select,
    unary main_v121 main_v122 (broadcastInDim S800000x1 ![0] bcast_S800000_S800000x1_0),
    ternary main_v106 main_v122 main_v116 main_v123 (fun x i u => Host.scatterAdd scatter_S50000x128_S800000x1_S800000x128_1_0_0_1 x i u),
    binary main_v89 main_v89 main_v124 mulf,
    unary main_v124 main_v125 (broadcastInDim S50000x1 ![0] bcast_S50000_S50000x1_0),
    unary main_v125 main_v126 (broadcastInDim S50000x128 ![0, 1] bcast_S50000x1_S50000x128_0_1),
    binary main_v78 main_v126 main_v127 mulf,
    binary main_v123 main_v127 main_v128 addf,
    unary main_arg6 main_v129 (broadcastInDim S1x128 ![1] bcast_S128_S1x128_1),
    unary main_v129 main_v130 (broadcastInDim S50000x128 ![0, 1] bcast_S1x128_S50000x128_0_1),
    binary main_v128 main_v130 main_v131 addf ]

abbrev seg_agg2 : List (HloOp τ sig (Elt F)) := seg_agg2a ++ seg_agg2b

abbrev seg_bn2a : List (HloOp τ sig (Elt F)) :=
  [ TRef.nullary main_call2.cst (constant S_ .f32 0x00000000#32),
    TRef.unary main_call2.cst main_call2.v0 (broadcastInDim S50000x128 ![] bcast_S_S50000x128),
    TRef.binary (.of main_v131) main_call2.v0 main_call2.v1 maximumf,
    nullary main_cst_28 (constant S_ .f32 0x00000000#32),
    binary main_v132 main_cst_28 main_v133 (fun x v => Host.reduceAdd x v reducesTo_S50000x128_S128_d0 h_S_),
    nullary main_cst_29 (constant S_ .f32 0x47435000#32),
    unary main_cst_29 main_v134 (broadcastInDim S128 ![] bcast_S_S128),
    binary main_v133 main_v134 main_v135 Host.divf,
    nullary main_c_30 (constantI S_ 32 0#32),
    TRef.nullary main_call3.cst (constant S_ .f32 0x00000000#32),
    TRef.binary (.of main_v132) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (.of main_v132) main_call3.v4 main_call3.v5 subf,
    TRef.binary main_call3.v5 main_call3.v5 main_call3.v6 mulf,
    TRef.unary (.of main_c_30) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v135 main_v137 (broadcastInDim S1x128 ![1] bcast_S128_S1x128_1),
    unary main_v137 main_v138 (broadcastInDim S50000x128 ![0, 1] bcast_S1x128_S50000x128_0_1),
    binary main_v132 main_v138 main_v139 subf,
    unary main_arg9 main_v140 (broadcastInDim S1x128 ![1] bcast_S128_S1x128_1),
    unary main_v140 main_v141 (broadcastInDim S50000x128 ![0, 1] bcast_S1x128_S50000x128_0_1),
    binary main_v141 main_v139 main_v142 mulf,
    nullary main_cst_31 (constant S_ .f32 0x3727C5AC#32),
    unary main_cst_31 main_v143 (broadcastInDim S128 ![] bcast_S_S128),
    binary main_v136 main_v143 main_v144 addf,
    unary main_v144 main_v145 Host.rsqrt ]

abbrev seg_bn2b : List (HloOp τ sig (Elt F)) :=
  [ unary main_v145 main_v146 (broadcastInDim S1x128 ![1] bcast_S128_S1x128_1),
    unary main_v146 main_v147 (broadcastInDim S50000x128 ![0, 1] bcast_S1x128_S50000x128_0_1),
    binary main_v142 main_v147 main_v148 mulf,
    unary main_arg10 main_v149 (broadcastInDim S1x128 ![1] bcast_S128_S1x128_1),
    unary main_v149 main_v150 (broadcastInDim S50000x128 ![0, 1] bcast_S1x128_S50000x128_0_1),
    binary main_v148 main_v150 main_v151 addf ]

abbrev seg_bn2 : List (HloOp τ sig (Elt F)) := seg_bn2a ++ seg_bn2b

abbrev seg_mlp : List (HloOp τ sig (Elt F)) :=
  [ nary ![main_arg0, main_v77, main_v151] main_v152 (fun u => concatenate S50000x384 1 [⟨S50000x128, u 0⟩, ⟨S50000x128, u 1⟩, ⟨S50000x128, u 2⟩] concatenates_S50000x128_S50000x128_S50000x128_S50000x384_d1),
    binary main_v152 main_arg11 main_v153 (fun l r => Host.dotGeneral dot_S50000x384_S384x128_S50000x128_1_0_0_1_n_n none l r),
    unary main_arg12 main_v154 (broadcastInDim S1x128 ![1] bcast_S128_S1x128_1),
    unary main_v154 main_v155 (broadcastInDim S50000x128 ![0, 1] bcast_S1x128_S50000x128_0_1),
    binary main_v153 main_v155 main_v156 addf,
    TRef.nullary main_call4.cst (constant S_ .f32 0x00000000#32),
    TRef.unary main_call4.cst main_call4.v0 (broadcastInDim S50000x128 ![] bcast_S_S50000x128),
    TRef.binary (.of main_v156) main_call4.v0 main_call4.v1 maximumf,
    binary main_v157 main_arg13 main_v158 (fun l r => Host.dotGeneral dot_S50000x128_S128x1_S50000x1_1_0_0_1_n_n none l r),
    unary main_arg14 main_v159 (broadcastInDim S1x1 ![1] bcast_S1_S1x1_1),
    unary main_v159 main_v160 (broadcastInDim S50000x1 ![0, 1] bcast_S1x1_S50000x1_0_1),
    binary main_v158 main_v160 main_v161 addf,
    TRef.nullary main_call5.cst (constant S_ .f32 0x00000000#32),
    TRef.unary main_call5.cst main_call5.v0 (broadcastInDim S50000x1 ![] bcast_S_S50000x1),
    TRef.binary (.of main_v161) main_call5.v0 main_call5.v1 maximumf,
    reshape main_v162 main_v163 rfl shapeCasts_S50000x1_S50000 ]

abbrev ops : List (HloOp τ sig (Elt F)) :=
  seg_idx ++ seg_lin1 ++ seg_agg1 ++ seg_bn1 ++ seg_lin2 ++ seg_agg2 ++ seg_bn2 ++ seg_mlp

abbrev seg_idx_W : List (Ref sig .tc) := [main_v0, main_v1, main_v2, main_v3]
abbrev seg_lin1_W : List (Ref sig .tc) := [main_v4]
abbrev seg_agg1_W : List (Ref sig .tc) := [main_cst, main_v5, main_c, main_v6, main_v7, main_c_0, main_v8, main_v9, main_v10, main_v11, main_v12, main_cst_1, main_v13, main_v14, main_v15, main_c_2, main_v16, main_v17, main_c_3, main_v18, main_v19, main_v20, main_v21, main_v22, main_v23, main_c_4, main_v24, main_v25, main_c_5, main_v26, main_v27, main_v28, main_v29, main_v30, main_v31, main_cst_6, main_v32, main_c_7, main_v33, main_v34, main_c_8, main_v35, main_v36, main_v37, main_v38, main_v39, main_v40, main_v41, main_v42, main_c_9, main_v43, main_v44, main_c_10, main_v45, main_v46, main_v47, main_v48, main_v49, main_v50, main_v51, main_v52, main_v53, main_v54, main_v55, main_v56, main_v57]
abbrev seg_bn1_W : List (Ref sig .tc) := [main_call0_cst, main_call0_v0, main_v58, main_cst_11, main_v59, main_cst_12, main_v60, main_v61, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v62, main_v63, main_v64, main_v65, main_v66, main_v67, main_v68, main_cst_14, main_v69, main_v70, main_v71, main_v72, main_v73, main_v74, main_v75, main_v76, main_v77]
abbrev seg_lin2_W : List (Ref sig .tc) := [main_v78]
abbrev seg_agg2_W : List (Ref sig .tc) := [main_cst_15, main_v79, main_c_16, main_v80, main_v81, main_c_17, main_v82, main_v83, main_v84, main_v85, main_v86, main_cst_18, main_v87, main_v88, main_v89, main_c_19, main_v90, main_v91, main_c_20, main_v92, main_v93, main_v94, main_v95, main_v96, main_v97, main_c_21, main_v98, main_v99, main_c_22, main_v100, main_v101, main_v102, main_v103, main_v104, main_v105, main_cst_23, main_v106, main_c_24, main_v107, main_v108, main_c_25, main_v109, main_v110, main_v111, main_v112, main_v113, main_v114, main_v115, main_v116, main_c_26, main_v117, main_v118, main_c_27, main_v119, main_v120, main_v121, main_v122, main_v123, main_v124, main_v125, main_v126, main_v127, main_v128, main_v129, main_v130, main_v131]
abbrev seg_bn2_W : List (Ref sig .tc) := [main_call2_cst, main_call2_v0, main_v132, main_cst_28, main_v133, main_cst_29, main_v134, main_v135, main_c_30, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v136, main_v137, main_v138, main_v139, main_v140, main_v141, main_v142, main_cst_31, main_v143, main_v144, main_v145, main_v146, main_v147, main_v148, main_v149, main_v150, main_v151]
abbrev seg_mlp_W : List (Ref sig .tc) := [main_v152, main_v153, main_v154, main_v155, main_v156, main_call4_cst, main_call4_v0, main_v157, main_v158, main_v159, main_v160, main_v161, main_call5_cst, main_call5_v0, main_v162, main_v163]

-- A line whose operations write, one each and in order, the references of W leaves every other reference as it was.
theorem after_keep {l : List (HloOp τ sig (Elt F))} {W : List (Ref sig .tc)}
    (h : l.map (fun op => op.writes) = W.map fun r => ({Proc.devRef (τ := τ) .tc r} : Finset (DevRef τ sig)))
    (V : Valuation τ sig (Elt F)) {r : Ref sig .tc} (hr : r ∉ W) :
    after l V (Proc.devRef .tc r) = V (Proc.devRef .tc r) :=
  after_of_writes_sub l V (List.forall_iff_forall_mem.mpr fun op hop => by
    obtain ⟨y, hy, he⟩ := List.mem_map.mp (h ▸ List.mem_map_of_mem hop : op.writes ∈ W.map _)
    rw [← he, Finset.singleton_subset_iff, List.mem_toFinset]
    exact List.mem_map_of_mem hy) hr

theorem after_seg_idx_of (V : Valuation τ sig (Elt F)) {r : Ref sig .tc} (h : r ∉ seg_idx_W) :
    after seg_idx V (no_index (Proc.devRef .tc r)) = V (Proc.devRef .tc r) := after_keep rfl V h
theorem after_seg_lin1_of (V : Valuation τ sig (Elt F)) {r : Ref sig .tc} (h : r ∉ seg_lin1_W) :
    after seg_lin1 V (no_index (Proc.devRef .tc r)) = V (Proc.devRef .tc r) := after_keep rfl V h
theorem after_seg_agg1_of (V : Valuation τ sig (Elt F)) {r : Ref sig .tc} (h : r ∉ seg_agg1_W) :
    after seg_agg1 V (no_index (Proc.devRef .tc r)) = V (Proc.devRef .tc r) := after_keep rfl V h
theorem after_seg_bn1_of (V : Valuation τ sig (Elt F)) {r : Ref sig .tc} (h : r ∉ seg_bn1_W) :
    after seg_bn1 V (no_index (Proc.devRef .tc r)) = V (Proc.devRef .tc r) := after_keep rfl V h
theorem after_seg_lin2_of (V : Valuation τ sig (Elt F)) {r : Ref sig .tc} (h : r ∉ seg_lin2_W) :
    after seg_lin2 V (no_index (Proc.devRef .tc r)) = V (Proc.devRef .tc r) := after_keep rfl V h
theorem after_seg_agg2_of (V : Valuation τ sig (Elt F)) {r : Ref sig .tc} (h : r ∉ seg_agg2_W) :
    after seg_agg2 V (no_index (Proc.devRef .tc r)) = V (Proc.devRef .tc r) := after_keep rfl V h
theorem after_seg_bn2_of (V : Valuation τ sig (Elt F)) {r : Ref sig .tc} (h : r ∉ seg_bn2_W) :
    after seg_bn2 V (no_index (Proc.devRef .tc r)) = V (Proc.devRef .tc r) := after_keep rfl V h
theorem after_seg_mlp_of (V : Valuation τ sig (Elt F)) {r : Ref sig .tc} (h : r ∉ seg_mlp_W) :
    after seg_mlp V (no_index (Proc.devRef .tc r)) = V (Proc.devRef .tc r) := after_keep rfl V h

theorem after_ops (V : Valuation τ sig (Elt F)) :
    after ops V = after seg_mlp (after seg_bn2 (after seg_agg2 (after seg_lin2 (after seg_bn1 (after seg_agg1
      (after seg_lin1 (after seg_idx V))))))) := by
  simp only [ops, StableHlo.after_append]

theorem main_part0_eq (c : Dev nD) : main_part0 (F := F) c = seq (seg_idx ++ seg_lin1 ++ seg_agg1a) := rfl

theorem main_part1_eq (c : Dev nD) : main_part1 (F := F) c = seq (seg_agg1b ++ seg_bn1 ++ seg_lin2 ++ seg_agg2a) := rfl

theorem main_part2_eq (c : Dev nD) : main_part2 (F := F) c = seq (seg_agg2b ++ seg_bn2a) := rfl

theorem main_part3_eq (c : Dev nD) : main_part3 (F := F) c = seq (seg_bn2b ++ seg_mlp) := rfl

-- The stages in a row are the main function's four parts in a row, the three stages that straddle a part's end cut there.
theorem main_eq (c : Dev nD) : main (F := F) c = seq ops := by
  have e : (ops : List (HloOp τ sig (Elt F))) = (seg_idx ++ seg_lin1 ++ seg_agg1a)
      ++ ((seg_agg1b ++ seg_bn1 ++ seg_lin2 ++ seg_agg2a) ++ ((seg_agg2b ++ seg_bn2a) ++ (seg_bn2b ++ seg_mlp))) := by
    simp only [ops, seg_agg1, seg_agg2, seg_bn2, List.append_assoc]
  unfold main
  rw [main_part0_eq, main_part1_eq, main_part2_eq, main_part3_eq, ← seq_append, ← seq_append, ← seq_append, ← e]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, seg_agg1, seg_agg2, seg_bn2, List.forall_append, List.Forall, nullary_bufs_sub, unary_bufs_sub,
    binary_bufs_sub, ternary_bufs_sub, reshape_bufs_sub, nary_bufs_sub, and_self]

theorem ops_fresh : (ops : List (HloOp τ sig (Elt F))).Forall fun op => op.fresh = ∅ := by
  simp only [ops, seg_agg1, seg_agg2, seg_bn2, List.forall_append, List.Forall]
  repeat' constructor

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

abbrev args : List (Ref sig .tc) :=
  [main_arg0, main_arg1, main_arg2, main_arg3, main_arg4, main_arg5, main_arg6, main_arg7, main_arg8, main_arg9,
    main_arg10, main_arg11, main_arg12, main_arg13, main_arg14]

theorem args_kept : ∀ b ∈ args, b ∉ seg_idx_W ∧ b ∉ seg_lin1_W ∧ b ∉ seg_agg1_W ∧ b ∉ seg_bn1_W ∧ b ∉ seg_lin2_W
    ∧ b ∉ seg_agg2_W ∧ b ∉ seg_bn2_W ∧ b ∉ seg_mlp_W := by decide

-- No stage writes an argument, so an argument ends as it began.
theorem after_arg (V : Valuation τ sig (Elt F)) (b : Ref sig .tc) (hb : b ∈ args) :
    after ops V (b : DevRef τ sig) = V (b : DevRef τ sig) := by
  obtain ⟨h1, h2, h3, h4, h5, h6, h7, h8⟩ := args_kept b hb
  rw [after_ops, after_seg_mlp_of _ h8, after_seg_bn2_of _ h7, after_seg_agg2_of _ h6, after_seg_lin2_of _ h5,
    after_seg_bn1_of _ h4, after_seg_agg1_of _ h3, after_seg_lin1_of _ h2, after_seg_idx_of _ h1]

theorem run_args (m : (ℓ : Loc nD τ sig) → Buf (Elt F) ℓ) (ρ : Dev nD → PrngReg) :
    θ_run defs (onTc (τ := τ) (main (F := F))) ⟨m, fun _ => 0, ρ⟩ fun r =>
      ∀ (c : Dev nD), ∀ b ∈ args, r.2.mem ((c.tc : Thread nD τ).loc b) = m ((c.tc : Thread nD τ).loc b) :=
  (θ_run defs _ _).mono (fun _ h c b hb => (h c b).trans (after_arg (launchContents m c) b hb)) (run_main m ρ)

end Cert.ReferenceIdeal.Hand

end
-- ==== Proof.RefFrame.lean ====
import proofs.«101480_j18889266168017_1_alg».proof.Defs
import proofs.«101480_j18889266168017_1_alg».proof.Proof.RefRun
import proofs.«101480_j18889266168017_1_alg».proof.Proof.Gen.ReferenceIdeal
import proofs.«101480_j18889266168017_1_alg».proof.Proof.Gen.Pre_finite_inputs

set_option maxRecDepth 8192

noncomputable section

namespace Cert.ReferenceIdeal.Hand

open Cert.ReferenceIdeal
open Idealize.ShloMosaic Idealize.ShloMosaic.TcCoe Idealize.SL.Sem Idealize.ShloMosaic.StableHlo

theorem frame_ref : Cert.frame_ReferenceIdeal := by
  intro m g _
  refine (θ_run (defs (F := Ideal)) _ _).mono (fun r h c => ?_) (run_args (F := Ideal) m g)
  exact ⟨h c _ (by decide), h c _ (by decide), h c _ (by decide), h c _ (by decide), h c _ (by decide), h c _ (by decide), h c _ (by decide), h c _ (by decide), h c _ (by decide), h c _ (by decide), h c _ (by decide), h c _ (by decide), h c _ (by decide), h c _ (by decide), h c _ (by decide)⟩

theorem ref_result (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
        r.2.mem ((c.tc : Thread nD τ).loc main_v163) = after (ops (F := Ideal)) (launchContents m' c) (main_v163 : DevRef τ sig)
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)
        ∧ r.2.mem ((c.tc : Thread nD τ).loc main_arg10) = m' ((c.tc : Thread nD τ).loc main_arg10)
        ∧ r.2.mem ((c.tc : Thread nD τ).loc main_arg11) = m' ((c.tc : Thread nD τ).loc main_arg11)
        ∧ r.2.mem ((c.tc : Thread nD τ).loc main_arg12) = m' ((c.tc : Thread nD τ).loc main_arg12)
        ∧ r.2.mem ((c.tc : Thread nD τ).loc main_arg13) = m' ((c.tc : Thread nD τ).loc main_arg13)
        ∧ r.2.mem ((c.tc : Thread nD τ).loc main_arg14) = m' ((c.tc : Thread nD τ).loc main_arg14)) := by
  refine (θ_run (defs (F := Ideal)) _ _).mono (fun r h c => ?_) (run_main (F := Ideal) m' ρ')
  have a : ∀ b ∈ args, r.2.mem ((c.tc : Thread nD τ).loc b) = m' ((c.tc : Thread nD τ).loc b) :=
    fun b hb => (h c b).trans (after_arg _ b hb)
  exact ⟨h c main_v163, a _ (by decide), a _ (by decide), a _ (by decide), a _ (by decide), a _ (by decide), a _ (by decide), a _ (by decide), a _ (by decide), a _ (by decide), a _ (by decide), a _ (by decide), a _ (by decide), a _ (by decide), a _ (by decide), a _ (by decide)⟩

end Cert.ReferenceIdeal.Hand

end
-- ==== Proof.RefTerms.lean ====
import proofs.«101480_j18889266168017_1_alg».proof.Proof.Gen.ReferenceIdeal

set_option maxRecDepth 16384

noncomputable section

namespace Cert.ReferenceIdeal.Hand

open Cert.ReferenceIdeal Cert.ReferenceIdeal.Gen Idealize.ShloMosaic Idealize.ShloMosaic.TcCoe

variable {F : FTy → Type} [FloatOps F]

def linRefT (x : FVec F S50000x128 .f32) (W : FVec F S128x128 .f32) : FVec F S50000x128 .f32 :=
  Host.dotGeneral dot_S50000x128_S128x128_S50000x128_1_0_0_1_n_n none x W

def preRefT (agg h : FVec F S50000x128 .f32) (d2 : FVec F S50000 .f32) (b : FVec F S128 .f32) :
    FVec F S50000x128 .f32 :=
  addf
    (addf agg
      (mulf h
        (broadcastInDim S50000x128 ![0, 1] bcast_S50000x1_S50000x128_0_1
          (broadcastInDim S50000x1 ![0] bcast_S50000_S50000x1_0 d2))))
    (broadcastInDim S50000x128 ![0, 1] bcast_S1x128_S50000x128_0_1
      (broadcastInDim S1x128 ![1] bcast_S128_S1x128_1 b))

def reluRefT (x : FVec F S50000x128 .f32) : FVec F S50000x128 .f32 :=
  maximumf x (broadcastInDim S50000x128 ![] bcast_S_S50000x128 (constant S_ .f32 0x00000000#32))

def meanRefT (v : FVec F S50000x128 .f32) : FVec F S128 .f32 :=
  Host.divf
    (Host.reduceAdd v (constant S_ .f32 0x00000000#32) reducesTo_S50000x128_S128_d0 h_S_)
    (broadcastInDim S128 ![] bcast_S_S128 (constant S_ .f32 0x47435000#32))

def devSqRefT (v : FVec F S50000x128 .f32) : FVec F S50000x128 .f32 :=
  mulf
    (subf v
      (broadcastInDim S50000x128 ![0, 1] bcast_S1x128_S50000x128_0_1
        (Host.divf
          (broadcastInDim S1x128 ![1] bcast_S128_S1x128_1
            (Host.reduceAdd v (constant S_ .f32 0x00000000#32) reducesTo_S50000x128_S128_d0 h_S_))
          (broadcastInDim S1x128 ![] bcast_S_S1x128 (constant S_ .f32 0x47435000#32)))))
    (subf v
      (broadcastInDim S50000x128 ![0, 1] bcast_S1x128_S50000x128_0_1
        (Host.divf
          (broadcastInDim S1x128 ![1] bcast_S128_S1x128_1
            (Host.reduceAdd v (constant S_ .f32 0x00000000#32) reducesTo_S50000x128_S128_d0 h_S_))
          (broadcastInDim S1x128 ![] bcast_S_S1x128 (constant S_ .f32 0x47435000#32)))))

def denomRefT (ddof : IVec S_ 32) : FVec F S_ .f32 :=
  subf (constant S_ .f32 0x47435000#32) (sitofp .f32 ddof)

def varRefT (v : FVec F S50000x128 .f32) (ddof : IVec S_ 32) : FVec F S128 .f32 :=
  select
    (broadcastInDim S128 ![] bcast_S_S128
      (cmpf .ogt (denomRefT (F := F) ddof) (constant S_ .f32 0x00000000#32)))
    (Host.divf
      (Host.reduceAdd (devSqRefT v) (constant S_ .f32 0x00000000#32) reducesTo_S50000x128_S128_d0 h_S_)
      (broadcastInDim S128 ![] bcast_S_S128 (denomRefT (F := F) ddof)))
    (broadcastInDim S128 ![] bcast_S_S128 (id (constant S_ .f32 0x7FC00000#32)))

def bnRefT (pre : FVec F S50000x128 .f32) (g be : FVec F S128 .f32) : FVec F S50000x128 .f32 :=
  addf
    (mulf
      (mulf
        (broadcastInDim S50000x128 ![0, 1] bcast_S1x128_S50000x128_0_1
          (broadcastInDim S1x128 ![1] bcast_S128_S1x128_1 g))
        (subf (reluRefT pre)
          (broadcastInDim S50000x128 ![0, 1] bcast_S1x128_S50000x128_0_1
            (broadcastInDim S1x128 ![1] bcast_S128_S1x128_1 (meanRefT (reluRefT pre))))))
      (broadcastInDim S50000x128 ![0, 1] bcast_S1x128_S50000x128_0_1
        (broadcastInDim S1x128 ![1] bcast_S128_S1x128_1
          (Host.rsqrt
            (addf (varRefT (reluRefT pre) (constantI S_ 32 0#32))
              (broadcastInDim S128 ![] bcast_S_S128 (constant S_ .f32 0x3727C5AC#32)))))))
    (broadcastInDim S50000x128 ![0, 1] bcast_S1x128_S50000x128_0_1
      (broadcastInDim S1x128 ![1] bcast_S128_S1x128_1 be))

def catRefT (x h1 h2 : FVec F S50000x128 .f32) : FVec F S50000x384 .f32 :=
  concatenate S50000x384 1 [⟨S50000x128, x⟩, ⟨S50000x128, h1⟩, ⟨S50000x128, h2⟩]
    concatenates_S50000x128_S50000x128_S50000x128_S50000x384_d1

def hidRefT (x h1 h2 : FVec F S50000x128 .f32) (Wf1 : FVec F S384x128 .f32) (bf1 : FVec F S128 .f32) :
    FVec F S50000x128 .f32 :=
  reluRefT
    (addf
      (Host.dotGeneral dot_S50000x384_S384x128_S50000x128_1_0_0_1_n_n none (catRefT x h1 h2) Wf1)
      (broadcastInDim S50000x128 ![0, 1] bcast_S1x128_S50000x128_0_1
        (broadcastInDim S1x128 ![1] bcast_S128_S1x128_1 bf1)))

def mlpRefT (x h1 h2 : FVec F S50000x128 .f32) (Wf1 : FVec F S384x128 .f32) (bf1 : FVec F S128 .f32)
    (Wf2 : FVec F S128x1 .f32) (bf2 : FVec F S1 .f32) : FVec F S50000 .f32 :=
  shapeCast S50000
    (maximumf
      (addf
        (Host.dotGeneral dot_S50000x128_S128x1_S50000x1_1_0_0_1_n_n none (hidRefT x h1 h2 Wf1 bf1) Wf2)
        (broadcastInDim S50000x1 ![0, 1] bcast_S1x1_S50000x1_0_1
          (broadcastInDim S1x1 ![1] bcast_S1_S1x1_1 bf2)))
      (broadcastInDim S50000x1 ![] bcast_S_S50000x1 (constant S_ .f32 0x00000000#32)))
    shapeCasts_S50000x1_S50000

end Cert.ReferenceIdeal.Hand

end
-- ==== Proof.Terms.lean ====
import proofs.«101480_j18889266168017_1_alg».proof.Proof.Gen.KernelIdeal.Launch
import proofs.«101480_j18889266168017_1_alg».proof.Proof.Gen.KernelIdeal.Regions
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

def srcT (ei : IVec S2x800000 32) : IVec S800000 32 :=
  shapeCast S800000 (extractStridedSlice S1x800000 ![0, 0] ei slices_S2x800000_S1x800000_0_0) shapeCasts_S1x800000_S800000

def dstT (ei : IVec S2x800000 32) : IVec S800000 32 :=
  shapeCast S800000 (extractStridedSlice S1x800000 ![1, 0] ei slices_S2x800000_S1x800000_1_0) shapeCasts_S1x800000_S800000

def wrapIdx (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32)))
      i)

def degT (dst : IVec S800000 32) (w : FVec F S800000 .f32) : FVec F S50000 .f32 :=
  addf
    (Host.scatterAdd scatter_S50000_S800000x1_S800000_n_0_0_1
      (broadcastInDim S50000 ![] bcast_S_S50000 (constant S_ .f32 0x00000000#32)) (wrapIdx dst) w)
    (broadcastInDim S50000 ![] bcast_S_S50000 (constant S_ .f32 0x3F800000#32))

def dinvT (dst : IVec S800000 32) (w : FVec F S800000 .f32) : FVec F S50000 .f32 :=
  Host.rsqrt (degT dst w)

def normT (src dst : IVec S800000 32) (w : FVec F S800000 .f32) : FVec F S800000 .f32 :=
  mulf
    (mulf (Host.gather gather_S50000_S800000x1_S800000_n_0_n_n_0_1_1 (dinvT dst w) (wrapIdx src)) w)
    (Host.gather gather_S50000_S800000x1_S800000_n_0_n_n_0_1_1 (dinvT dst w) (wrapIdx dst))

def aggT (h : FVec F S50000x128 .f32) (src dst : IVec S800000 32) (w : FVec F S800000 .f32) : FVec F S50000x128 .f32 :=
  Host.scatterAdd scatter_S50000x128_S800000x1_S800000x128_1_0_0_1
    (broadcastInDim S50000x128 ![] bcast_S_S50000x128 (constant S_ .f32 0x00000000#32))
    (wrapIdx dst)
    (mulf
      (Host.gather gather_S50000x128_S800000x1_S800000x128_1_0_n_n_0_1_1128 h (wrapIdx src))
      (broadcastInDim S800000x128 ![0, 1] bcast_S800000x1_S800000x128_0_1
        (broadcastInDim S800000x1 ![0] bcast_S800000_S800000x1_0 (normT src dst w))))

def dinv2T (dst : IVec S800000 32) (w : FVec F S800000 .f32) : FVec F S50000 .f32 :=
  mulf (dinvT dst w) (dinvT dst w)

def meanT (stats : FVec F S2x128 .f32) : FVec F S128 .f32 :=
  Host.divf
    (shapeCast S128 (extractStridedSlice S1x128 ![0, 0] stats slices_S2x128_S1x128_0_0) shapeCasts_S1x128_S128)
    (broadcastInDim S128 ![] bcast_S_S128 (constant S_ .f32 0x47435000#32))

def varKT (stats : FVec F S2x128 .f32) : FVec F S128 .f32 :=
  subf
    (Host.divf
      (shapeCast S128 (extractStridedSlice S1x128 ![1, 0] stats slices_S2x128_S1x128_1_0) shapeCasts_S1x128_S128)
      (broadcastInDim S128 ![] bcast_S_S128 (constant S_ .f32 0x47435000#32)))
    (mulf (meanT stats) (meanT stats))

end Cert.KernelIdeal.Hand

end
-- ==== Proof.RefRead.lean ====
import proofs.«101480_j18889266168017_1_alg».proof.Proof.RefRun
import proofs.«101480_j18889266168017_1_alg».proof.Proof.RefTerms
import proofs.«101480_j18889266168017_1_alg».proof.Proof.Terms

set_option maxRecDepth 16384

noncomputable section

namespace Cert.ReferenceIdeal.Hand

open Cert.ReferenceIdeal
open Idealize.ShloMosaic Idealize.ShloMosaic.TcCoe Idealize.SL.Sem Idealize.ShloMosaic.StableHlo
open Cert.KernelIdeal.Hand (srcT dstT aggT dinv2T)

variable {F : FTy → Type} [FloatOps F]

theorem read_src (V : Valuation τ sig (Elt F)) :
    after seg_idx V (no_index (main_v1 : DevRef τ sig)) = srcT (V (main_arg1 : DevRef τ sig)) := by
  after_results_simp
  rfl

theorem read_dst (V : Valuation τ sig (Elt F)) :
    after seg_idx V (no_index (main_v3 : DevRef τ sig)) = dstT (V (main_arg1 : DevRef τ sig)) := by
  after_results_simp
  rfl

theorem read_lin1 (V : Valuation τ sig (Elt F)) :
    after seg_lin1 V (no_index (main_v4 : DevRef τ sig)) = linRefT (V (main_arg0 : DevRef τ sig)) (V (main_arg3 : DevRef τ sig)) := by
  after_results_simp
  rfl

attribute [local irreducible] Host.scatterAdd Host.gather in
set_option maxHeartbeats 1600000 in
theorem read_agg1 (V : Valuation τ sig (Elt F)) :
    after seg_agg1 V (no_index (main_v57 : DevRef τ sig))
      = preRefT (aggT (V (main_v4 : DevRef τ sig)) (V (main_v1 : DevRef τ sig)) (V (main_v3 : DevRef τ sig)) (V (main_arg2 : DevRef τ sig)))
          (V (main_v4 : DevRef τ sig)) (dinv2T (V (main_v3 : DevRef τ sig)) (V (main_arg2 : DevRef τ sig)))
          (V (main_arg4 : DevRef τ sig)) := by
  rw [after_append]
  after_results_simp
  rfl

attribute [local irreducible] Host.reduceAdd in
set_option maxHeartbeats 1600000 in
theorem read_bn1 (V : Valuation τ sig (Elt F)) :
    after seg_bn1 V (no_index (main_v77 : DevRef τ sig))
      = bnRefT (V (main_v57 : DevRef τ sig)) (V (main_arg7 : DevRef τ sig)) (V (main_arg8 : DevRef τ sig)) := by
  after_results_simp
  rfl

theorem read_lin2 (V : Valuation τ sig (Elt F)) :
    after seg_lin2 V (no_index (main_v78 : DevRef τ sig)) = linRefT (V (main_v77 : DevRef τ sig)) (V (main_arg5 : DevRef τ sig)) := by
  after_results_simp
  rfl

attribute [local irreducible] Host.scatterAdd Host.gather in
set_option maxHeartbeats 1600000 in
theorem read_agg2 (V : Valuation τ sig (Elt F)) :
    after seg_agg2 V (no_index (main_v131 : DevRef τ sig))
      = preRefT (aggT (V (main_v78 : DevRef τ sig)) (V (main_v1 : DevRef τ sig)) (V (main_v3 : DevRef τ sig)) (V (main_arg2 : DevRef τ sig)))
          (V (main_v78 : DevRef τ sig)) (dinv2T (V (main_v3 : DevRef τ sig)) (V (main_arg2 : DevRef τ sig)))
          (V (main_arg6 : DevRef τ sig)) := by
  rw [after_append]
  after_results_simp
  rfl

attribute [local irreducible] Host.reduceAdd in
set_option maxHeartbeats 1600000 in
theorem read_bn2 (V : Valuation τ sig (Elt F)) :
    after seg_bn2 V (no_index (main_v151 : DevRef τ sig))
      = bnRefT (V (main_v131 : DevRef τ sig)) (V (main_arg9 : DevRef τ sig)) (V (main_arg10 : DevRef τ sig)) := by
  rw [after_append]
  after_results_simp
  rfl

set_option maxHeartbeats 1600000 in
theorem read_mlp (V : Valuation τ sig (Elt F)) :
    after seg_mlp V (no_index (main_v163 : DevRef τ sig))
      = mlpRefT (V (main_arg0 : DevRef τ sig)) (V (main_v77 : DevRef τ sig)) (V (main_v151 : DevRef τ sig))
          (V (main_arg11 : DevRef τ sig)) (V (main_arg12 : DevRef τ sig)) (V (main_arg13 : DevRef τ sig))
          (V (main_arg14 : DevRef τ sig)) := by
  after_results_simp
  rfl

end Cert.ReferenceIdeal.Hand

end
-- ==== Proof.LibPlainDot.lean ====
import Idealize.ShloMosaic.PureOps.Ideal.Laws
import Idealize.ShloMosaic.Lib.ValueIdx

noncomputable section

open scoped BigOperators

namespace Cert.LibPlainDot

open Idealize.ShloMosaic Idealize.ShloMosaic.ValueIdx

theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Consts.lean ====
import Idealize.ShloMosaic.PureOps.Ideal
import Idealize.ShloMosaic.PureOps.Ideal.Laws
import Mathlib.Data.EReal.Basic
import Mathlib.Tactic.NormNum

noncomputable section

namespace Cert.Consts

open Idealize.ShloMosaic

theorem ofBits_50000 : Ideal.ofBits .f32 0x47435000#32 = ((50000 : ℝ) : EReal) := by
  simp [Ideal.ofBits, Ideal.ieee, -EReal.coe_mul]; norm_num

-- The pattern denotes 10995116 · 2⁻⁴⁰, a positive real.
theorem ofBits_eps : ∃ e : ℝ, 0 < e ∧ Ideal.ofBits .f32 0x3727C5AC#32 = (e : EReal) :=
  ⟨(10995116 : ℝ) * (2 : ℝ) ^ (-40 : ℤ), by positivity, by simp [Ideal.ofBits, Ideal.ieee, -EReal.coe_mul]⟩

theorem sitofp_zero : FloatOps.sitofp (F := Ideal) .f32 (0#32) = (0 : EReal) := by
  show (((0#32 : BitVec 32).toInt : ℝ) : EReal) = 0
  simp

theorem cmp_ogt_50000 : Ideal.cmp .ogt ((50000 : ℝ) : EReal) 0 = 1#1 := by
  have h : (0 : EReal) < ((50000 : ℝ) : EReal) := EReal.coe_pos.mpr (by norm_num)
  simp [Ideal.cmp, h]

end Cert.Consts

end
-- ==== Proof.RefIdx.lean ====
import proofs.«101480_j18889266168017_1_alg».proof.Proof.RefTerms
import proofs.«101480_j18889266168017_1_alg».proof.Proof.LibPlainDot
import proofs.«101480_j18889266168017_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

set_option maxRecDepth 16384

noncomputable section

open scoped BigOperators

namespace Cert.ReferenceIdeal.Hand

open Cert.ReferenceIdeal Cert.ReferenceIdeal.Gen Idealize.ShloMosaic Idealize.ShloMosaic.TcCoe Idealize.ShloMosaic.ValueIdx

section Layout
variable {α : Type}

theorem bcastCol_apply (x : S50000.Idx → α) (r : Fin 50000) (u : Fin 1) :
    broadcastInDim S50000x1 ![0] bcast_S50000_S50000x1_0 x (ix2 r u) = x (ix1 r) :=
  broadcastInDim_apply _ _ x _ _ fun a => by
    match a with
    | ⟨0, _⟩ => rfl

theorem bcastColWide_apply (x : S50000x1.Idx → α) (r : Fin 50000) (q : Fin 128) :
    broadcastInDim S50000x128 ![0, 1] bcast_S50000x1_S50000x128_0_1 x (ix2 r q) = x (ix2 r (0 : Fin 1)) :=
  broadcastInDim_apply _ _ x _ _ fun a => by
    match a with
    | ⟨0, _⟩ => rfl
    | ⟨1, _⟩ => rfl

theorem bcastRow_apply (x : S128.Idx → α) (u : Fin 1) (q : Fin 128) :
    broadcastInDim S1x128 ![1] bcast_S128_S1x128_1 x (ix2 u q) = x (ix1 q) :=
  broadcastInDim_apply _ _ x _ _ fun a => by
    match a with
    | ⟨0, _⟩ => rfl

theorem rowBcast_apply (x : S128.Idx → α) (r : Fin 50000) (q : Fin 128) :
    broadcastInDim S50000x128 ![0, 1] bcast_S1x128_S50000x128_0_1
        (broadcastInDim S1x128 ![1] bcast_S128_S1x128_1 x) (ix2 r q) = x (ix1 q) :=
  (broadcastInDim_oneRow_apply _ _ r q).trans (bcastRow_apply x 0 q)

theorem colBcast_apply (x : S50000.Idx → α) (r : Fin 50000) (q : Fin 128) :
    broadcastInDim S50000x128 ![0, 1] bcast_S50000x1_S50000x128_0_1
        (broadcastInDim S50000x1 ![0] bcast_S50000_S50000x1_0 x) (ix2 r q) = x (ix1 r) :=
  (bcastColWide_apply _ r q).trans (bcastCol_apply x r 0)

theorem bcastOne_apply (x : S1.Idx → α) (u v : Fin 1) :
    broadcastInDim S1x1 ![1] bcast_S1_S1x1_1 x (ix2 u v) = x (ix1 (0 : Fin 1)) :=
  broadcastInDim_apply _ _ x _ _ fun a => by
    match a with
    | ⟨0, _⟩ => rfl

theorem flatten_apply (x : S50000x1.Idx → α) (r : Fin 50000) :
    shapeCast S50000 x shapeCasts_S50000x1_S50000 (ix1 r) = x (ix2 r (0 : Fin 1)) :=
  shapeCast_apply x _ _ _ (by
    rw [Shape.rowMajor_val_two, Shape.rowMajor_val_one]
    show r.val * 1 + 0 = r.val
    omega)

end Layout

theorem linRefT_apply (x : FVec Ideal S50000x128 .f32) (W : FVec Ideal S128x128 .f32) (r : Fin 50000) (q : Fin 128) :
    linRefT x W (ix2 r q) = ∑ j : Fin 128, x (ix2 r j) * W (ix2 j q) :=
  Cert.LibPlainDot.dotGeneral_plain_apply 50000 128 128 none .single x W r q

theorem preRefT_apply (agg h : FVec Ideal S50000x128 .f32) (d2 : FVec Ideal S50000 .f32) (b : FVec Ideal S128 .f32)
    (r : Fin 50000) (q : Fin 128) :
    preRefT agg h d2 b (ix2 r q) = (agg (ix2 r q) + h (ix2 r q) * d2 (ix1 r)) + b (ix1 q) := by
  show (agg (ix2 r q) + h (ix2 r q) *
      broadcastInDim S50000x128 ![0, 1] bcast_S50000x1_S50000x128_0_1
        (broadcastInDim S50000x1 ![0] bcast_S50000_S50000x1_0 d2) (ix2 r q))
    + broadcastInDim S50000x128 ![0, 1] bcast_S1x128_S50000x128_0_1
        (broadcastInDim S1x128 ![1] bcast_S128_S1x128_1 b) (ix2 r q) = _
  rw [colBcast_apply, rowBcast_apply]

def refN : EReal := Ideal.ofBits .f32 0x47435000#32

def refEps : EReal := Ideal.ofBits .f32 0x3727C5AC#32

def refV (pre : FVec Ideal S50000x128 .f32) (r : Fin 50000) (q : Fin 128) : EReal :=
  max (pre (ix2 r q)) 0

def refMean (pre : FVec Ideal S50000x128 .f32) (q : Fin 128) : EReal :=
  Ideal.div (0 + ∑ r : Fin 50000, refV pre r q) refN

def refDenom : EReal := refN - FloatOps.sitofp (F := Ideal) .f32 (0#32)

def refVarSel (pre : FVec Ideal S50000x128 .f32) (q : Fin 128) : EReal :=
  if Ideal.cmp .ogt refDenom 0 = 1#1 then
    Ideal.div (0 + ∑ r : Fin 50000, (refV pre r q - refMean pre q) * (refV pre r q - refMean pre q)) refDenom
  else Ideal.ofBits .f32 0x7FC00000#32

def refVar (pre : FVec Ideal S50000x128 .f32) (q : Fin 128) : EReal :=
  Ideal.div (0 + ∑ r : Fin 50000, (refV pre r q - refMean pre q) * (refV pre r q - refMean pre q)) refN

theorem reluRefT_apply (x : FVec Ideal S50000x128 .f32) (r : Fin 50000) (q : Fin 128) :
    reluRefT x (ix2 r q) = max (x (ix2 r q)) 0 := by
  show max (x (ix2 r q))
    (broadcastInDim S50000x128 ![] bcast_S_S50000x128 (constant (F := Ideal) S_ .f32 0x00000000#32) (ix2 r q)) = _
  rw [broadcastInDim_scalar_apply]
  show max (x (ix2 r q)) (Ideal.ofBits .f32 0x00000000#32) = _
  rw [Ideal.ofBits_zero_f32]

theorem colSum_apply (v : FVec Ideal S50000x128 .f32) (q : Fin 128) :
    Host.reduceAdd v (constant (F := Ideal) S_ .f32 0x00000000#32) reducesTo_S50000x128_S128_d0 h_S_ (ix1 q)
      = 0 + ∑ r : Fin 50000, v (ix2 r q) := by
  have hR : S50000x128.Reduces [0] S128 := by decide
  show Ideal.hostReduceAdd reducesTo_S50000x128_S128_d0 v (Ideal.ofBits .f32 0x00000000#32) (ix1 q) = _
  rw [Ideal.hostReduceAdd_single reducesTo_S50000x128_S128_d0 hR, Ideal.ofBits_zero_f32]
  refine congrArg (fun s => (0 : EReal) + s) (Finset.sum_congr rfl fun k _ => congrArg v ?_)
  funext a
  match a with
  | ⟨0, _⟩ => exact Fin.ext rfl
  | ⟨1, _⟩ => exact Fin.ext rfl

theorem meanRefT_apply (v : FVec Ideal S50000x128 .f32) (q : Fin 128) :
    meanRefT v (ix1 q) = Ideal.div (0 + ∑ r : Fin 50000, v (ix2 r q)) refN := by
  show Ideal.div
    (Host.reduceAdd v (constant (F := Ideal) S_ .f32 0x00000000#32) reducesTo_S50000x128_S128_d0 h_S_ (ix1 q))
    (broadcastInDim S128 ![] bcast_S_S128 (constant (F := Ideal) S_ .f32 0x47435000#32) (ix1 q)) = _
  rw [colSum_apply, broadcastInDim_scalar_apply]
  rfl

theorem devSqRefT_apply (v : FVec Ideal S50000x128 .f32) (r : Fin 50000) (q : Fin 128) :
    devSqRefT v (ix2 r q)
      = (v (ix2 r q) - Ideal.div (0 + ∑ r' : Fin 50000, v (ix2 r' q)) refN)
        * (v (ix2 r q) - Ideal.div (0 + ∑ r' : Fin 50000, v (ix2 r' q)) refN) := by
  have hm : broadcastInDim S50000x128 ![0, 1] bcast_S1x128_S50000x128_0_1
      (Host.divf
        (broadcastInDim S1x128 ![1] bcast_S128_S1x128_1
          (Host.reduceAdd v (constant (F := Ideal) S_ .f32 0x00000000#32) reducesTo_S50000x128_S128_d0 h_S_))
        (broadcastInDim S1x128 ![] bcast_S_S1x128 (constant (F := Ideal) S_ .f32 0x47435000#32))) (ix2 r q)
      = Ideal.div (0 + ∑ r' : Fin 50000, v (ix2 r' q)) refN := by
    rw [broadcastInDim_oneRow_apply]
    show Ideal.div
      (broadcastInDim S1x128 ![1] bcast_S128_S1x128_1
        (Host.reduceAdd v (constant (F := Ideal) S_ .f32 0x00000000#32) reducesTo_S50000x128_S128_d0 h_S_) (ix2 (0 : Fin 1) q))
      (broadcastInDim S1x128 ![] bcast_S_S1x128 (constant (F := Ideal) S_ .f32 0x47435000#32) (ix2 (0 : Fin 1) q)) = _
    rw [bcastRow_apply, colSum_apply, broadcastInDim_scalar_apply]
    rfl
  show (v (ix2 r q) - _) * (v (ix2 r q) - _) = _
  rw [hm]

theorem varRefT_apply (v : FVec Ideal S50000x128 .f32) (q : Fin 128) :
    varRefT v (constantI S_ 32 0#32) (ix1 q)
      = if Ideal.cmp .ogt refDenom 0 = 1#1 then
          Ideal.div (0 + ∑ r : Fin 50000,
            (v (ix2 r q) - Ideal.div (0 + ∑ r' : Fin 50000, v (ix2 r' q)) refN)
              * (v (ix2 r q) - Ideal.div (0 + ∑ r' : Fin 50000, v (ix2 r' q)) refN)) refDenom
        else Ideal.ofBits .f32 0x7FC00000#32 := by
  show Scalar.select
      (broadcastInDim S128 ![] bcast_S_S128
        (cmpf .ogt (denomRefT (F := Ideal) (constantI S_ 32 0#32)) (constant (F := Ideal) S_ .f32 0x00000000#32)) (ix1 q))
      (Ideal.div
        (Host.reduceAdd (devSqRefT v) (constant (F := Ideal) S_ .f32 0x00000000#32) reducesTo_S50000x128_S128_d0 h_S_ (ix1 q))
        (broadcastInDim S128 ![] bcast_S_S128 (denomRefT (F := Ideal) (constantI S_ 32 0#32)) (ix1 q)))
      (broadcastInDim S128 ![] bcast_S_S128 (id (constant (F := Ideal) S_ .f32 0x7FC00000#32)) (ix1 q)) = _
  rw [broadcastInDim_scalar_apply, broadcastInDim_scalar_apply, broadcastInDim_scalar_apply, colSum_apply]
  show (if Ideal.cmp .ogt refDenom (Ideal.ofBits .f32 0x00000000#32) = 1#1 then
      Ideal.div (0 + ∑ r : Fin 50000, devSqRefT v (ix2 r q)) refDenom
    else Ideal.ofBits .f32 0x7FC00000#32) = _
  rw [Ideal.ofBits_zero_f32]
  simp only [devSqRefT_apply]

theorem meanRefT_relu_apply (pre : FVec Ideal S50000x128 .f32) (q : Fin 128) :
    meanRefT (reluRefT pre) (ix1 q) = refMean pre q := by
  rw [meanRefT_apply]
  simp only [reluRefT_apply]
  rfl

theorem varRefT_relu_apply (pre : FVec Ideal S50000x128 .f32) (q : Fin 128) :
    varRefT (reluRefT pre) (constantI S_ 32 0#32) (ix1 q) = refVarSel pre q := by
  rw [varRefT_apply]
  simp only [reluRefT_apply]
  rfl

theorem refDenom_eq : refDenom = refN := by
  show refN - FloatOps.sitofp (F := Ideal) .f32 (0#32) = refN
  rw [Cert.Consts.sitofp_zero, sub_zero]

theorem cmp_refDenom : Ideal.cmp .ogt refDenom 0 = 1#1 := by
  rw [refDenom_eq]
  show Ideal.cmp .ogt (Ideal.ofBits .f32 0x47435000#32) 0 = 1#1
  rw [Cert.Consts.ofBits_50000]
  exact Cert.Consts.cmp_ogt_50000

theorem refVarSel_eq (pre : FVec Ideal S50000x128 .f32) (q : Fin 128) : refVarSel pre q = refVar pre q := by
  unfold refVarSel
  rw [if_pos cmp_refDenom, refDenom_eq]
  rfl

-- The divisor 50000 − 0 is above zero, so the selected variance is the mean of the squared deviations.
theorem bnRefT_apply' (pre : FVec Ideal S50000x128 .f32) (g be : FVec Ideal S128 .f32) (r : Fin 50000) (q : Fin 128) :
    bnRefT pre g be (ix2 r q)
      = g (ix1 q) * (refV pre r q - refMean pre q) * Ideal.rsqrt (refVar pre q + refEps) + be (ix1 q) := by
  show
    (broadcastInDim S50000x128 ![0, 1] bcast_S1x128_S50000x128_0_1
        (broadcastInDim S1x128 ![1] bcast_S128_S1x128_1 g) (ix2 r q)
      * (reluRefT pre (ix2 r q)
          - broadcastInDim S50000x128 ![0, 1] bcast_S1x128_S50000x128_0_1
              (broadcastInDim S1x128 ![1] bcast_S128_S1x128_1 (meanRefT (reluRefT pre))) (ix2 r q)))
      * broadcastInDim S50000x128 ![0, 1] bcast_S1x128_S50000x128_0_1
          (broadcastInDim S1x128 ![1] bcast_S128_S1x128_1
            (Host.rsqrt
              (addf (varRefT (reluRefT pre) (constantI S_ 32 0#32))
                (broadcastInDim S128 ![] bcast_S_S128 (constant (F := Ideal) S_ .f32 0x3727C5AC#32))))) (ix2 r q)
    + broadcastInDim S50000x128 ![0, 1] bcast_S1x128_S50000x128_0_1
        (broadcastInDim S1x128 ![1] bcast_S128_S1x128_1 be) (ix2 r q) = _
  rw [rowBcast_apply, rowBcast_apply, rowBcast_apply, rowBcast_apply, reluRefT_apply, meanRefT_relu_apply]
  show g (ix1 q) * (refV pre r q - refMean pre q)
      * Ideal.rsqrt (varRefT (reluRefT pre) (constantI S_ 32 0#32) (ix1 q)
          + broadcastInDim S128 ![] bcast_S_S128 (constant (F := Ideal) S_ .f32 0x3727C5AC#32) (ix1 q))
    + be (ix1 q) = _
  rw [varRefT_relu_apply, broadcastInDim_scalar_apply, refVarSel_eq]
  rfl

theorem refN_eq : refN = ((50000 : ℝ) : EReal) := Cert.Consts.ofBits_50000

def refCat (x h1 h2 : FVec Ideal S50000x128 .f32) (r : Fin 50000) (k : Fin 384) : EReal :=
  if h : k.val < 128 then x (ix2 r ⟨k.val, h⟩)
  else if h' : k.val < 256 then h1 (ix2 r ⟨k.val - 128, by omega⟩)
  else h2 (ix2 r ⟨k.val - 256, by have := k.isLt; omega⟩)

-- A column of the three blocks side by side lies in one block, at the column less the widths of the blocks before it.
theorem catRefT_apply (x h1 h2 : FVec Ideal S50000x128 .f32) (r : Fin 50000) (k : Fin 384) :
    catRefT x h1 h2 (ix2 r k) = refCat x h1 h2 r k := by
  have hi : ∀ c : Fin 128, ∀ b : Fin S50000x128.rank, b.cast rfl ≠ (1 : Fin S50000x384.rank) →
      ((ix2 r c : S50000x128.Idx) b).val = ((ix2 r k : S50000x384.Idx) (b.cast rfl)).val := fun c b hb => by
    match b with
    | ⟨0, _⟩ => rfl
    | ⟨1, _⟩ => exact absurd rfl hb
  have hk := k.isLt
  have P := concatenate_apply_piece (1 : Fin S50000x384.rank) [⟨S50000x128, x⟩, ⟨S50000x128, h1⟩, ⟨S50000x128, h2⟩]
    concatenates_S50000x128_S50000x128_S50000x128_S50000x384_d1 (ix2 r k)
  unfold refCat
  by_cases h : k.val < 128
  · rw [dif_pos h]
    exact P 0 (by decide : 0 < 3) S50000x128 x rfl rfl 0 rfl (ix2 r ⟨k.val, h⟩) (hi _) (Nat.zero_add _)
  · rw [dif_neg h]
    by_cases h' : k.val < 256
    · rw [dif_pos h']
      exact P 1 (by decide : 1 < 3) S50000x128 h1 rfl rfl 128 rfl (ix2 r ⟨k.val - 128, by omega⟩) (hi _)
        (by show 128 + (k.val - 128) = k.val; omega)
    · rw [dif_neg h']
      exact P 2 (by decide : 2 < 3) S50000x128 h2 rfl rfl 256 rfl (ix2 r ⟨k.val - 256, by omega⟩) (hi _)
        (by show 256 + (k.val - 256) = k.val; omega)

theorem dotCat_apply (c : FVec Ideal S50000x384 .f32) (W : FVec Ideal S384x128 .f32) (r : Fin 50000) (j : Fin 128) :
    Host.dotGeneral dot_S50000x384_S384x128_S50000x128_1_0_0_1_n_n none c W (ix2 r j)
      = ∑ k : Fin 384, c (ix2 r k) * W (ix2 k j) :=
  Cert.LibPlainDot.dotGeneral_plain_apply 50000 384 128 none .single c W r j

theorem dotOut_apply (hd : FVec Ideal S50000x128 .f32) (W : FVec Ideal S128x1 .f32) (r : Fin 50000) (u : Fin 1) :
    Host.dotGeneral dot_S50000x128_S128x1_S50000x1_1_0_0_1_n_n none hd W (ix2 r u)
      = ∑ j : Fin 128, hd (ix2 r j) * W (ix2 j u) :=
  Cert.LibPlainDot.dotGeneral_plain_apply 50000 128 1 none .single hd W r u

theorem hidRefT_apply (x h1 h2 : FVec Ideal S50000x128 .f32) (Wf1 : FVec Ideal S384x128 .f32)
    (bf1 : FVec Ideal S128 .f32) (r : Fin 50000) (j : Fin 128) :
    hidRefT x h1 h2 Wf1 bf1 (ix2 r j)
      = max ((∑ k : Fin 384, refCat x h1 h2 r k * Wf1 (ix2 k j)) + bf1 (ix1 j)) 0 := by
  rw [hidRefT, reluRefT_apply]
  show max
    (Host.dotGeneral dot_S50000x384_S384x128_S50000x128_1_0_0_1_n_n none (catRefT x h1 h2) Wf1 (ix2 r j)
      + broadcastInDim S50000x128 ![0, 1] bcast_S1x128_S50000x128_0_1
          (broadcastInDim S1x128 ![1] bcast_S128_S1x128_1 bf1) (ix2 r j)) 0 = _
  rw [dotCat_apply, rowBcast_apply]
  simp only [catRefT_apply]

theorem mlpRefT_apply' (x h1 h2 : FVec Ideal S50000x128 .f32) (Wf1 : FVec Ideal S384x128 .f32)
    (bf1 : FVec Ideal S128 .f32) (Wf2 : FVec Ideal S128x1 .f32) (bf2 : FVec Ideal S1 .f32) (r : Fin 50000) :
    mlpRefT x h1 h2 Wf1 bf1 Wf2 bf2 (ix1 r)
      = max ((∑ j : Fin 128,
              max ((∑ k : Fin 384, refCat x h1 h2 r k * Wf1 (ix2 k j)) + bf1 (ix1 j)) 0
                * Wf2 (ix2 j (0 : Fin 1)))
            + bf2 (ix1 (0 : Fin 1))) 0 := by
  rw [mlpRefT, flatten_apply]
  show max
    (Host.dotGeneral dot_S50000x128_S128x1_S50000x1_1_0_0_1_n_n none (hidRefT x h1 h2 Wf1 bf1) Wf2 (ix2 r (0 : Fin 1))
      + broadcastInDim S50000x1 ![0, 1] bcast_S1x1_S50000x1_0_1
          (broadcastInDim S1x1 ![1] bcast_S1_S1x1_1 bf2) (ix2 r (0 : Fin 1)))
    (broadcastInDim S50000x1 ![] bcast_S_S50000x1 (constant (F := Ideal) S_ .f32 0x00000000#32) (ix2 r (0 : Fin 1))) = _
  rw [dotOut_apply, broadcastInDim_oneRow_apply, bcastOne_apply, broadcastInDim_scalar_apply]
  show max _ (Ideal.ofBits .f32 0x00000000#32) = _
  rw [Ideal.ofBits_zero_f32]
  simp only [hidRefT_apply]

end Cert.ReferenceIdeal.Hand

end
-- ==== Proof.Spec.lean ====
import Mathlib.Data.EReal.Basic
import Mathlib.Data.EReal.Operations
import Mathlib.Data.EReal.Inv
import Mathlib.Order.MinMax
import Mathlib.Algebra.BigOperators.Group.Finset.Basic
import Mathlib.Algebra.BigOperators.Ring.Finset
import Mathlib.Algebra.Order.BigOperators.Group.Finset
import Mathlib.Data.Fintype.BigOperators
import Mathlib.Data.Fintype.Card
import Mathlib.Logic.Equiv.Fin.Basic
import Mathlib.Analysis.SpecialFunctions.Sqrt
import Mathlib.Tactic.Ring
import Mathlib.Tactic.FieldSimp
import Idealize.ShloMosaic.PureOps.Ideal

namespace Cert.Spec

open Idealize.ShloMosaic
open scoped BigOperators

def IsFin (x : EReal) : Prop := x ≠ ⊤ ∧ x ≠ ⊥

theorem isFin_coe (r : ℝ) : IsFin (r : EReal) :=
  ⟨EReal.coe_ne_top r, EReal.coe_ne_bot r⟩

theorem IsFin.exists_coe {x : EReal} (h : IsFin x) : ∃ r : ℝ, x = (r : EReal) := by
  lift x to ℝ using h
  exact ⟨x, rfl⟩

theorem isFin_zero : IsFin (0 : EReal) := isFin_coe 0

-- Sums, differences and products of real coercions are coercions of the real results.
theorem IsFin.add {x y : EReal} (hx : IsFin x) (hy : IsFin y) : IsFin (x + y) := by
  obtain ⟨a, rfl⟩ := hx.exists_coe
  obtain ⟨b, rfl⟩ := hy.exists_coe
  exact isFin_coe (a + b)

theorem IsFin.sub {x y : EReal} (hx : IsFin x) (hy : IsFin y) : IsFin (x - y) := by
  obtain ⟨a, rfl⟩ := hx.exists_coe
  obtain ⟨b, rfl⟩ := hy.exists_coe
  exact isFin_coe (a - b)

theorem IsFin.mul {x y : EReal} (hx : IsFin x) (hy : IsFin y) : IsFin (x * y) := by
  obtain ⟨a, rfl⟩ := hx.exists_coe
  obtain ⟨b, rfl⟩ := hy.exists_coe
  exact isFin_coe (a * b)

theorem IsFin.max {x y : EReal} (hx : IsFin x) (hy : IsFin y) : IsFin (max x y) := by
  rcases max_choice x y with h | h <;> rw [h] <;> assumption

theorem isFin_sum {ι : Type*} (s : Finset ι) (f : ι → EReal) (hf : ∀ i ∈ s, IsFin (f i)) :
    IsFin (∑ i ∈ s, f i) :=
  Finset.sum_induction f IsFin (fun _ _ => IsFin.add) isFin_zero hf

theorem isFin_sum_univ {ι : Type*} [Fintype ι] (f : ι → EReal) (hf : ∀ i, IsFin (f i)) :
    IsFin (∑ i, f i) :=
  isFin_sum Finset.univ f fun i _ => hf i

theorem sum_coe {ι : Type*} (s : Finset ι) (f : ι → ℝ) :
    (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

theorem div_coe_coe (a : ℝ) {n : ℝ} (hn : n ≠ 0) :
    Ideal.div (a : EReal) (n : EReal) = ((a / n : ℝ) : EReal) := by
  rw [Ideal.div_coe hn, ← EReal.coe_mul, mul_one_div]

theorem isFin_div_coe {x : EReal} (hx : IsFin x) {n : ℝ} (hn : n ≠ 0) :
    IsFin (Ideal.div x (n : EReal)) := by
  obtain ⟨a, rfl⟩ := hx.exists_coe
  rw [div_coe_coe a hn]
  exact isFin_coe _

theorem rsqrt_coe_pos {a : ℝ} (ha : 0 < a) :
    Ideal.rsqrt (a : EReal) = (((Real.sqrt a)⁻¹ : ℝ) : EReal) := by
  rw [Ideal.rsqrt_coe, if_neg (not_lt.mpr ha.le), if_neg ha.ne']

-- E[w²] − E[w]² = E[(w − E w)²] over the reals: expand the square and sum.
theorem real_variance_identity {ι : Type*} [Fintype ι] (w : ι → ℝ) {n : ℝ} (hn0 : n ≠ 0)
    (hn : (Fintype.card ι : ℝ) = n) :
    (∑ i, w i * w i) / n - (∑ i, w i) / n * ((∑ i, w i) / n)
      = (∑ i, (w i - (∑ j, w j) / n) * (w i - (∑ j, w j) / n)) / n := by
  have expand : ∀ m : ℝ, ∑ i, (w i - m) * (w i - m)
      = (∑ i, w i * w i) - 2 * m * (∑ i, w i) + n * (m * m) := by
    intro m
    have h : ∀ i, (w i - m) * (w i - m) = w i * w i - 2 * m * w i + m * m := fun i => by ring
    simp only [h, Finset.sum_add_distrib, Finset.sum_sub_distrib, ← Finset.mul_sum,
      Finset.sum_const, Finset.card_univ, nsmul_eq_mul, hn]
    ring
  rw [expand]
  field_simp
  ring

-- On finite summands both ways of writing the variance are one nonnegative real.
theorem variance_exists {ι : Type*} [Fintype ι] (v : ι → EReal) (hv : ∀ i, IsFin (v i))
    {n : ℝ} (hn0 : n ≠ 0) (hn : (Fintype.card ι : ℝ) = n) :
    ∃ s : ℝ, 0 ≤ s ∧
      Ideal.div (∑ i, v i * v i) (n : EReal)
          - Ideal.div (∑ i, v i) (n : EReal) * Ideal.div (∑ i, v i) (n : EReal) = (s : EReal) ∧
      Ideal.div (∑ i, (v i - Ideal.div (∑ j, v j) (n : EReal))
          * (v i - Ideal.div (∑ j, v j) (n : EReal))) (n : EReal) = (s : EReal) := by
  choose w hw using fun i => (hv i).exists_coe
  obtain rfl : v = fun i => ((w i : ℝ) : EReal) := funext hw
  refine ⟨(∑ i, (w i - (∑ j, w j) / n) * (w i - (∑ j, w j) / n)) / n,
    div_nonneg (Finset.sum_nonneg fun i _ => mul_self_nonneg _) (hn ▸ Nat.cast_nonneg _), ?_, ?_⟩
  · rw [← real_variance_identity w hn0 hn]
    simp only [← EReal.coe_mul, sum_coe, div_coe_coe _ hn0, ← EReal.coe_sub]
  · simp only [sum_coe, div_coe_coe _ hn0, ← EReal.coe_sub, ← EReal.coe_mul]

theorem variance_identity {ι : Type*} [Fintype ι] (v : ι → EReal) (hv : ∀ i, IsFin (v i))
    {n : ℝ} (hn0 : n ≠ 0) (hn : (Fintype.card ι : ℝ) = n) :
    Ideal.div (∑ i, v i * v i) (n : EReal)
        - Ideal.div (∑ i, v i) (n : EReal) * Ideal.div (∑ i, v i) (n : EReal)
      = Ideal.div (∑ i, (v i - Ideal.div (∑ j, v j) (n : EReal))
          * (v i - Ideal.div (∑ j, v j) (n : EReal))) (n : EReal) := by
  obtain ⟨s, _, h1, h2⟩ := variance_exists v hv hn0 hn
  rw [h1, h2]

theorem variance_add_eps {ι : Type*} [Fintype ι] (v : ι → EReal) (hv : ∀ i, IsFin (v i))
    {n : ℝ} (hn0 : n ≠ 0) (hn : (Fintype.card ι : ℝ) = n) {ε : ℝ} (hε : 0 < ε) :
    ∃ a : ℝ, 0 < a ∧
      Ideal.div (∑ i, v i * v i) (n : EReal)
          - Ideal.div (∑ i, v i) (n : EReal) * Ideal.div (∑ i, v i) (n : EReal) + (ε : EReal)
        = (a : EReal) := by
  obtain ⟨s, hs, h1, _⟩ := variance_exists v hv hn0 hn
  exact ⟨s + ε, add_pos_of_nonneg_of_pos hs hε, by rw [h1, EReal.coe_add]⟩

theorem blk_lt {n k : ℕ} (t : Fin n) (y : Fin k) : t.val * k + y.val < n * k :=
  calc t.val * k + y.val < t.val * k + k := Nat.add_lt_add_left y.isLt _
    _ = (t.val + 1) * k := by ring
    _ ≤ n * k := Nat.mul_le_mul_right k t.isLt

-- Rows of n blocks of k are pairs (block, row in block).
theorem sum_blocks {M : Type*} [AddCommMonoid M] {n k : ℕ} (g : Fin (n * k) → M) :
    ∑ r : Fin (n * k), g r
      = ∑ t : Fin n, ∑ y : Fin k, g ⟨t.val * k + y.val, blk_lt t y⟩ := by
  rw [← Equiv.sum_comp finProdFinEquiv g, Fintype.sum_prod_type]
  refine Finset.sum_congr rfl fun t _ => Finset.sum_congr rfl fun y _ => ?_
  congr 1
  apply Fin.ext
  simp only [finProdFinEquiv_apply_val]
  ring

end Cert.Spec
-- ==== Proof.LayerMath.lean ====
import Mathlib.Algebra.BigOperators.Fin
import Mathlib.Algebra.BigOperators.Group.Finset.Basic
import Mathlib.Data.EReal.Operations
import Idealize.ShloMosaic.PureOps.Ideal
import proofs.«101480_j18889266168017_1_alg».proof.Proof.Spec

namespace Cert.Spec

open Idealize.ShloMosaic
open scoped BigOperators

-- The variance plus a positive real is a positive real, so its inverse square root is a real and every factor is finite.
theorem bn_isFin {ι : Type*} [Fintype ι] (v : ι → EReal) (hv : ∀ i, IsFin (v i))
    {n : ℝ} (hn0 : n ≠ 0) (hn : (Fintype.card ι : ℝ) = n) {g be : EReal} (hg : IsFin g)
    (hbe : IsFin be) {e : ℝ} (he : 0 < e) (i : ι) :
    IsFin (g * (v i - Ideal.div (∑ j, v j) (n : EReal))
        * Ideal.rsqrt ((Ideal.div (∑ j, v j * v j) (n : EReal)
            - Ideal.div (∑ j, v j) (n : EReal) * Ideal.div (∑ j, v j) (n : EReal))
          + (e : EReal)) + be) := by
  obtain ⟨a, ha, h⟩ := variance_add_eps v hv hn0 hn he
  rw [h, rsqrt_coe_pos ha]
  exact ((hg.mul ((hv i).sub (isFin_div_coe (isFin_sum_univ v hv) hn0))).mul (isFin_coe _)).add hbe

-- An accumulator that starts at the first term and adds one term a step holds the partial sum.
theorem acc_eq_sum (acc s : ℕ → EReal) (m : ℕ) (h0 : acc 0 = 0 + s 0)
    (hs : ∀ t, t < m → acc (t + 1) = acc t + s (t + 1)) :
    acc m = ∑ t : Fin (m + 1), s t.val := by
  induction m with
  | zero => rw [h0, zero_add, Fin.sum_univ_one]; rfl
  | succ m ih =>
    rw [hs m (Nat.lt_succ_self m), ih fun t ht => hs t (Nat.lt_succ_of_lt ht),
      Fin.sum_univ_castSucc (n := m + 1)]
    simp only [Fin.coe_castSucc, Fin.val_last]

theorem acc_rows' (g : Fin 50000 → EReal) (acc s : ℕ → EReal)
    (hblk : ∀ t : Fin 10,
      s t.val = ∑ y : Fin 5000, g ⟨t.val * 5000 + y.val, blk_lt (n := 10) t y⟩)
    (h0 : acc 0 = 0 + s 0) (hs : ∀ t, t < 9 → acc (t + 1) = acc t + s (t + 1)) :
    acc 9 = ∑ r : Fin 50000, g r := by
  have h : acc 9 = ∑ t : Fin 10, s t.val := acc_eq_sum acc s 9 h0 hs
  rw [h, sum_blocks (n := 10) (k := 5000) g]
  exact Finset.sum_congr rfl fun t _ => hblk t

end Cert.Spec
-- ==== Proof.BridgeMath.lean ====
import Mathlib.Data.EReal.Operations
import Mathlib.Data.Fintype.Card
import Mathlib.Tactic.NormNum
import Idealize.ShloMosaic.PureOps.Ideal
import Idealize.ShloMosaic.Lib.ValueIdx
import proofs.«101480_j18889266168017_1_alg».proof.Proof.LayerMath

noncomputable section

namespace Cert.BridgeMath

open Idealize.ShloMosaic
open Idealize.ShloMosaic.ValueIdx
open Cert.Spec
open scoped BigOperators

abbrev A2 (a b : ℕ) := (⟨2, ![a, b]⟩ : Shape).Idx → EReal

abbrev A1 (a : ℕ) := (⟨1, ![a]⟩ : Shape).Idx → EReal

def linArr {a k b : ℕ} (X : A2 a k) (W : A2 k b) : A2 a b :=
  fun i => ∑ j : Fin k, X (ix2 (i 0) j) * W (ix2 j (i 1))

def valArr (agg h : A2 50000 128) (d2 : A1 50000) (b : A1 128) : A2 50000 128 :=
  fun i => max ((agg i + h i * d2 (ix1 (i 0))) + b (ix1 (i 1))) 0

def colSum (v : A2 50000 128) (q : Fin 128) : EReal :=
  ∑ r : Fin 50000, v (ix2 r q)

def colSumSq (v : A2 50000 128) (q : Fin 128) : EReal :=
  ∑ r : Fin 50000, v (ix2 r q) * v (ix2 r q)

def meanK (v : A2 50000 128) (q : Fin 128) : EReal :=
  Ideal.div (colSum v q) ((50000 : ℝ) : EReal)

def varK (v : A2 50000 128) (q : Fin 128) : EReal :=
  Ideal.div (colSumSq v q) ((50000 : ℝ) : EReal) - meanK v q * meanK v q

def meanR (v : A2 50000 128) (q : Fin 128) : EReal :=
  Ideal.div (0 + colSum v q) ((50000 : ℝ) : EReal)

def varR (v : A2 50000 128) (q : Fin 128) : EReal :=
  Ideal.div (0 + ∑ r : Fin 50000, (v (ix2 r q) - meanR v q) * (v (ix2 r q) - meanR v q))
    (((50000 : ℝ) : EReal) - 0)

def bnArr (v : A2 50000 128) (mean var : Fin 128 → EReal) (g be : A1 128) (ε : EReal) :
    A2 50000 128 :=
  fun i => g (ix1 (i 1)) * (v i - mean (i 1)) * Ideal.rsqrt (var (i 1) + ε) + be (ix1 (i 1))

def mlpArr (cat : A2 50000 384) (Wf1 : A2 384 128) (bf1 : A1 128) (Wf2 : A2 128 1)
    (bf2 : A1 1) : A1 50000 :=
  fun i => max ((∑ j : Fin 128,
      max ((∑ k : Fin 384, cat (ix2 (i 0) k) * Wf1 (ix2 k j)) + bf1 (ix1 j)) 0
        * Wf2 (ix2 j 0)) + bf2 (ix1 0)) 0

theorem rows_ne_zero : (50000 : ℝ) ≠ 0 := by norm_num

theorem card_rows : (Fintype.card (Fin 50000) : ℝ) = 50000 := by
  rw [Fintype.card_fin]; norm_num

-- The two means differ by an added zero; the two variances are the variance identity on the column's finite entries.
theorem bnArr_K_eq_R (v : A2 50000 128) (hv : ∀ i, IsFin (v i)) (g be : A1 128) (e : ℝ) :
    bnArr v (meanK v) (varK v) g be (e : EReal) = bnArr v (meanR v) (varR v) g be (e : EReal) := by
  have hm : meanK v = meanR v := funext fun q => by unfold meanK meanR; rw [zero_add]
  have hvar : varK v = varR v := funext fun q => by
    have key := variance_identity (ι := Fin 50000) (fun r => v (ix2 r q))
      (fun r => hv (ix2 r q)) rows_ne_zero card_rows
    unfold varK varR meanR meanK colSumSq colSum
    simp only [zero_add, sub_zero]
    exact key
  rw [hm, hvar]

theorem linArr_fin {a k b : ℕ} {X : A2 a k} {W : A2 k b} (hX : ∀ i, IsFin (X i))
    (hW : ∀ i, IsFin (W i)) : ∀ i, IsFin (linArr X W i) :=
  fun i => isFin_sum_univ _ fun j => (hX (ix2 (i 0) j)).mul (hW (ix2 j (i 1)))

theorem valArr_fin {agg h : A2 50000 128} {d2 : A1 50000} {b : A1 128}
    (hagg : ∀ i, IsFin (agg i)) (hh : ∀ i, IsFin (h i)) (hd2 : ∀ i, IsFin (d2 i))
    (hb : ∀ i, IsFin (b i)) : ∀ i, IsFin (valArr agg h d2 b i) :=
  fun i => (((hagg i).add ((hh i).mul (hd2 (ix1 (i 0))))).add (hb (ix1 (i 1)))).max isFin_zero

theorem bnArr_fin {v : A2 50000 128} (hv : ∀ i, IsFin (v i)) {g be : A1 128}
    (hg : ∀ i, IsFin (g i)) (hbe : ∀ i, IsFin (be i)) {e : ℝ} (he : 0 < e) :
    ∀ i, IsFin (bnArr v (meanK v) (varK v) g be (e : EReal) i) := by
  intro i
  obtain ⟨r, q, rfl⟩ : ∃ r q, i = ix2 r q := ⟨i 0, i 1, eq_ix2 i⟩
  exact bn_isFin (ι := Fin 50000) (fun r => v (ix2 r q)) (fun r => hv (ix2 r q))
    rows_ne_zero card_rows (hg (ix1 q)) (hbe (ix1 q)) he r

end Cert.BridgeMath
-- ==== Proof.CatArr.lean ====
import Idealize.ShloMosaic.Lib.ValueIdx

noncomputable section

namespace Cert.BridgeMath

open Idealize.ShloMosaic
open Idealize.ShloMosaic.ValueIdx

def catArr (x h1 h2 : (⟨2, ![50000, 128]⟩ : Shape).Idx → EReal) : (⟨2, ![50000, 384]⟩ : Shape).Idx → EReal :=
  fun i =>
    if h : (i 1).val < 128 then x (ix2 (i 0) ⟨(i 1).val, h⟩)
    else if h' : (i 1).val < 256 then h1 (ix2 (i 0) ⟨(i 1).val - 128, by omega⟩)
    else h2 (ix2 (i 0) ⟨(i 1).val - 256, by have := idx2_lt1 i; omega⟩)

end Cert.BridgeMath

end
-- ==== Proof.AggFin.lean ====
import proofs.«101480_j18889266168017_1_alg».proof.Proof.Terms
import proofs.«101480_j18889266168017_1_alg».proof.Proof.Spec
import proofs.«101480_j18889266168017_1_alg».proof.Proof.Consts
import Idealize.ShloMosaic.Lib.IdealHost

noncomputable section

namespace Cert.KernelIdeal.Hand

open Cert.KernelIdeal Cert.KernelIdeal.Gen Idealize.ShloMosaic Idealize.ShloMosaic.ValueIdx
open Cert.Spec

section General
variable {α : Type} {s si t su : Shape} {φ : FTy} {wd : Nat}

-- Every entry of a gather, and of a broadcast, is an entry of its operand.
theorem gather_all (P : α → Prop) (d : GatherDims s si t) (x : s.Idx → α) (idx : IVec si wd)
    (hx : ∀ i, P (x i)) (j : t.Idx) : P (Host.gather d x idx j) :=
  hx (d.operandIdx j idx)

theorem broadcastInDim_all (P : α → Prop) (dims : Fin s.rank → Fin t.rank) (h : s.BroadcastsInDim t dims)
    (x : s.Idx → α) (hx : ∀ i, P (x i)) (j : t.Idx) : P (broadcastInDim t dims h x j) :=
  hx _

theorem addf_fin (x y : FVec Ideal s φ) (hx : ∀ i, IsFin (x i)) (hy : ∀ i, IsFin (y i)) (i : s.Idx) :
    IsFin (addf x y i) := by
  rw [addf_apply]; exact (hx i).add (hy i)

theorem mulf_fin (x y : FVec Ideal s φ) (hx : ∀ i, IsFin (x i)) (hy : ∀ i, IsFin (y i)) (i : s.Idx) :
    IsFin (mulf x y i) := by
  rw [mulf_apply]; exact (hx i).mul (hy i)

-- A scatter-add entry is the operand's entry plus a finite sum of updates.
theorem scatterAdd_fin (d : ScatterDims s si su) (x : FVec Ideal s φ) (idx : IVec si wd) (upd : FVec Ideal su φ)
    (hx : ∀ i, IsFin (x i)) (hu : ∀ j, IsFin (upd j)) (i : s.Idx) : IsFin (Host.scatterAdd d x idx upd i) :=
  (hx i).add (isFin_sum (Finset.univ.filter fun j => d.resultIdx? j idx = some i) upd fun j _ => hu j)

theorem constant_zero_fin (i : s.Idx) : IsFin ((constant s .f32 0x00000000#32 : FVec Ideal s .f32) i) := by
  rw [constant_apply, Ideal.ofBits_zero_f32]; exact isFin_zero

theorem constant_one_fin (i : s.Idx) : IsFin ((constant s .f32 0x3F800000#32 : FVec Ideal s .f32) i) := by
  rw [constant_apply, Ideal.ofBits_one_f32]; exact isFin_coe 1

theorem hostRsqrt_apply (x : FVec Ideal s φ) (i : s.Idx) : Host.rsqrt x i = Ideal.rsqrt (x i) := rfl

theorem rsqrt_fin {x : EReal} (hx : IsFin x) (hpos : 0 < x) : IsFin (Ideal.rsqrt x) := by
  obtain ⟨r, rfl⟩ := hx.exists_coe
  rw [rsqrt_coe_pos (EReal.coe_pos.mp hpos)]
  exact isFin_coe _

end General

section Chain
variable (src dst : IVec S800000 32) (w : FVec Ideal S800000 .f32) (h : FVec Ideal S50000x128 .f32)

theorem degT_fin (hw : ∀ i, IsFin (w i)) : ∀ i, IsFin (degT (F := Ideal) dst w i) :=
  addf_fin _ _ (scatterAdd_fin _ _ _ _ (broadcastInDim_all IsFin _ _ _ constant_zero_fin) hw)
    (broadcastInDim_all IsFin _ _ _ constant_one_fin)

theorem dinvT_fin (hw : ∀ i, IsFin (w i)) (hdeg : ∀ i, 0 < degT (F := Ideal) dst w i) :
    ∀ i, IsFin (dinvT (F := Ideal) dst w i) := by
  intro i
  unfold dinvT
  rw [hostRsqrt_apply]
  exact rsqrt_fin (degT_fin dst w hw i) (hdeg i)

theorem dinv2T_fin (hw : ∀ i, IsFin (w i)) (hdeg : ∀ i, 0 < degT (F := Ideal) dst w i) :
    ∀ i, IsFin (dinv2T (F := Ideal) dst w i) :=
  mulf_fin _ _ (dinvT_fin dst w hw hdeg) (dinvT_fin dst w hw hdeg)

theorem normT_fin (hw : ∀ i, IsFin (w i)) (hdeg : ∀ i, 0 < degT (F := Ideal) dst w i) :
    ∀ e, IsFin (normT (F := Ideal) src dst w e) :=
  mulf_fin _ _ (mulf_fin _ _ (gather_all IsFin _ _ _ (dinvT_fin dst w hw hdeg)) hw)
    (gather_all IsFin _ _ _ (dinvT_fin dst w hw hdeg))

theorem aggT_fin (hw : ∀ i, IsFin (w i)) (hdeg : ∀ i, 0 < degT (F := Ideal) dst w i) (hh : ∀ i, IsFin (h i)) :
    ∀ i, IsFin (aggT (F := Ideal) h src dst w i) :=
  scatterAdd_fin _ _ _ _ (broadcastInDim_all IsFin _ _ _ constant_zero_fin)
    (mulf_fin _ _ (gather_all IsFin _ _ _ hh)
      (broadcastInDim_all IsFin _ _ _ (broadcastInDim_all IsFin _ _ _ (normT_fin src dst w hw hdeg))))

end Chain

end Cert.KernelIdeal.Hand

end
-- ==== Proof.FinChain.lean ====
import proofs.«101480_j18889266168017_1_alg».proof.Proof.AggFin
import proofs.«101480_j18889266168017_1_alg».proof.Proof.BridgeMath
import proofs.«101480_j18889266168017_1_alg».proof.Proof.CatArr

noncomputable section

namespace Cert.KernelIdeal.Hand

open Cert.KernelIdeal Cert.KernelIdeal.Gen Idealize.ShloMosaic
open Cert.Spec Cert.BridgeMath

section FinChain
variable (src dst : IVec S800000 32) (w : FVec Ideal S800000 .f32)

def valOf (X : A2 50000 128) (W : A2 128 128) (b : A1 128) : A2 50000 128 :=
  valArr (aggT (F := Ideal) (linArr X W) src dst w) (linArr X W) (dinv2T (F := Ideal) dst w) b

def layerK (X : A2 50000 128) (W : A2 128 128) (b g be : A1 128) : A2 50000 128 :=
  bnArr (valOf src dst w X W b) (meanK (valOf src dst w X W b)) (varK (valOf src dst w X W b)) g be
    (Ideal.ofBits .f32 0x3727C5AC#32)

def layerR (X : A2 50000 128) (W : A2 128 128) (b g be : A1 128) : A2 50000 128 :=
  bnArr (valOf src dst w X W b) (meanR (valOf src dst w X W b)) (varR (valOf src dst w X W b)) g be
    (Ideal.ofBits .f32 0x3727C5AC#32)

variable {X : A2 50000 128} {W : A2 128 128} {b g be : A1 128}

theorem valOf_fin (hX : ∀ i, IsFin (X i)) (hW : ∀ i, IsFin (W i)) (hb : ∀ i, IsFin (b i))
    (hw : ∀ i, IsFin (w i)) (hdeg : ∀ i, 0 < degT (F := Ideal) dst w i) :
    ∀ i, IsFin (valOf src dst w X W b i) :=
  valArr_fin (aggT_fin src dst w _ hw hdeg (linArr_fin hX hW)) (linArr_fin hX hW) (dinv2T_fin dst w hw hdeg) hb

theorem layerK_fin (hX : ∀ i, IsFin (X i)) (hW : ∀ i, IsFin (W i)) (hb : ∀ i, IsFin (b i))
    (hg : ∀ i, IsFin (g i)) (hbe : ∀ i, IsFin (be i))
    (hw : ∀ i, IsFin (w i)) (hdeg : ∀ i, 0 < degT (F := Ideal) dst w i) :
    ∀ i, IsFin (layerK src dst w X W b g be i) := by
  obtain ⟨e, he, heq⟩ := Cert.Consts.ofBits_eps
  unfold layerK
  rw [heq]
  exact bnArr_fin (valOf_fin src dst w hX hW hb hw hdeg) hg hbe he

-- On finite values the two ways of writing the column statistics agree, so the two layers are one array.
theorem layerK_eq_layerR (hX : ∀ i, IsFin (X i)) (hW : ∀ i, IsFin (W i)) (hb : ∀ i, IsFin (b i))
    (hw : ∀ i, IsFin (w i)) (hdeg : ∀ i, 0 < degT (F := Ideal) dst w i) :
    layerK src dst w X W b g be = layerR src dst w X W b g be := by
  obtain ⟨e, he, heq⟩ := Cert.Consts.ofBits_eps
  unfold layerK layerR
  rw [heq]
  exact bnArr_K_eq_R _ (valOf_fin src dst w hX hW hb hw hdeg) g be e

end FinChain

section Out
variable (src dst : IVec S800000 32) (w : FVec Ideal S800000 .f32)
variable {x : A2 50000 128} {W1 W2 : A2 128 128} {b1 g1 be1 b2 g2 be2 : A1 128}
variable (Wf1 : A2 384 128) (bf1 : A1 128) (Wf2 : A2 128 1) (bf2 : A1 1)

theorem out_eq (hx : ∀ i, IsFin (x i)) (hW1 : ∀ i, IsFin (W1 i)) (hb1 : ∀ i, IsFin (b1 i))
    (hg1 : ∀ i, IsFin (g1 i)) (hbe1 : ∀ i, IsFin (be1 i))
    (hW2 : ∀ i, IsFin (W2 i)) (hb2 : ∀ i, IsFin (b2 i))
    (hw : ∀ i, IsFin (w i)) (hdeg : ∀ i, 0 < degT (F := Ideal) dst w i) :
    mlpArr (catArr x (layerK src dst w x W1 b1 g1 be1)
        (layerK src dst w (layerK src dst w x W1 b1 g1 be1) W2 b2 g2 be2)) Wf1 bf1 Wf2 bf2
      = mlpArr (catArr x (layerR src dst w x W1 b1 g1 be1)
        (layerR src dst w (layerR src dst w x W1 b1 g1 be1) W2 b2 g2 be2)) Wf1 bf1 Wf2 bf2 := by
  rw [layerK_eq_layerR src dst w (layerK_fin src dst w hx hW1 hb1 hg1 hbe1 hw hdeg) hW2 hb2 hw hdeg,
    layerK_eq_layerR src dst w hx hW1 hb1 hw hdeg]

end Out

end Cert.KernelIdeal.Hand

end
-- ==== Proof.RChain.lean ====
import proofs.«101480_j18889266168017_1_alg».proof.Proof.RefRead
import proofs.«101480_j18889266168017_1_alg».proof.Proof.RefIdx
import proofs.«101480_j18889266168017_1_alg».proof.Proof.BridgeMath
import proofs.«101480_j18889266168017_1_alg».proof.Proof.CatArr
import proofs.«101480_j18889266168017_1_alg».proof.Proof.FinChain

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx
open Cert.KernelIdeal.Hand (srcT dstT aggT dinv2T valOf layerR)
open Cert.BridgeMath
open scoped BigOperators

theorem linRefT_eq (x : FVec Ideal S50000x128 .f32) (W : FVec Ideal S128x128 .f32) :
    linRefT x W = linArr x W := by
  funext i
  obtain ⟨r, q, rfl⟩ : ∃ r q, i = ix2 r q := ⟨i 0, i 1, eq_ix2 i⟩
  rw [linRefT_apply]
  rfl

theorem refV_preRefT (agg h : FVec Ideal S50000x128 .f32) (d2 : FVec Ideal S50000 .f32) (b : FVec Ideal S128 .f32)
    (r : Fin 50000) (q : Fin 128) :
    refV (preRefT agg h d2 b) r q = valArr agg h d2 b (ix2 r q) := by
  unfold refV
  rw [preRefT_apply]
  rfl

theorem refMean_preRefT (agg h : FVec Ideal S50000x128 .f32) (d2 : FVec Ideal S50000 .f32) (b : FVec Ideal S128 .f32)
    (q : Fin 128) :
    refMean (preRefT agg h d2 b) q = meanR (valArr agg h d2 b) q := by
  unfold refMean meanR colSum
  rw [refN_eq]
  simp only [refV_preRefT]

-- The divisor of the variance is 50000 − 0.
theorem refVar_preRefT (agg h : FVec Ideal S50000x128 .f32) (d2 : FVec Ideal S50000 .f32) (b : FVec Ideal S128 .f32)
    (q : Fin 128) :
    refVar (preRefT agg h d2 b) q = varR (valArr agg h d2 b) q := by
  unfold refVar varR
  rw [refN_eq, sub_zero]
  simp only [refV_preRefT, refMean_preRefT]

theorem bnArr_apply (v : A2 50000 128) (mean var : Fin 128 → EReal) (g be : A1 128) (ε : EReal)
    (r : Fin 50000) (q : Fin 128) :
    bnArr v mean var g be ε (ix2 r q)
      = g (ix1 q) * (v (ix2 r q) - mean q) * Ideal.rsqrt (var q + ε) + be (ix1 q) := rfl

-- One layer is the normalisation of the positive part of the pre-activation by that part's column mean and variance.
theorem layerRef_eq' (X : FVec Ideal S50000x128 .f32) (W : FVec Ideal S128x128 .f32) (b g be : FVec Ideal S128 .f32)
    (src dst : IVec S800000 32) (w : FVec Ideal S800000 .f32) :
    bnRefT (preRefT (aggT (linRefT X W) src dst w) (linRefT X W) (dinv2T dst w) b) g be
      = layerR src dst w X W b g be := by
  unfold layerR valOf
  rw [linRefT_eq]
  funext i
  obtain ⟨r, q, rfl⟩ : ∃ r q, i = ix2 r q := ⟨i 0, i 1, eq_ix2 i⟩
  rw [bnRefT_apply', refV_preRefT, refMean_preRefT, refVar_preRefT, bnArr_apply]
  unfold refEps
  rfl

theorem mlpRefT_eq (x h1 h2 : FVec Ideal S50000x128 .f32) (Wf1 : FVec Ideal S384x128 .f32)
    (bf1 : FVec Ideal S128 .f32) (Wf2 : FVec Ideal S128x1 .f32) (bf2 : FVec Ideal S1 .f32) :
    mlpRefT x h1 h2 Wf1 bf1 Wf2 bf2 = mlpArr (catArr x h1 h2) Wf1 bf1 Wf2 bf2 := by
  funext i
  obtain ⟨r, rfl⟩ : ∃ r, i = ix1 r := ⟨i 0, eq_ix1 i⟩
  rw [mlpRefT_apply']
  rfl

section Out

variable (V0 : Valuation τ sig (Elt Ideal))

-- Each stage reads an argument or what an earlier stage wrote, and no later stage writes either; the stages are then the layer and head maps.
theorem r_out :
    after ops V0 (main_v163 : DevRef τ sig)
      = mlpArr
          (catArr (V0 (main_arg0 : DevRef τ sig))
            (layerR (srcT (V0 (main_arg1 : DevRef τ sig))) (dstT (V0 (main_arg1 : DevRef τ sig))) (V0 (main_arg2 : DevRef τ sig))
              (V0 (main_arg0 : DevRef τ sig)) (V0 (main_arg3 : DevRef τ sig)) (V0 (main_arg4 : DevRef τ sig))
              (V0 (main_arg7 : DevRef τ sig)) (V0 (main_arg8 : DevRef τ sig)))
            (layerR (srcT (V0 (main_arg1 : DevRef τ sig))) (dstT (V0 (main_arg1 : DevRef τ sig))) (V0 (main_arg2 : DevRef τ sig))
              (layerR (srcT (V0 (main_arg1 : DevRef τ sig))) (dstT (V0 (main_arg1 : DevRef τ sig))) (V0 (main_arg2 : DevRef τ sig))
                (V0 (main_arg0 : DevRef τ sig)) (V0 (main_arg3 : DevRef τ sig)) (V0 (main_arg4 : DevRef τ sig))
                (V0 (main_arg7 : DevRef τ sig)) (V0 (main_arg8 : DevRef τ sig)))
              (V0 (main_arg5 : DevRef τ sig)) (V0 (main_arg6 : DevRef τ sig))
              (V0 (main_arg9 : DevRef τ sig)) (V0 (main_arg10 : DevRef τ sig))))
          (V0 (main_arg11 : DevRef τ sig)) (V0 (main_arg12 : DevRef τ sig))
          (V0 (main_arg13 : DevRef τ sig)) (V0 (main_arg14 : DevRef τ sig)) := by
  rw [after_ops]
  simp (disch := decide) only [read_mlp, read_bn2, read_agg2, read_lin2, read_bn1, read_agg1, read_lin1, read_src, read_dst,
    after_seg_bn2_of, after_seg_agg2_of, after_seg_lin2_of, after_seg_bn1_of, after_seg_agg1_of, after_seg_lin1_of,
    after_seg_idx_of]
  rw [mlpRefT_eq, layerRef_eq', layerRef_eq']

end Out

end Cert.ReferenceIdeal.Hand

end
-- ==== Proof.KIHost.lean ====
import proofs.«101480_j18889266168017_1_alg».proof.Proof.Gen.KernelIdeal.Launch
import proofs.«101480_j18889266168017_1_alg».proof.Proof.Gen.KernelIdeal.Regions
import Idealize.ShloMosaic.Lib.StableHlo.Run
import proofs.«101480_j18889266168017_1_alg».proof.Proof.Terms
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

attribute [local irreducible] Host.scatterAdd Host.gather Host.rsqrt

theorem hostOps0_v1 (V : Valuation τ sig (Elt F)) :
    after hostOps0 V (main_v1 : DevRef τ sig) = srcT (V (main_arg1 : DevRef τ sig)) := by
  after_results; rfl

theorem hostOps0_v3 (V : Valuation τ sig (Elt F)) :
    after hostOps0 V (main_v3 : DevRef τ sig) = dstT (V (main_arg1 : DevRef τ sig)) := by
  after_results; rfl

theorem hostOps1_v49 (V : Valuation τ sig (Elt F)) :
    after hostOps1 V (main_v49 : DevRef τ sig)
      = aggT (V (main_v4 : DevRef τ sig)) (V (main_v1 : DevRef τ sig)) (V (main_v3 : DevRef τ sig)) (V (main_arg2 : DevRef τ sig)) := by
  after_results_simp; rfl

theorem hostOps1_v51 (V : Valuation τ sig (Elt F)) :
    after hostOps1 V (main_v51 : DevRef τ sig)
      = shapeCast S50000x1 (dinv2T (V (main_v3 : DevRef τ sig)) (V (main_arg2 : DevRef τ sig))) shapeCasts_S50000_S50000x1 := by
  after_results_simp; rfl

theorem hostOps1_v52 (V : Valuation τ sig (Elt F)) :
    after hostOps1 V (main_v52 : DevRef τ sig)
      = shapeCast S1x128 (V (main_arg4 : DevRef τ sig) : FVec F S128 .f32) shapeCasts_S128_S1x128 := by
  after_results_simp; rfl

theorem hostOps2_v64 (V : Valuation τ sig (Elt F)) :
    after hostOps2 V (main_v64 : DevRef τ sig)
      = shapeCast S1x128 (meanT (V (main_v53_1 : DevRef τ sig))) shapeCasts_S128_S1x128 := by
  after_results; rfl

theorem hostOps2_v65 (V : Valuation τ sig (Elt F)) :
    after hostOps2 V (main_v65 : DevRef τ sig)
      = shapeCast S1x128 (varKT (V (main_v53_1 : DevRef τ sig))) shapeCasts_S128_S1x128 := by
  after_results; rfl

theorem hostOps2_v66 (V : Valuation τ sig (Elt F)) :
    after hostOps2 V (main_v66 : DevRef τ sig)
      = shapeCast S1x128 (V (main_arg7 : DevRef τ sig) : FVec F S128 .f32) shapeCasts_S128_S1x128 := by
  after_results; rfl

theorem hostOps2_v67 (V : Valuation τ sig (Elt F)) :
    after hostOps2 V (main_v67 : DevRef τ sig)
      = shapeCast S1x128 (V (main_arg8 : DevRef τ sig) : FVec F S128 .f32) shapeCasts_S128_S1x128 := by
  after_results; rfl

theorem hostOps4_v114 (V : Valuation τ sig (Elt F)) :
    after hostOps4 V (main_v114 : DevRef τ sig)
      = aggT (V (main_v69 : DevRef τ sig)) (V (main_v1 : DevRef τ sig)) (V (main_v3 : DevRef τ sig)) (V (main_arg2 : DevRef τ sig)) := by
  after_results_simp; rfl

theorem hostOps4_v116 (V : Valuation τ sig (Elt F)) :
    after hostOps4 V (main_v116 : DevRef τ sig)
      = shapeCast S50000x1 (dinv2T (V (main_v3 : DevRef τ sig)) (V (main_arg2 : DevRef τ sig))) shapeCasts_S50000_S50000x1 := by
  after_results_simp; rfl

theorem hostOps4_v117 (V : Valuation τ sig (Elt F)) :
    after hostOps4 V (main_v117 : DevRef τ sig)
      = shapeCast S1x128 (V (main_arg6 : DevRef τ sig) : FVec F S128 .f32) shapeCasts_S128_S1x128 := by
  after_results_simp; rfl

theorem hostOps5_v129 (V : Valuation τ sig (Elt F)) :
    after hostOps5 V (main_v129 : DevRef τ sig)
      = shapeCast S1x128 (meanT (V (main_v118_1 : DevRef τ sig))) shapeCasts_S128_S1x128 := by
  after_results; rfl

theorem hostOps5_v130 (V : Valuation τ sig (Elt F)) :
    after hostOps5 V (main_v130 : DevRef τ sig)
      = shapeCast S1x128 (varKT (V (main_v118_1 : DevRef τ sig))) shapeCasts_S128_S1x128 := by
  after_results; rfl

theorem hostOps5_v131 (V : Valuation τ sig (Elt F)) :
    after hostOps5 V (main_v131 : DevRef τ sig)
      = shapeCast S1x128 (V (main_arg9 : DevRef τ sig) : FVec F S128 .f32) shapeCasts_S128_S1x128 := by
  after_results; rfl

theorem hostOps5_v132 (V : Valuation τ sig (Elt F)) :
    after hostOps5 V (main_v132 : DevRef τ sig)
      = shapeCast S1x128 (V (main_arg10 : DevRef τ sig) : FVec F S128 .f32) shapeCasts_S128_S1x128 := by
  after_results; rfl

theorem hostOps6_v134 (V : Valuation τ sig (Elt F)) :
    after hostOps6 V (main_v134 : DevRef τ sig)
      = concatenate S50000x384 1
          [⟨S50000x128, (V (main_arg0 : DevRef τ sig) : FVec F S50000x128 .f32)⟩,
           ⟨S50000x128, (V (main_v68 : DevRef τ sig) : FVec F S50000x128 .f32)⟩,
           ⟨S50000x128, (V (main_v133 : DevRef τ sig) : FVec F S50000x128 .f32)⟩]
          concatenates_S50000x128_S50000x128_S50000x128_S50000x384_d1 := by
  after_results; rfl

theorem hostOps6_v135 (V : Valuation τ sig (Elt F)) :
    after hostOps6 V (main_v135 : DevRef τ sig)
      = shapeCast S1x128 (V (main_arg12 : DevRef τ sig) : FVec F S128 .f32) shapeCasts_S128_S1x128 := by
  after_results; rfl

theorem hostOps6_v136 (V : Valuation τ sig (Elt F)) :
    after hostOps6 V (main_v136 : DevRef τ sig)
      = shapeCast S1x1 (V (main_arg14 : DevRef τ sig) : FVec F S1 .f32) shapeCasts_S1_S1x1 := by
  after_results; rfl

theorem hostOps7_v138 (V : Valuation τ sig (Elt F)) :
    after hostOps7 V (main_v138 : DevRef τ sig)
      = shapeCast S50000 (V (main_v137 : DevRef τ sig) : FVec F S50000x1 .f32) shapeCasts_S50000x1_S50000 := by
  after_results; rfl

end Cert.KernelIdeal.Hand

end
-- ==== Proof.KIIdx.lean ====
import proofs.«101480_j18889266168017_1_alg».proof.Proof.Terms
import proofs.«101480_j18889266168017_1_alg».proof.Proof.Consts
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

section Layout
variable {α : Type}

theorem col_apply (v : S50000.Idx → α) (r : Fin 50000) :
    shapeCast S50000x1 v shapeCasts_S50000_S50000x1 (ix2 r 0) = v (ix1 r) := by
  refine shapeCast_apply v _ (ix2 r 0) (ix1 r) ?_
  rw [Shape.rowMajor_val_two, Shape.rowMajor_val_one]
  show r.val = r.val * 1 + 0
  omega

theorem row_apply (v : S128.Idx → α) (q : Fin 128) :
    shapeCast S1x128 v shapeCasts_S128_S1x128 (ix2 0 q) = v (ix1 q) :=
  shapeCast_a_1a_apply v _ 0 q

theorem one_apply (v : S1.Idx → α) :
    shapeCast S1x1 v shapeCasts_S1_S1x1 (ix2 0 0) = v (ix1 0) :=
  shapeCast_a_1a_apply v _ 0 0

theorem flat_apply (v : S50000x1.Idx → α) (r : Fin 50000) :
    shapeCast S50000 v shapeCasts_S50000x1_S50000 (ix1 r) = v (ix2 r 0) := by
  refine shapeCast_apply v _ (ix1 r) (ix2 r 0) ?_
  rw [Shape.rowMajor_val_two, Shape.rowMajor_val_one]
  show r.val * 1 + 0 = r.val
  omega

-- Row k of a two-row array, cut out and seen as a vector, reads the array at (k, q).
theorem statsRow_apply (stats : S2x128.Idx → α) (k : Fin 2) (h : S2x128.Slices ![k.val, 0] S1x128) (q : Fin 128) :
    shapeCast S128 (extractStridedSlice S1x128 ![k.val, 0] stats h) shapeCasts_S1x128_S128 (ix1 q)
      = stats (ix2 k q) :=
  (shapeCast_1a_a_apply _ _ q).trans (slice2_axis0_apply k.val stats h 0 q k (Nat.add_zero _).symm)

end Layout

theorem meanT_apply (stats : FVec Ideal S2x128 .f32) (q : Fin 128) :
    meanT stats (ix1 q) = Ideal.div (stats (ix2 0 q)) ((50000 : ℝ) : EReal) := by
  unfold meanT
  rw [hostDivf_apply, broadcastInDim_scalar_apply, constant_apply, Cert.Consts.ofBits_50000]
  exact congrArg (Ideal.div · _) (statsRow_apply stats 0 _ q)

theorem varKT_apply (stats : FVec Ideal S2x128 .f32) (q : Fin 128) :
    varKT stats (ix1 q)
      = Ideal.div (stats (ix2 1 q)) ((50000 : ℝ) : EReal) - meanT stats (ix1 q) * meanT stats (ix1 q) := by
  unfold varKT
  rw [subf_apply, mulf_apply, hostDivf_apply, broadcastInDim_scalar_apply, constant_apply, Cert.Consts.ofBits_50000]
  exact congrArg (Ideal.div · _ - _) (statsRow_apply stats 1 _ q)

end Cert.KernelIdeal.Hand

end
-- ==== Proof.KIVal0.lean ====
import proofs.«101480_j18889266168017_1_alg».proof.Proof.KIReg0
import proofs.«101480_j18889266168017_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

theorem zeros0 : (![0, 0] : Fin 2 → Nat) = fun _ => 0 := funext fun a => by fin_cases a <;> rfl

def prod0 (A : S50000x128.Idx → EReal) (B : S128x128.Idx → EReal) : S50000x128.Idx → EReal :=
  fun i => ∑ j : Fin 128, A (@ix2 50000 128 (i 0) j) * B (@ix2 128 128 j (i 1))

theorem idx_facts0 : ∀ t : Fin cfg0.N,
    win0_0.index t (0 : Fin 2) = t.val ∧ win0_0.index t (1 : Fin 2) = 0
    ∧ win0_2.index t (0 : Fin 2) = t.val ∧ win0_2.index t (1 : Fin 2) = 0 :=
  (by decide +kernel : ∀ t : Fin grid0.N, _)

-- Block t of the output is block t of the product: entry (p, q) is row 5000·t + p of the left array against column q of the right.
theorem flushed0_eq (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeros0]
  simp only [View.ld_unit_zero (S := S5000x128) zeros0, View.ld_unit_zero (S := S128x128) zeros0]
  obtain ⟨ea, eb, ee, ef⟩ := idx_facts0 t
  funext y
  obtain ⟨p, q, rfl⟩ : ∃ (p : Fin 5000) (q : Fin 128), y = ix2 p q := ⟨y 0, y 1, eq_ix2 y⟩
  show (k0_pay1 (F := Ideal) _ _ : S5000x128.Idx → EReal) (ix2 p q) = prod0 _ _ _
  unfold k0_pay1
  try simp only [shapeCast_self]
  refine (Cert.LibPlainDot.matmul_plain_apply 5000 128 128 none _ _ p q).trans ?_
  refine Finset.sum_congr rfl fun j _ => congrArg₂ (· * ·) (congrArg (V c (Pipeline.arrRef spec0 0)) (Shape.idx_ext₂ ?_ ?_))
    (congrArg (V c (Pipeline.arrRef spec0 1)) (Shape.idx_ext₂ ?_ ?_))
  · show win0_0.index t 0 * 5000 + 1 * p.val = win0_2.index t 0 * 5000 + 1 * p.val; omega
  · show win0_0.index t 1 * 128 + 1 * j.val = j.val; omega
  · show 0 * 128 + 1 * j.val = j.val; omega
  · show 0 * 128 + 1 * q.val = win0_2.index t 1 * 128 + 1 * q.val; omega

-- Row r lies in block r / 5000, as its row r % 5000.
theorem covered0 (i : S50000x128.Idx) : ∃ t : Fin cfg0.N, (cfg0.win 2).flush t = true ∧ i ∈ ((cfg0.win 2).blk t).view.set := by
  have hr : (i 0).val < 50000 := (i 0).isLt
  obtain ⟨t, ht⟩ : ∃ t : Fin cfg0.N, t.val = (i 0).val / 5000 := ⟨⟨_, by rw [show cfg0.N = 10 from N_0]; omega⟩, rfl⟩
  obtain ⟨-, -, ee, ef⟩ := idx_facts0 t
  exact ⟨t, flush0_2 t, (Shape.idx_ext₂ (show win0_2.index t 0 * 5000 + 1 * ((i 0).val % 5000) = (i 0).val by omega)
    (show win0_2.index t 1 * 128 + 1 * (i 1).val = (i 1).val by omega) :
      ((cfg0.win 2).blk t).view.emb (ix2 ⟨(i 0).val % 5000, Nat.mod_lt _ (by decide)⟩ (i 1)) = i) ▸ View.emb_mem_set _ _⟩

theorem final0_arr (c : Dev nD) :
    (dat0 (F := Ideal) V c).arrAt 2 cfg0.N = prod0 (V c (Pipeline.arrRef spec0 0)) (V c (Pipeline.arrRef spec0 1)) :=
  (dat0 (F := Ideal) V c).arrAt_eq_of_cover 2 _ (fun t _ => flushed0_eq V c t) covered0

end Cert.KernelIdeal.Hand

end
-- ==== Proof.KIVal1V.lean ====
import proofs.«101480_j18889266168017_1_alg».proof.Proof.KIReg1
import proofs.«101480_j18889266168017_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.Sem
open Idealize.ShloMosaic.Pipeline (Dat Cfg Window)

theorem bcol1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay1_2_apply (x0 x1 : Vec Ideal S5000x128 .f32) (x2 : Vec Ideal S5000x1 .f32) (x3 : Vec Ideal S1x128 .f32)
    (y : Fin 5000) (q : Fin 128) :
    (k1_pay2 x0 x1 x2 x3 : S5000x128.Idx → EReal) (ix2 y q)
      = max (((x0 : S5000x128.Idx → EReal) (ix2 y q)
          + (x1 : S5000x128.Idx → EReal) (ix2 y q) * (x2 : S5000x1.Idx → EReal) (ix2 y 0))
          + (x3 : S1x128.Idx → EReal) (ix2 0 q)) 0 := by
  unfold k1_pay2
  simp only [shapeCast_self]
  rw [maximumf_apply, addf_apply, addf_apply, mulf_apply, bcol1_apply, broadcastTo_1b_ab_apply, broadcast_apply]
  exact congrArg (max _) Ideal.ofBits_zero_f32

section Pieces
variable {F : FTy → Type} [FloatOps F]

theorem zeros1 : (![0, 0] : Fin 2 → Nat) = fun _ => 0 := funext fun a => by fin_cases a <;> rfl

variable (c : Dev nD) (i : grid1.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S2x128 .f32) (h6 : a6.IsWhole)
    (x0 x1 : Vec F S5000x128 .f32) (x2 : Vec F S5000x1 .f32) (x3 : Vec F S1x128 .f32)

-- In both branches the first output's block is the same function of the four input blocks.
theorem out1_A_4_eq (hc : cond1_0 i) :
    out1_A_4 c i a1 h1 a2 h2 a3 h3 a4 h4 a5 h5 a6 h6 hc x0 x1 x2 x3 = k1_pay2 x0 x1 x2 x3 := by
  unfold out1_A_4
  rw [View.read_writes_eq_canon _ _ _ (cover1_A_4 c i a1 h1 a2 h2 a3 h3 a4 h4 a5 h5 a6 h6 hc x0 x1 x2 x3)]
  unfold kernelRun1_A
  dsimp only
  sl_unfold_words
  rw [View.canon_unit_zero zeros1]
  simp only [View.readAt_eq_ld, h1.read_unread, h2.read_unread, h3.read_unread, h4.read_unread,
    View.ld_unit_zero (S := S5000x128) zeros1, View.ld_unit_zero (S := S5000x1) zeros1, View.ld_unit_zero (S := S1x128) zeros1]

theorem out1_B_4_eq (hc : ¬cond1_0 i) (xo5 : Vec F S2x128 .f32) :
    out1_B_4 c i a1 h1 a2 h2 a3 h3 a4 h4 a5 h5 a6 h6 hc x0 x1 x2 x3 xo5 = k1_pay2 x0 x1 x2 x3 := by
  unfold out1_B_4
  rw [View.read_writes_eq_canon _ _ _ (cover1_B_4 c i a1 h1 a2 h2 a3 h3 a4 h4 a5 h5 a6 h6 hc x0 x1 x2 x3 xo5)]
  unfold kernelRun1_B
  dsimp only
  sl_unfold_words
  rw [View.canon_unit_zero zeros1]
  simp only [View.readAt_eq_ld, h1.read_unread, h2.read_unread, h3.read_unread, h4.read_unread,
    View.ld_unit_zero (S := S5000x128) zeros1, View.ld_unit_zero (S := S5000x1) zeros1, View.ld_unit_zero (S := S1x128) zeros1]

end Pieces

variable (V : (c : Dev nD) → (b : Ref sig .tc) → Buf (Elt Ideal) ((c : Thread nD τ).loc b))

abbrev agg1 (c : Dev nD) : S50000x128.Idx → EReal := V c (Pipeline.arrRef spec1 0)
abbrev h1in (c : Dev nD) : S50000x128.Idx → EReal := V c (Pipeline.arrRef spec1 1)
abbrev d21 (c : Dev nD) : S50000x1.Idx → EReal := V c (Pipeline.arrRef spec1 2)
abbrev b1in (c : Dev nD) : S1x128.Idx → EReal := V c (Pipeline.arrRef spec1 3)

def val1 (c : Dev nD) (r : Fin 50000) (q : Fin 128) : EReal :=
  max ((agg1 V c (ix2 r q) + h1in V c (ix2 r q) * d21 V c (ix2 r 0)) + b1in V c (ix2 0 q)) 0

def val1Arr (c : Dev nD) : S50000x128.Idx → EReal := fun i => val1 V c (i 0) (i 1)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blk1_lt (t : Fin cfg1.N) (y : Fin 5000) : t.val * 5000 + y.val < 50000 := by
  have := t.isLt; have hN : cfg1.N = 10 := N_1; have := y.isLt; omega

-- A rank-two index is the pair of its coordinates, so it is known once their values are.
theorem blk1_ix2 {n0 n1 : ℕ} {j : (⟨2, ![n0, n1]⟩ : Shape).Idx} {r : Fin n0} {q : Fin n1}
    (h0 : (j 0).val = r.val) (h1 : (j 1).val = q.val) : j = ix2 r q :=
  (eq_ix2 j).trans (congrArg₂ ix2 (Fin.ext h0) (Fin.ext h1))

-- Entry (y, q) of each input's block at point t is the array's entry at row 5000 t + y (the bias row: at row 0).
theorem pay2_blk1 (c : Dev nD) (t : Fin cfg1.N) (y : Fin 5000) (q : Fin 128) :
    (k1_pay2 (iblk1 V c 0 t) (iblk1 V c 1 t) (iblk1 V c 2 t) (iblk1 V c 3 t) : S5000x128.Idx → EReal) (ix2 y q)
      = val1 V c ⟨t.val * 5000 + y.val, blk1_lt t y⟩ q := by
  obtain ⟨e00, e01, e10, e11, e20, e21, e30, e31, -⟩ := idx_facts1 t
  refine (pay1_2_apply (iblk1 V c 0 t) (iblk1 V c 1 t) (iblk1 V c 2 t) (iblk1 V c 3 t) y q).trans ?_
  have b0 : ((cfg1.win 0).blk t).view.emb (ix2 y q) = ix2 ⟨_, blk1_lt t y⟩ q := blk1_ix2
    (show win1_0.index t (0 : Fin 2) * 5000 + 1 * y.val = t.val * 5000 + y.val by omega)
    (show win1_0.index t (1 : Fin 2) * 128 + 1 * q.val = q.val by omega)
  have b1 : ((cfg1.win 1).blk t).view.emb (ix2 y q) = ix2 ⟨_, blk1_lt t y⟩ q := blk1_ix2
    (show win1_1.index t (0 : Fin 2) * 5000 + 1 * y.val = t.val * 5000 + y.val by omega)
    (show win1_1.index t (1 : Fin 2) * 128 + 1 * q.val = q.val by omega)
  have b2 : ((cfg1.win 2).blk t).view.emb (ix2 y 0) = ix2 ⟨_, blk1_lt t y⟩ 0 := blk1_ix2
    (show win1_2.index t (0 : Fin 2) * 5000 + 1 * y.val = t.val * 5000 + y.val by omega)
    (show win1_2.index t (1 : Fin 2) * 1 + 1 * 0 = 0 by omega)
  have b3 : ((cfg1.win 3).blk t).view.emb (ix2 0 q) = ix2 0 q := blk1_ix2
    (show win1_3.index t (0 : Fin 2) * 1 + 1 * 0 = 0 by omega)
    (show win1_3.index t (1 : Fin 2) * 128 + 1 * q.val = q.val by omega)
  exact congrArg (fun z : EReal => max z 0)
    (congrArg₂ (fun u v : EReal => u + v)
      (congrArg₂ (fun u v : EReal => u + v) (congrArg (agg1 V c) b0)
        (congrArg₂ (fun u v : EReal => u * v) (congrArg (h1in V c) b1) (congrArg (d21 V c) b2)))
      (congrArg (b1in V c) b3))

theorem after1_4_eq (c : Dev nD) (t : Fin cfg1.N) :
    (dat1 (F := Ideal) V c).after 4 t = k1_pay2 (iblk1 V c 0 t) (iblk1 V c 1 t) (iblk1 V c 2 t) (iblk1 V c 3 t) := by
  rw [after1_4]
  by_cases h0 : t.val % 10 = 0
  · rw [outsAt1_A V c t h0]
    dsimp only
    exact out1_A_4_eq (F := Ideal) ..
  · rw [outsAt1_B V c t h0]
    dsimp only
    exact out1_B_4_eq (F := Ideal) ..

-- Point t's output block is block t of the array of values.
theorem flushed1_4_eq (c : Dev nD) (t : Fin cfg1.N) :
    (dat1 (F := Ideal) V c).flushed 4 t = ((cfg1.win 4).blk t).view.read (Elt Ideal) (val1Arr V c) := by
  show (cfg1.win 4).cut (grid1.coords t) ((dat1 (F := Ideal) V c).after 4 t) = _
  rw [after1_4_eq]
  obtain ⟨-, -, -, -, -, -, -, -, e40, e41⟩ := idx_facts1 t
  funext j
  obtain ⟨p, q, rfl⟩ : ∃ (p : Fin 5000) (q : Fin 128), j = ix2 p q := ⟨j 0, j 1, eq_ix2 j⟩
  have b4 : ((cfg1.win 4).blk t).view.emb (ix2 p q) = ix2 ⟨_, blk1_lt t p⟩ q := blk1_ix2
    (show win1_4.index t (0 : Fin 2) * 5000 + 1 * p.val = t.val * 5000 + p.val by omega)
    (show win1_4.index t (1 : Fin 2) * 128 + 1 * q.val = q.val by omega)
  exact (pay2_blk1 V c t p q).trans (congrArg (val1Arr V c) b4).symm

-- Row r lies in the block of point r / 5000.
theorem covered1_4 (i : S50000x128.Idx) : ∃ t : Fin cfg1.N, (cfg1.win 4).flush t = true ∧ i ∈ ((cfg1.win 4).blk t).view.set := by
  have hr : (i 0).val < 50000 := (i 0).isLt
  have hc : (i 1).val < 128 := (i 1).isLt
  have hN : cfg1.N = 10 := N_1
  have ht : (i 0).val / 5000 < cfg1.N := by rw [hN]; omega
  refine ⟨⟨_, ht⟩, flush1_4 _, ?_⟩
  obtain ⟨-, -, -, -, -, -, -, -, e40, e41⟩ := idx_facts1 ⟨_, ht⟩
  show i ∈ ((View.whole (Pipeline.arrRef spec1 4)).slice (win1_4.rect ⟨_, ht⟩)).set
  rw [View.set_slice_whole, Rect.mem_set_unit]
  intro a
  match a with
  | ⟨0, _⟩ => show win1_4.index _ (0 : Fin 2) * 5000 ≤ (i 0).val ∧ (i 0).val < win1_4.index _ (0 : Fin 2) * 5000 + 5000; rw [e40]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e41]; omega

theorem final1_val (c : Dev nD) (r : Fin 50000) (q : Fin 128) :
    ((dat1 (F := Ideal) V c).arrAt 4 cfg1.N : S50000x128.Idx → EReal) (ix2 r q) = val1 V c r q :=
  congrFun ((dat1 (F := Ideal) V c).arrAt_eq_of_cover 4 _ (fun t _ => flushed1_4_eq V c t) covered1_4) (ix2 r q)

end Cert.KernelIdeal.Hand

end
-- ==== Proof.KIVal1.lean ====
import proofs.«101480_j18889266168017_1_alg».proof.Proof.KIVal1V
import proofs.«101480_j18889266168017_1_alg».proof.Proof.LayerMath
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)

section Pieces
variable {F : FTy → Type} [FloatOps F]

abbrev srow1_0 : Rect S2x128 := Rect.unit (s := S2x128) ![0, 0] S1x128.size inb_S2x128_S1x128_0_0
abbrev srow1_1 : Rect S2x128 := Rect.unit (s := S2x128) ![1, 0] S1x128.size inb_S2x128_S1x128_1_0
abbrev sall1 : Rect S2x128 := Rect.unit (s := S2x128) ![0, 0] S2x128.size inb_S2x128_S2x128_0_0

theorem srow1_0_emb (q : Fin 128) : srow1_0.emb (ix2 (0 : Fin 1) q) = ix2 (0 : Fin 2) q :=
  funext fun a => Fin.ext <| match a with
    | ⟨0, _⟩ => rfl
    | ⟨1, _⟩ => show 0 + 1 * q.val = q.val by omega
theorem srow1_1_emb (q : Fin 128) : srow1_1.emb (ix2 (0 : Fin 1) q) = ix2 (1 : Fin 2) q :=
  funext fun a => Fin.ext <| match a with
    | ⟨0, _⟩ => rfl
    | ⟨1, _⟩ => show 0 + 1 * q.val = q.val by omega

theorem srow1_disjoint : Disjoint srow1_0.set srow1_1.set :=
  Rect.unit_disjoint (0 : Fin 2) (.inl (by decide))

-- Rows 0 and 1 are disjoint, so at an entry of row 0 a piece on row 1 contributes nothing.
theorem canon_skip_srow1_1 (w : srow1_1.shape.Idx → Elt F .f32) (L : List (View.Piece (Elt F) S2x128 .f32)) (q : Fin 128) :
    View.canon (⟨srow1_1, w⟩ :: L) (ix2 (0 : Fin 2) q) = View.canon L (ix2 (0 : Fin 2) q) :=
  View.canon_cons_of_not_mem ⟨srow1_1, w⟩ L fun h =>
    Finset.disjoint_left.mp srow1_disjoint (by rw [← srow1_0_emb q]; exact srow1_0.idx_mem _) h

-- Over z everywhere with row 0 replaced, row 1 is still row 1 of z.
theorem readCov_srow1_1 (v : View sig .tc .vmem S2x128 .f32) (w : srow1_0.shape.Idx → Elt F .f32) (z : Vec F S2x128 .f32) :
    v.readCov [⟨srow1_0, w⟩, ⟨sall1, z⟩] srow1_1.toLoadRect = View.ld z srow1_1 := by
  rw [View.readCov_eq_canon']
  funext j
  exact (View.canon_cons_of_not_mem ⟨srow1_0, w⟩ [⟨sall1, z⟩]
      (fun h => Finset.disjoint_left.mp srow1_disjoint h (srow1_1.idx_mem j))).trans
    (congrFun (View.canon_unit_zero zeros1 inb_S2x128_S2x128_0_0 z) _)

theorem readCov_srow1_0 (v : View sig .tc .vmem S2x128 .f32) (z : Vec F S2x128 .f32) :
    v.readCov [⟨sall1, z⟩] srow1_0.toLoadRect = View.ld z srow1_0 := by
  rw [View.readCov_eq_canon']
  funext j
  exact congrFun (View.canon_unit_zero zeros1 inb_S2x128_S2x128_0_0 z) _

variable (c : Dev nD) (i : grid1.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S2x128 .f32) (h6 : a6.IsWhole)
    (x0 x1 : Vec F S5000x128 .f32) (x2 : Vec F S5000x1 .f32) (x3 : Vec F S1x128 .f32)

-- At the first point each row is its update applied to the zero row.
theorem out1_A_5_rows (hc : cond1_0 i) (q : Fin 128) :
    out1_A_5 c i a1 h1 a2 h2 a3 h3 a4 h4 a5 h5 a6 h6 hc x0 x1 x2 x3 (ix2 (0 : Fin 2) q)
        = k1_pay3 x0 x1 x2 x3 (View.ld (k1_pay1 (F := F)) srow1_0) (ix2 (0 : Fin 1) q)
    ∧ out1_A_5 c i a1 h1 a2 h2 a3 h3 a4 h4 a5 h5 a6 h6 hc x0 x1 x2 x3 (ix2 (1 : Fin 2) q)
        = k1_pay4 x0 x1 x2 x3 (View.ld (k1_pay1 (F := F)) srow1_1) (ix2 (0 : Fin 1) q) := by
  unfold out1_A_5
  rw [View.read_writes_eq_canon _ _ _ (cover1_A_5 c i a1 h1 a2 h2 a3 h3 a4 h4 a5 h5 a6 h6 hc x0 x1 x2 x3)]
  unfold kernelRun1_A
  dsimp only
  sl_unfold_words
  simp only [View.readAt_eq_ld, h1.read_unread, h2.read_unread, h3.read_unread, h4.read_unread,
    View.ld_unit_zero (S := S5000x128) zeros1, View.ld_unit_zero (S := S5000x1) zeros1,
    View.ld_unit_zero (S := S1x128) zeros1]
  constructor
  · rw [canon_skip_srow1_1, ← srow1_0_emb q, View.canon_cons_emb]
    exact congrArg (fun v => k1_pay3 x0 x1 x2 x3 v (ix2 (0 : Fin 1) q)) (readCov_srow1_0 a6.view k1_pay1)
  · rw [← srow1_1_emb q, View.canon_cons_emb]
    exact congrArg (fun v => k1_pay4 x0 x1 x2 x3 v (ix2 (0 : Fin 1) q)) (readCov_srow1_1 a6.view _ k1_pay1)

-- At a later point each row is its update applied to that row of the previous contents xo5.
theorem out1_B_5_rows (hc : ¬cond1_0 i) (xo5 : Vec F S2x128 .f32) (q : Fin 128) :
    out1_B_5 c i a1 h1 a2 h2 a3 h3 a4 h4 a5 h5 a6 h6 hc x0 x1 x2 x3 xo5 (ix2 (0 : Fin 2) q)
        = k1_pay3 x0 x1 x2 x3 (View.ld xo5 srow1_0) (ix2 (0 : Fin 1) q)
    ∧ out1_B_5 c i a1 h1 a2 h2 a3 h3 a4 h4 a5 h5 a6 h6 hc x0 x1 x2 x3 xo5 (ix2 (1 : Fin 2) q)
        = k1_pay4 x0 x1 x2 x3 (View.ld xo5 srow1_1) (ix2 (0 : Fin 1) q) := by
  unfold out1_B_5
  rw [View.read_writes_eq_canon _ _ _ (cover1_B_5 c i a1 h1 a2 h2 a3 h3 a4 h4 a5 h5 a6 h6 hc x0 x1 x2 x3 xo5)]
  unfold kernelRun1_B
  dsimp only
  sl_unfold_words
  simp only [View.readAt_eq_ld, h1.read_unread, h2.read_unread, h3.read_unread, h4.read_unread, h6.read_unread,
    View.ld_unit_zero (S := S5000x128) zeros1, View.ld_unit_zero (S := S5000x1) zeros1,
    View.ld_unit_zero (S := S1x128) zeros1]
  constructor
  · rw [canon_skip_srow1_1, ← srow1_0_emb q, View.canon_cons_emb]
  · rw [← srow1_1_emb q, View.canon_cons_emb]

end Pieces

theorem pay1_1_apply (i : S2x128.Idx) : ((k1_pay1 (F := Ideal)) : S2x128.Idx → EReal) i = 0 := by
  unfold k1_pay1
  exact Ideal.ofBits_zero_f32

theorem lift1s (q : Fin 128) (y : Fin 5000) : reduces_S5000x128_S128.lift (ix1 q) y = ix2 y q :=
  funext fun a => Fin.ext <| match a with
    | ⟨0, _⟩ => rfl
    | ⟨1, _⟩ => rfl

-- Row 0's update at column q adds the block's column sum to the carried entry; row 1's, the column sum of squares.
theorem pay1_3_apply (x0 x1 : Vec Ideal S5000x128 .f32) (x2 : Vec Ideal S5000x1 .f32) (x3 : Vec Ideal S1x128 .f32)
    (v : Vec Ideal S1x128 .f32) (q : Fin 128) :
    (k1_pay3 x0 x1 x2 x3 v : S1x128.Idx → EReal) (ix2 (0 : Fin 1) q)
      = (v : S1x128.Idx → EReal) (ix2 (0 : Fin 1) q)
        + ∑ y : Fin 5000, (k1_pay2 x0 x1 x2 x3 : S5000x128.Idx → EReal) (ix2 y q) := by
  unfold k1_pay3
  simp only [shapeCast_self]
  refine (addf_apply _ _ _).trans ?_
  refine congrArg (fun z => (v : S1x128.Idx → EReal) (ix2 (0 : Fin 1) q) + z) ?_
  refine (shapeCast_a_1a_apply _ shapeCasts_S128_S1x128 (0 : Fin 1) q).trans ?_
  refine (Ideal.multiReduction_add_single (k1_pay2 x0 x1 x2 x3) 0x00000000#32 reduces_S5000x128_S128 (.inl rfl) rfl (ix1 q)).trans ?_
  exact Finset.sum_congr rfl fun y _ => congrArg (k1_pay2 x0 x1 x2 x3) (lift1s q y)

theorem pay1_4_apply (x0 x1 : Vec Ideal S5000x128 .f32) (x2 : Vec Ideal S5000x1 .f32) (x3 : Vec Ideal S1x128 .f32)
    (v : Vec Ideal S1x128 .f32) (q : Fin 128) :
    (k1_pay4 x0 x1 x2 x3 v : S1x128.Idx → EReal) (ix2 (0 : Fin 1) q)
      = (v : S1x128.Idx → EReal) (ix2 (0 : Fin 1) q)
        + ∑ y : Fin 5000, (k1_pay2 x0 x1 x2 x3 : S5000x128.Idx → EReal) (ix2 y q)
            * (k1_pay2 x0 x1 x2 x3 : S5000x128.Idx → EReal) (ix2 y q) := by
  unfold k1_pay4
  simp only [shapeCast_self]
  refine (addf_apply _ _ _).trans ?_
  refine congrArg (fun z => (v : S1x128.Idx → EReal) (ix2 (0 : Fin 1) q) + z) ?_
  refine (shapeCast_a_1a_apply _ shapeCasts_S128_S1x128 (0 : Fin 1) q).trans ?_
  refine (Ideal.multiReduction_add_single (mulf (k1_pay2 x0 x1 x2 x3) (k1_pay2 x0 x1 x2 x3)) 0x00000000#32
    reduces_S5000x128_S128 (.inl rfl) rfl (ix1 q)).trans ?_
  exact Finset.sum_congr rfl fun y _ => (mulf_apply _ _ _).trans (by rw [lift1s q y])

theorem st1_pred_lt (t : Fin cfg1.N) : t.val - 1 < cfg1.N := Nat.lt_of_le_of_lt (Nat.sub_le _ _) t.isLt

variable (V : (c : Dev nD) → (b : Ref sig .tc) → Buf (Elt Ideal) ((c : Thread nD τ).loc b))

abbrev bv1 (c : Dev nD) (t : Fin cfg1.N) : S5000x128.Idx → EReal :=
  k1_pay2 (iblk1 V c 0 t) (iblk1 V c 1 t) (iblk1 V c 2 t) (iblk1 V c 3 t)

def st1 (c : Dev nD) (n : ℕ) (hn : n < cfg1.N) : S2x128.Idx → EReal := (outsAt1 V c n hn).2

theorem after1_5_st (c : Dev nD) (t : Fin cfg1.N) : (dat1 (F := Ideal) V c).after 5 t = st1 V c t.val t.isLt :=
  after1_5 V c t

theorem st1_congr (c : Dev nD) {n n' : ℕ} (h : n = n') (hn : n < cfg1.N) (hn' : n' < cfg1.N) :
    st1 V c n hn = st1 V c n' hn' := by
  subst h; rfl

-- After the first point each row holds zero plus its block sum.
theorem st1_A_rows (c : Dev nD) (t : Fin cfg1.N) (h0 : t.val % 10 = 0) (q : Fin 128) :
    st1 V c t.val t.isLt (ix2 (0 : Fin 2) q) = 0 + ∑ y : Fin 5000, bv1 V c t (ix2 y q)
    ∧ st1 V c t.val t.isLt (ix2 (1 : Fin 2) q) = 0 + ∑ y : Fin 5000, bv1 V c t (ix2 y q) * bv1 V c t (ix2 y q) := by
  unfold st1
  rw [outsAt1_A V c t h0]
  dsimp only
  exact ⟨(out1_A_5_rows (F := Ideal) ..).1.trans ((pay1_3_apply ..).trans
      (congrArg (fun z : EReal => z + _) (pay1_1_apply _))),
    (out1_A_5_rows (F := Ideal) ..).2.trans ((pay1_4_apply ..).trans
      (congrArg (fun z : EReal => z + _) (pay1_1_apply _)))⟩

-- After a later point each row holds what it held after the point before plus its block sum.
theorem st1_B_rows (c : Dev nD) (t : Fin cfg1.N) (h0 : ¬t.val % 10 = 0) (q : Fin 128) :
    st1 V c t.val t.isLt (ix2 (0 : Fin 2) q)
        = st1 V c (t.val - 1) (st1_pred_lt t) (ix2 (0 : Fin 2) q)
          + ∑ y : Fin 5000, bv1 V c t (ix2 y q)
    ∧ st1 V c t.val t.isLt (ix2 (1 : Fin 2) q)
        = st1 V c (t.val - 1) (st1_pred_lt t) (ix2 (1 : Fin 2) q)
          + ∑ y : Fin 5000, bv1 V c t (ix2 y q) * bv1 V c t (ix2 y q) := by
  unfold st1
  rw [outsAt1_B V c t h0]
  dsimp only
  exact ⟨(out1_B_5_rows (F := Ideal) ..).1.trans ((pay1_3_apply ..).trans
      (congrArg (fun z : EReal => z + _) (congrArg (outsAt1 V c (t.val - 1) _).2 (srow1_0_emb q)))),
    (out1_B_5_rows (F := Ideal) ..).2.trans ((pay1_4_apply ..).trans
      (congrArg (fun z : EReal => z + _) (congrArg (outsAt1 V c (t.val - 1) _).2 (srow1_1_emb q))))⟩

attribute [irreducible] st1

def sfin1 (c : Dev nD) : S2x128.Idx → EReal := st1 V c 9 (by rw [show cfg1.N = 10 from N_1]; decide)

-- Ten block sums of g over the values, added one after another from zero, are the sum of g over all 50000 rows.
theorem sfin1_row (c : Dev nD) (p : Fin 2) (g : EReal → EReal) (q : Fin 128)
    (hA : ∀ t : Fin cfg1.N, t.val % 10 = 0 →
      st1 V c t.val t.isLt (ix2 p q) = 0 + ∑ y : Fin 5000, g (bv1 V c t (ix2 y q)))
    (hB : ∀ t : Fin cfg1.N, ¬t.val % 10 = 0 →
      st1 V c t.val t.isLt (ix2 p q) = st1 V c (t.val - 1) (st1_pred_lt t) (ix2 p q)
        + ∑ y : Fin 5000, g (bv1 V c t (ix2 y q))) :
    sfin1 V c (ix2 p q) = ∑ r : Fin 50000, g (val1 V c r q) := by
  have hN : cfg1.N = 10 := N_1
  have h9 : 9 < cfg1.N := by rw [hN]; decide
  have key := Cert.Spec.acc_rows' (fun r => g (val1 V c r q))
    (fun n => if hn : n < cfg1.N then st1 V c n hn (ix2 p q) else 0)
    (fun n => if hn : n < cfg1.N then ∑ y : Fin 5000, g (bv1 V c ⟨n, hn⟩ (ix2 y q)) else 0)
    (fun t => by
      have ht : t.val < cfg1.N := by rw [hN]; exact t.isLt
      rw [dif_pos ht]
      exact Finset.sum_congr rfl fun y _ => congrArg g (pay2_blk1 V c ⟨t.val, ht⟩ y q))
    (by
      have h : 0 < cfg1.N := by rw [hN]; decide
      rw [dif_pos h, dif_pos h]
      exact hA ⟨0, h⟩ (Nat.zero_mod 10))
    (fun n hn => by
      have h1 : n + 1 < cfg1.N := by rw [hN]; omega
      have h0 : n < cfg1.N := by rw [hN]; omega
      rw [dif_pos h1, dif_pos h0, dif_pos h1]
      exact hB ⟨n + 1, h1⟩ (by show ¬(n + 1) % 10 = 0; omega))
  rw [dif_pos h9] at key
  exact key

theorem idx_facts1s : ∀ t : Fin cfg1.N, win1_5.index t (0 : Fin 2) = 0 ∧ win1_5.index t (1 : Fin 2) = 0 :=
  (by decide +kernel : ∀ t : Fin grid1.N, _)

-- The statistics window's one block is the whole array, so the array at the end is the two rows after the last point.
theorem flushed1_5_eq (c : Dev nD) (t : Fin cfg1.N) (hf : (cfg1.win 5).flush t = true) :
    (dat1 (F := Ideal) V c).flushed 5 t = ((cfg1.win 5).blk t).view.read (Elt Ideal) (sfin1 V c) := by
  have hN : cfg1.N = 10 := N_1
  have h9 : t.val = 9 := by have := (flush1_5 t).mp hf; have := t.isLt; omega
  obtain ⟨e0, e1⟩ := idx_facts1s t
  show (cfg1.win 5).cut (grid1.coords t) ((dat1 (F := Ideal) V c).after 5 t) = _
  rw [after1_5_st]
  funext y
  obtain ⟨p, q, rfl⟩ : ∃ (p : Fin 2) (q : Fin 128), y = ix2 p q := ⟨y 0, y 1, eq_ix2 y⟩
  show st1 V c t.val t.isLt (ix2 p q) = sfin1 V c (((cfg1.win 5).blk t).view.emb (ix2 p q))
  have he : ((cfg1.win 5).blk t).view.emb (ix2 p q) = ix2 p q := funext fun a => Fin.ext <| match a with
    | ⟨0, _⟩ => show win1_5.index t (0 : Fin 2) * 2 + 1 * p.val = p.val by omega
    | ⟨1, _⟩ => show win1_5.index t (1 : Fin 2) * 128 + 1 * q.val = q.val by omega
  rw [he]
  unfold sfin1
  exact congrFun (st1_congr V c h9 t.isLt _) (ix2 p q)

theorem covered1_5 (i : S2x128.Idx) : ∃ t : Fin cfg1.N, (cfg1.win 5).flush t = true ∧ i ∈ ((cfg1.win 5).blk t).view.set := by
  have hr : (i 0).val < 2 := (i 0).isLt
  have hc : (i 1).val < 128 := (i 1).isLt
  refine ⟨t1_9, (flush1_5 t1_9).mpr rfl, ?_⟩
  obtain ⟨e0, e1⟩ := idx_facts1s t1_9
  show i ∈ ((View.whole (Pipeline.arrRef spec1 5)).slice (win1_5.rect t1_9)).set
  rw [View.set_slice_whole, Rect.mem_set_unit]
  intro a
  match a with
  | ⟨0, _⟩ => show win1_5.index _ (0 : Fin 2) * 2 ≤ (i 0).val ∧ (i 0).val < win1_5.index _ (0 : Fin 2) * 2 + 2; rw [e0]; omega
  | ⟨1, _⟩ => show win1_5.index _ (1 : Fin 2) * 128 ≤ (i 1).val ∧ (i 1).val < win1_5.index _ (1 : Fin 2) * 128 + 128; rw [e1]; omega

theorem final1s_arr (c : Dev nD) : (dat1 (F := Ideal) V c).arrAt 5 cfg1.N = sfin1 V c :=
  (dat1 (F := Ideal) V c).arrAt_eq_of_cover 5 _ (flushed1_5_eq V c) covered1_5

theorem final1_sum (c : Dev nD) (q : Fin 128) :
    ((dat1 (F := Ideal) V c).arrAt 5 cfg1.N : S2x128.Idx → EReal) (ix2 (0 : Fin 2) q) = ∑ r : Fin 50000, val1 V c r q :=
  (congrFun (final1s_arr V c) (ix2 (0 : Fin 2) q)).trans
    (sfin1_row V c 0 (fun z => z) q (fun t h => (st1_A_rows V c t h q).1) (fun t h => (st1_B_rows V c t h q).1))

theorem final1_sumsq (c : Dev nD) (q : Fin 128) :
    ((dat1 (F := Ideal) V c).arrAt 5 cfg1.N : S2x128.Idx → EReal) (ix2 (1 : Fin 2) q)
      = ∑ r : Fin 50000, val1 V c r q * val1 V c r q :=
  (congrFun (final1s_arr V c) (ix2 (1 : Fin 2) q)).trans
    (sfin1_row V c 1 (fun z => z * z) q (fun t h => (st1_A_rows V c t h q).2) (fun t h => (st1_B_rows V c t h q).2))

end Cert.KernelIdeal.Hand

end
-- ==== Proof.KIVal2.lean ====
import proofs.«101480_j18889266168017_1_alg».proof.Proof.KIReg2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

theorem rsqrt2_apply {s : Shape} (a : FVec Ideal s .f32) (i : s.Idx) : rsqrt a i = Ideal.rsqrt (a i) := rfl

theorem zeros2 : (![0, 0] : Fin 2 → Nat) = fun _ => 0 := funext fun a => by fin_cases a <;> rfl

variable (V : (c : Dev nD) → (b : Ref sig .tc) → Buf (Elt Ideal) ((c : Thread nD τ).loc b))

abbrev val2in (c : Dev nD) : S50000x128.Idx → EReal := V c (Pipeline.arrRef spec2 0)
abbrev mean2in (c : Dev nD) : S1x128.Idx → EReal := V c (Pipeline.arrRef spec2 1)
abbrev var2in (c : Dev nD) : S1x128.Idx → EReal := V c (Pipeline.arrRef spec2 2)
abbrev g2in (c : Dev nD) : S1x128.Idx → EReal := V c (Pipeline.arrRef spec2 3)
abbrev be2in (c : Dev nD) : S1x128.Idx → EReal := V c (Pipeline.arrRef spec2 4)

def bn2 (c : Dev nD) (r : Fin 50000) (q : Fin 128) : EReal :=
  g2in V c (ix2 0 q) * (val2in V c (ix2 r q) - mean2in V c (ix2 0 q))
      * Ideal.rsqrt (var2in V c (ix2 0 q) + Ideal.ofBits .f32 0x3727C5AC#32)
    + be2in V c (ix2 0 q)

def bn2Arr (c : Dev nD) : S50000x128.Idx → EReal := fun i => bn2 V c (i 0) (i 1)

theorem idx_facts2 : ∀ t : Fin cfg2.N,
    win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

-- Block t of the output is block t of the normalised array: each row's block is the row itself, and row p of the values' block is row 5000·t + p.
theorem flushed2_5_eq (c : Dev nD) (t : Fin cfg2.N) :
    (dat2 (F := Ideal) V c).flushed 5 t = ((cfg2.win 5).blk t).view.read (Elt Ideal) (bn2Arr V c) := by
  show (cfg2.win 5).cut (grid2.coords t) ((dat2 (F := Ideal) V c).after 5 t) = _
  rw [after2_5]
  unfold out2_5
  rw [View.canon_unit_zero zeros2]
  simp only [View.ld_unit_zero (S := S5000x128) zeros2, View.ld_unit_zero (S := S1x128) zeros2]
  obtain ⟨e00, e01, e50, e51⟩ := idx_facts2 t
  funext y
  obtain ⟨p, q, rfl⟩ : ∃ (p : Fin 5000) (q : Fin 128), y = ix2 p q := ⟨y 0, y 1, eq_ix2 y⟩
  show (k2_pay1 (F := Ideal) _ _ _ _ _ : S5000x128.Idx → EReal) (ix2 p q) = bn2 V c _ _
  unfold k2_pay1
  simp only [shapeCast_self]
  rw [addf_apply, mulf_apply, mulf_apply, subf_apply, broadcastTo_1b_ab_apply, broadcastTo_1b_ab_apply,
    broadcastTo_1b_ab_apply, broadcastTo_1b_ab_apply, rsqrt2_apply, addf_apply, broadcast_apply]
  refine congrArg₂ (· + ·) (congrArg₂ (· * ·) (congrArg₂ (· * ·) (congrArg (g2in V c) (Shape.idx_ext₂ ?_ ?_))
      (congrArg₂ (· - ·) (congrArg (val2in V c) (Shape.idx_ext₂
          (by show win2_0.index t 0 * 5000 + 1 * p.val = win2_5.index t 0 * 5000 + 1 * p.val; omega)
          (by show win2_0.index t 1 * 128 + 1 * q.val = win2_5.index t 1 * 128 + 1 * q.val; omega)))
        (congrArg (mean2in V c) (Shape.idx_ext₂ ?_ ?_))))
    (congrArg (fun u : EReal => Ideal.rsqrt (u + _)) (congrArg (var2in V c) (Shape.idx_ext₂ ?_ ?_))))
    (congrArg (be2in V c) (Shape.idx_ext₂ ?_ ?_))
  iterate 4
    · show 0 * 1 + 1 * 0 = 0; rfl
    · show 0 * 128 + 1 * q.val = win2_5.index t 1 * 128 + 1 * q.val; omega

-- Row r lies in block r / 5000, as its row r % 5000.
theorem covered2_5 (i : S50000x128.Idx) : ∃ t : Fin cfg2.N, (cfg2.win 5).flush t = true ∧ i ∈ ((cfg2.win 5).blk t).view.set := by
  have hr : (i 0).val < 50000 := (i 0).isLt
  obtain ⟨t, ht⟩ : ∃ t : Fin cfg2.N, t.val = (i 0).val / 5000 := ⟨⟨_, by rw [show cfg2.N = 10 from N_2]; omega⟩, rfl⟩
  obtain ⟨-, -, e50, e51⟩ := idx_facts2 t
  exact ⟨t, flush2_5 t, (Shape.idx_ext₂ (show win2_5.index t 0 * 5000 + 1 * ((i 0).val % 5000) = (i 0).val by omega)
    (show win2_5.index t 1 * 128 + 1 * (i 1).val = (i 1).val by omega) :
      ((cfg2.win 5).blk t).view.emb (ix2 ⟨(i 0).val % 5000, Nat.mod_lt _ (by decide)⟩ (i 1)) = i) ▸ View.emb_mem_set _ _⟩

theorem final2 (c : Dev nD) (r : Fin 50000) (q : Fin 128) :
    ((dat2 (F := Ideal) V c).arrAt 5 cfg2.N : S50000x128.Idx → EReal) (ix2 r q) = bn2 V c r q :=
  congrFun ((dat2 (F := Ideal) V c).arrAt_eq_of_cover 5 (bn2Arr V c) (fun t _ => flushed2_5_eq V c t) covered2_5) (ix2 r q)

end Cert.KernelIdeal.Hand

end
-- ==== Proof.KIVal3.lean ====
import proofs.«101480_j18889266168017_1_alg».proof.Proof.KIReg3
import proofs.«101480_j18889266168017_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

theorem zeros3 : (![0, 0] : Fin 2 → Nat) = fun _ => 0 := funext fun a => by fin_cases a <;> rfl

def prod3 (A : S50000x128.Idx → EReal) (B : S128x128.Idx → EReal) : S50000x128.Idx → EReal :=
  fun i => ∑ j : Fin 128, A (@ix2 50000 128 (i 0) j) * B (@ix2 128 128 j (i 1))

theorem idx_facts3 : ∀ t : Fin cfg3.N,
    win3_0.index t (0 : Fin 2) = t.val ∧ win3_0.index t (1 : Fin 2) = 0
    ∧ win3_2.index t (0 : Fin 2) = t.val ∧ win3_2.index t (1 : Fin 2) = 0 :=
  (by decide +kernel : ∀ t : Fin grid3.N, _)

-- Block t of the output is block t of the product: entry (p, q) is row 5000·t + p of the left array against column q of the right.
theorem flushed3_eq (c : Dev nD) (t : Fin cfg3.N) :
    (dat3 (F := Ideal) V c).flushed 2 t
      = ((cfg3.win 2).blk t).view.read (Elt Ideal) (prod3 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero zeros3]
  simp only [View.ld_unit_zero (S := S5000x128) zeros3, View.ld_unit_zero (S := S128x128) zeros3]
  obtain ⟨ea, eb, ee, ef⟩ := idx_facts3 t
  funext y
  obtain ⟨p, q, rfl⟩ : ∃ (p : Fin 5000) (q : Fin 128), y = ix2 p q := ⟨y 0, y 1, eq_ix2 y⟩
  show (k3_pay1 (F := Ideal) _ _ : S5000x128.Idx → EReal) (ix2 p q) = prod3 _ _ _
  unfold k3_pay1
  try simp only [shapeCast_self]
  refine (Cert.LibPlainDot.matmul_plain_apply 5000 128 128 none _ _ p q).trans ?_
  refine Finset.sum_congr rfl fun j _ => congrArg₂ (· * ·) (congrArg (V c (Pipeline.arrRef spec3 0)) (Shape.idx_ext₂ ?_ ?_))
    (congrArg (V c (Pipeline.arrRef spec3 1)) (Shape.idx_ext₂ ?_ ?_))
  · show win3_0.index t 0 * 5000 + 1 * p.val = win3_2.index t 0 * 5000 + 1 * p.val; omega
  · show win3_0.index t 1 * 128 + 1 * j.val = j.val; omega
  · show 0 * 128 + 1 * j.val = j.val; omega
  · show 0 * 128 + 1 * q.val = win3_2.index t 1 * 128 + 1 * q.val; omega

-- Row r lies in block r / 5000, as its row r % 5000.
theorem covered3 (i : S50000x128.Idx) : ∃ t : Fin cfg3.N, (cfg3.win 2).flush t = true ∧ i ∈ ((cfg3.win 2).blk t).view.set := by
  have hr : (i 0).val < 50000 := (i 0).isLt
  obtain ⟨t, ht⟩ : ∃ t : Fin cfg3.N, t.val = (i 0).val / 5000 := ⟨⟨_, by rw [show cfg3.N = 10 from N_3]; omega⟩, rfl⟩
  obtain ⟨-, -, ee, ef⟩ := idx_facts3 t
  exact ⟨t, flush3_2 t, (Shape.idx_ext₂ (show win3_2.index t 0 * 5000 + 1 * ((i 0).val % 5000) = (i 0).val by omega)
    (show win3_2.index t 1 * 128 + 1 * (i 1).val = (i 1).val by omega) :
      ((cfg3.win 2).blk t).view.emb (ix2 ⟨(i 0).val % 5000, Nat.mod_lt _ (by decide)⟩ (i 1)) = i) ▸ View.emb_mem_set _ _⟩

theorem final3_arr (c : Dev nD) :
    (dat3 (F := Ideal) V c).arrAt 2 cfg3.N = prod3 (V c (Pipeline.arrRef spec3 0)) (V c (Pipeline.arrRef spec3 1)) :=
  (dat3 (F := Ideal) V c).arrAt_eq_of_cover 2 _ (fun t _ => flushed3_eq V c t) covered3

end Cert.KernelIdeal.Hand

end
-- ==== Proof.KIVal4V.lean ====
import proofs.«101480_j18889266168017_1_alg».proof.Proof.KIReg4
import proofs.«101480_j18889266168017_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.Sem
open Idealize.ShloMosaic.Pipeline (Dat Cfg Window)

theorem bcol4_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay4_2_apply (x0 x1 : Vec Ideal S5000x128 .f32) (x2 : Vec Ideal S5000x1 .f32) (x3 : Vec Ideal S1x128 .f32)
    (y : Fin 5000) (q : Fin 128) :
    (k4_pay2 x0 x1 x2 x3 : S5000x128.Idx → EReal) (ix2 y q)
      = max (((x0 : S5000x128.Idx → EReal) (ix2 y q)
          + (x1 : S5000x128.Idx → EReal) (ix2 y q) * (x2 : S5000x1.Idx → EReal) (ix2 y 0))
          + (x3 : S1x128.Idx → EReal) (ix2 0 q)) 0 := by
  unfold k4_pay2
  simp only [shapeCast_self]
  rw [maximumf_apply, addf_apply, addf_apply, mulf_apply, bcol4_apply, broadcastTo_1b_ab_apply, broadcast_apply]
  exact congrArg (max _) Ideal.ofBits_zero_f32

section Pieces
variable {F : FTy → Type} [FloatOps F]

theorem zeros4 : (![0, 0] : Fin 2 → Nat) = fun _ => 0 := funext fun a => by fin_cases a <;> rfl

variable (c : Dev nD) (i : grid4.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S2x128 .f32) (h6 : a6.IsWhole)
    (x0 x1 : Vec F S5000x128 .f32) (x2 : Vec F S5000x1 .f32) (x3 : Vec F S1x128 .f32)

-- In both branches the first output's block is the same function of the four input blocks.
theorem out4_A_4_eq (hc : cond4_0 i) :
    out4_A_4 c i a1 h1 a2 h2 a3 h3 a4 h4 a5 h5 a6 h6 hc x0 x1 x2 x3 = k4_pay2 x0 x1 x2 x3 := by
  unfold out4_A_4
  rw [View.read_writes_eq_canon _ _ _ (cover4_A_4 c i a1 h1 a2 h2 a3 h3 a4 h4 a5 h5 a6 h6 hc x0 x1 x2 x3)]
  unfold kernelRun4_A
  dsimp only
  sl_unfold_words
  rw [View.canon_unit_zero zeros4]
  simp only [View.readAt_eq_ld, h1.read_unread, h2.read_unread, h3.read_unread, h4.read_unread,
    View.ld_unit_zero (S := S5000x128) zeros4, View.ld_unit_zero (S := S5000x1) zeros4, View.ld_unit_zero (S := S1x128) zeros4]

theorem out4_B_4_eq (hc : ¬cond4_0 i) (xo5 : Vec F S2x128 .f32) :
    out4_B_4 c i a1 h1 a2 h2 a3 h3 a4 h4 a5 h5 a6 h6 hc x0 x1 x2 x3 xo5 = k4_pay2 x0 x1 x2 x3 := by
  unfold out4_B_4
  rw [View.read_writes_eq_canon _ _ _ (cover4_B_4 c i a1 h1 a2 h2 a3 h3 a4 h4 a5 h5 a6 h6 hc x0 x1 x2 x3 xo5)]
  unfold kernelRun4_B
  dsimp only
  sl_unfold_words
  rw [View.canon_unit_zero zeros4]
  simp only [View.readAt_eq_ld, h1.read_unread, h2.read_unread, h3.read_unread, h4.read_unread,
    View.ld_unit_zero (S := S5000x128) zeros4, View.ld_unit_zero (S := S5000x1) zeros4, View.ld_unit_zero (S := S1x128) zeros4]

end Pieces

variable (V : (c : Dev nD) → (b : Ref sig .tc) → Buf (Elt Ideal) ((c : Thread nD τ).loc b))

abbrev agg4 (c : Dev nD) : S50000x128.Idx → EReal := V c (Pipeline.arrRef spec4 0)
abbrev h4in (c : Dev nD) : S50000x128.Idx → EReal := V c (Pipeline.arrRef spec4 1)
abbrev d24 (c : Dev nD) : S50000x1.Idx → EReal := V c (Pipeline.arrRef spec4 2)
abbrev b4in (c : Dev nD) : S1x128.Idx → EReal := V c (Pipeline.arrRef spec4 3)

def val4 (c : Dev nD) (r : Fin 50000) (q : Fin 128) : EReal :=
  max ((agg4 V c (ix2 r q) + h4in V c (ix2 r q) * d24 V c (ix2 r 0)) + b4in V c (ix2 0 q)) 0

def val4Arr (c : Dev nD) : S50000x128.Idx → EReal := fun i => val4 V c (i 0) (i 1)

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem blk4_lt (t : Fin cfg4.N) (y : Fin 5000) : t.val * 5000 + y.val < 50000 := by
  have := t.isLt; have hN : cfg4.N = 10 := N_4; have := y.isLt; omega

-- A rank-two index is the pair of its coordinates, so it is known once their values are.
theorem blk4_ix2 {n0 n1 : ℕ} {j : (⟨2, ![n0, n1]⟩ : Shape).Idx} {r : Fin n0} {q : Fin n1}
    (h0 : (j 0).val = r.val) (h1 : (j 1).val = q.val) : j = ix2 r q :=
  (eq_ix2 j).trans (congrArg₂ ix2 (Fin.ext h0) (Fin.ext h1))

-- Entry (y, q) of each input's block at point t is the array's entry at row 5000 t + y (the bias row: at row 0).
theorem pay2_blk4 (c : Dev nD) (t : Fin cfg4.N) (y : Fin 5000) (q : Fin 128) :
    (k4_pay2 (iblk4 V c 0 t) (iblk4 V c 1 t) (iblk4 V c 2 t) (iblk4 V c 3 t) : S5000x128.Idx → EReal) (ix2 y q)
      = val4 V c ⟨t.val * 5000 + y.val, blk4_lt t y⟩ q := by
  obtain ⟨e00, e01, e10, e11, e20, e21, e30, e31, -⟩ := idx_facts4 t
  refine (pay4_2_apply (iblk4 V c 0 t) (iblk4 V c 1 t) (iblk4 V c 2 t) (iblk4 V c 3 t) y q).trans ?_
  have b0 : ((cfg4.win 0).blk t).view.emb (ix2 y q) = ix2 ⟨_, blk4_lt t y⟩ q := blk4_ix2
    (show win4_0.index t (0 : Fin 2) * 5000 + 1 * y.val = t.val * 5000 + y.val by omega)
    (show win4_0.index t (1 : Fin 2) * 128 + 1 * q.val = q.val by omega)
  have b1 : ((cfg4.win 1).blk t).view.emb (ix2 y q) = ix2 ⟨_, blk4_lt t y⟩ q := blk4_ix2
    (show win4_1.index t (0 : Fin 2) * 5000 + 1 * y.val = t.val * 5000 + y.val by omega)
    (show win4_1.index t (1 : Fin 2) * 128 + 1 * q.val = q.val by omega)
  have b2 : ((cfg4.win 2).blk t).view.emb (ix2 y 0) = ix2 ⟨_, blk4_lt t y⟩ 0 := blk4_ix2
    (show win4_2.index t (0 : Fin 2) * 5000 + 1 * y.val = t.val * 5000 + y.val by omega)
    (show win4_2.index t (1 : Fin 2) * 1 + 1 * 0 = 0 by omega)
  have b3 : ((cfg4.win 3).blk t).view.emb (ix2 0 q) = ix2 0 q := blk4_ix2
    (show win4_3.index t (0 : Fin 2) * 1 + 1 * 0 = 0 by omega)
    (show win4_3.index t (1 : Fin 2) * 128 + 1 * q.val = q.val by omega)
  exact congrArg (fun z : EReal => max z 0)
    (congrArg₂ (fun u v : EReal => u + v)
      (congrArg₂ (fun u v : EReal => u + v) (congrArg (agg4 V c) b0)
        (congrArg₂ (fun u v : EReal => u * v) (congrArg (h4in V c) b1) (congrArg (d24 V c) b2)))
      (congrArg (b4in V c) b3))

theorem after4_4_eq (c : Dev nD) (t : Fin cfg4.N) :
    (dat4 (F := Ideal) V c).after 4 t = k4_pay2 (iblk4 V c 0 t) (iblk4 V c 1 t) (iblk4 V c 2 t) (iblk4 V c 3 t) := by
  rw [after4_4]
  by_cases h0 : t.val % 10 = 0
  · rw [outsAt4_A V c t h0]
    dsimp only
    exact out4_A_4_eq (F := Ideal) ..
  · rw [outsAt4_B V c t h0]
    dsimp only
    exact out4_B_4_eq (F := Ideal) ..

-- Point t's output block is block t of the array of values.
theorem flushed4_4_eq (c : Dev nD) (t : Fin cfg4.N) :
    (dat4 (F := Ideal) V c).flushed 4 t = ((cfg4.win 4).blk t).view.read (Elt Ideal) (val4Arr V c) := by
  show (cfg4.win 4).cut (grid4.coords t) ((dat4 (F := Ideal) V c).after 4 t) = _
  rw [after4_4_eq]
  obtain ⟨-, -, -, -, -, -, -, -, e40, e41⟩ := idx_facts4 t
  funext j
  obtain ⟨p, q, rfl⟩ : ∃ (p : Fin 5000) (q : Fin 128), j = ix2 p q := ⟨j 0, j 1, eq_ix2 j⟩
  have b4 : ((cfg4.win 4).blk t).view.emb (ix2 p q) = ix2 ⟨_, blk4_lt t p⟩ q := blk4_ix2
    (show win4_4.index t (0 : Fin 2) * 5000 + 1 * p.val = t.val * 5000 + p.val by omega)
    (show win4_4.index t (1 : Fin 2) * 128 + 1 * q.val = q.val by omega)
  exact (pay2_blk4 V c t p q).trans (congrArg (val4Arr V c) b4).symm

-- Row r lies in the block of point r / 5000.
theorem covered4_4 (i : S50000x128.Idx) : ∃ t : Fin cfg4.N, (cfg4.win 4).flush t = true ∧ i ∈ ((cfg4.win 4).blk t).view.set := by
  have hr : (i 0).val < 50000 := (i 0).isLt
  have hc : (i 1).val < 128 := (i 1).isLt
  have hN : cfg4.N = 10 := N_4
  have ht : (i 0).val / 5000 < cfg4.N := by rw [hN]; omega
  refine ⟨⟨_, ht⟩, flush4_4 _, ?_⟩
  obtain ⟨-, -, -, -, -, -, -, -, e40, e41⟩ := idx_facts4 ⟨_, ht⟩
  show i ∈ ((View.whole (Pipeline.arrRef spec4 4)).slice (win4_4.rect ⟨_, ht⟩)).set
  rw [View.set_slice_whole, Rect.mem_set_unit]
  intro a
  match a with
  | ⟨0, _⟩ => show win4_4.index _ (0 : Fin 2) * 5000 ≤ (i 0).val ∧ (i 0).val < win4_4.index _ (0 : Fin 2) * 5000 + 5000; rw [e40]; show (i 0).val / 5000 * 5000 ≤ (i 0).val ∧ (i 0).val < (i 0).val / 5000 * 5000 + 5000; omega
  | ⟨1, _⟩ => show win4_4.index _ (1 : Fin 2) * 128 ≤ (i 1).val ∧ (i 1).val < win4_4.index _ (1 : Fin 2) * 128 + 128; rw [e41]; omega

theorem final4_val (c : Dev nD) (r : Fin 50000) (q : Fin 128) :
    ((dat4 (F := Ideal) V c).arrAt 4 cfg4.N : S50000x128.Idx → EReal) (ix2 r q) = val4 V c r q :=
  congrFun ((dat4 (F := Ideal) V c).arrAt_eq_of_cover 4 _ (fun t _ => flushed4_4_eq V c t) covered4_4) (ix2 r q)

end Cert.KernelIdeal.Hand

end
-- ==== Proof.KIVal4.lean ====
import proofs.«101480_j18889266168017_1_alg».proof.Proof.KIVal4V
import proofs.«101480_j18889266168017_1_alg».proof.Proof.LayerMath
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)

section Pieces
variable {F : FTy → Type} [FloatOps F]

abbrev srow4_0 : Rect S2x128 := Rect.unit (s := S2x128) ![0, 0] S1x128.size inb_S2x128_S1x128_0_0
abbrev srow4_1 : Rect S2x128 := Rect.unit (s := S2x128) ![1, 0] S1x128.size inb_S2x128_S1x128_1_0
abbrev sall4 : Rect S2x128 := Rect.unit (s := S2x128) ![0, 0] S2x128.size inb_S2x128_S2x128_0_0

theorem srow4_0_emb (q : Fin 128) : srow4_0.emb (ix2 (0 : Fin 1) q) = ix2 (0 : Fin 2) q :=
  funext fun a => Fin.ext <| match a with
    | ⟨0, _⟩ => rfl
    | ⟨1, _⟩ => show 0 + 1 * q.val = q.val by omega
theorem srow4_1_emb (q : Fin 128) : srow4_1.emb (ix2 (0 : Fin 1) q) = ix2 (1 : Fin 2) q :=
  funext fun a => Fin.ext <| match a with
    | ⟨0, _⟩ => rfl
    | ⟨1, _⟩ => show 0 + 1 * q.val = q.val by omega

theorem srow4_disjoint : Disjoint srow4_0.set srow4_1.set :=
  Rect.unit_disjoint (0 : Fin 2) (.inl (by decide))

-- Rows 0 and 1 are disjoint, so at an entry of row 0 a piece on row 1 contributes nothing.
theorem canon_skip_srow4_1 (w : srow4_1.shape.Idx → Elt F .f32) (L : List (View.Piece (Elt F) S2x128 .f32)) (q : Fin 128) :
    View.canon (⟨srow4_1, w⟩ :: L) (ix2 (0 : Fin 2) q) = View.canon L (ix2 (0 : Fin 2) q) :=
  View.canon_cons_of_not_mem ⟨srow4_1, w⟩ L fun h =>
    Finset.disjoint_left.mp srow4_disjoint (by rw [← srow4_0_emb q]; exact srow4_0.idx_mem _) h

-- Over z everywhere with row 0 replaced, row 1 is still row 1 of z.
theorem readCov_srow4_1 (v : View sig .tc .vmem S2x128 .f32) (w : srow4_0.shape.Idx → Elt F .f32) (z : Vec F S2x128 .f32) :
    v.readCov [⟨srow4_0, w⟩, ⟨sall4, z⟩] srow4_1.toLoadRect = View.ld z srow4_1 := by
  rw [View.readCov_eq_canon']
  funext j
  exact (View.canon_cons_of_not_mem ⟨srow4_0, w⟩ [⟨sall4, z⟩]
      (fun h => Finset.disjoint_left.mp srow4_disjoint h (srow4_1.idx_mem j))).trans
    (congrFun (View.canon_unit_zero zeros4 inb_S2x128_S2x128_0_0 z) _)

theorem readCov_srow4_0 (v : View sig .tc .vmem S2x128 .f32) (z : Vec F S2x128 .f32) :
    v.readCov [⟨sall4, z⟩] srow4_0.toLoadRect = View.ld z srow4_0 := by
  rw [View.readCov_eq_canon']
  funext j
  exact congrFun (View.canon_unit_zero zeros4 inb_S2x128_S2x128_0_0 z) _

variable (c : Dev nD) (i : grid4.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S2x128 .f32) (h6 : a6.IsWhole)
    (x0 x1 : Vec F S5000x128 .f32) (x2 : Vec F S5000x1 .f32) (x3 : Vec F S1x128 .f32)

-- At the first point each row is its update applied to the zero row.
theorem out4_A_5_rows (hc : cond4_0 i) (q : Fin 128) :
    out4_A_5 c i a1 h1 a2 h2 a3 h3 a4 h4 a5 h5 a6 h6 hc x0 x1 x2 x3 (ix2 (0 : Fin 2) q)
        = k4_pay3 x0 x1 x2 x3 (View.ld (k4_pay1 (F := F)) srow4_0) (ix2 (0 : Fin 1) q)
    ∧ out4_A_5 c i a1 h1 a2 h2 a3 h3 a4 h4 a5 h5 a6 h6 hc x0 x1 x2 x3 (ix2 (1 : Fin 2) q)
        = k4_pay4 x0 x1 x2 x3 (View.ld (k4_pay1 (F := F)) srow4_1) (ix2 (0 : Fin 1) q) := by
  unfold out4_A_5
  rw [View.read_writes_eq_canon _ _ _ (cover4_A_5 c i a1 h1 a2 h2 a3 h3 a4 h4 a5 h5 a6 h6 hc x0 x1 x2 x3)]
  unfold kernelRun4_A
  dsimp only
  sl_unfold_words
  simp only [View.readAt_eq_ld, h1.read_unread, h2.read_unread, h3.read_unread, h4.read_unread,
    View.ld_unit_zero (S := S5000x128) zeros4, View.ld_unit_zero (S := S5000x1) zeros4,
    View.ld_unit_zero (S := S1x128) zeros4]
  constructor
  · rw [canon_skip_srow4_1, ← srow4_0_emb q, View.canon_cons_emb]
    exact congrArg (fun v => k4_pay3 x0 x1 x2 x3 v (ix2 (0 : Fin 1) q)) (readCov_srow4_0 a6.view k4_pay1)
  · rw [← srow4_1_emb q, View.canon_cons_emb]
    exact congrArg (fun v => k4_pay4 x0 x1 x2 x3 v (ix2 (0 : Fin 1) q)) (readCov_srow4_1 a6.view _ k4_pay1)

-- At a later point each row is its update applied to that row of the previous contents xo5.
theorem out4_B_5_rows (hc : ¬cond4_0 i) (xo5 : Vec F S2x128 .f32) (q : Fin 128) :
    out4_B_5 c i a1 h1 a2 h2 a3 h3 a4 h4 a5 h5 a6 h6 hc x0 x1 x2 x3 xo5 (ix2 (0 : Fin 2) q)
        = k4_pay3 x0 x1 x2 x3 (View.ld xo5 srow4_0) (ix2 (0 : Fin 1) q)
    ∧ out4_B_5 c i a1 h1 a2 h2 a3 h3 a4 h4 a5 h5 a6 h6 hc x0 x1 x2 x3 xo5 (ix2 (1 : Fin 2) q)
        = k4_pay4 x0 x1 x2 x3 (View.ld xo5 srow4_1) (ix2 (0 : Fin 1) q) := by
  unfold out4_B_5
  rw [View.read_writes_eq_canon _ _ _ (cover4_B_5 c i a1 h1 a2 h2 a3 h3 a4 h4 a5 h5 a6 h6 hc x0 x1 x2 x3 xo5)]
  unfold kernelRun4_B
  dsimp only
  sl_unfold_words
  simp only [View.readAt_eq_ld, h1.read_unread, h2.read_unread, h3.read_unread, h4.read_unread, h6.read_unread,
    View.ld_unit_zero (S := S5000x128) zeros4, View.ld_unit_zero (S := S5000x1) zeros4,
    View.ld_unit_zero (S := S1x128) zeros4]
  constructor
  · rw [canon_skip_srow4_1, ← srow4_0_emb q, View.canon_cons_emb]
  · rw [← srow4_1_emb q, View.canon_cons_emb]

end Pieces

theorem pay4_1_apply (i : S2x128.Idx) : ((k4_pay1 (F := Ideal)) : S2x128.Idx → EReal) i = 0 := by
  unfold k4_pay1
  exact Ideal.ofBits_zero_f32

theorem lift4s (q : Fin 128) (y : Fin 5000) : reduces_S5000x128_S128.lift (ix1 q) y = ix2 y q :=
  funext fun a => Fin.ext <| match a with
    | ⟨0, _⟩ => rfl
    | ⟨1, _⟩ => rfl

-- Row 0's update at column q adds the block's column sum to the carried entry; row 1's, the column sum of squares.
theorem pay4_3_apply (x0 x1 : Vec Ideal S5000x128 .f32) (x2 : Vec Ideal S5000x1 .f32) (x3 : Vec Ideal S1x128 .f32)
    (v : Vec Ideal S1x128 .f32) (q : Fin 128) :
    (k4_pay3 x0 x1 x2 x3 v : S1x128.Idx → EReal) (ix2 (0 : Fin 1) q)
      = (v : S1x128.Idx → EReal) (ix2 (0 : Fin 1) q)
        + ∑ y : Fin 5000, (k4_pay2 x0 x1 x2 x3 : S5000x128.Idx → EReal) (ix2 y q) := by
  unfold k4_pay3
  simp only [shapeCast_self]
  refine (addf_apply _ _ _).trans ?_
  refine congrArg (fun z => (v : S1x128.Idx → EReal) (ix2 (0 : Fin 1) q) + z) ?_
  refine (shapeCast_a_1a_apply _ shapeCasts_S128_S1x128 (0 : Fin 1) q).trans ?_
  refine (Ideal.multiReduction_add_single (k4_pay2 x0 x1 x2 x3) 0x00000000#32 reduces_S5000x128_S128 (.inl rfl) rfl (ix1 q)).trans ?_
  exact Finset.sum_congr rfl fun y _ => congrArg (k4_pay2 x0 x1 x2 x3) (lift4s q y)

theorem pay4_4_apply (x0 x1 : Vec Ideal S5000x128 .f32) (x2 : Vec Ideal S5000x1 .f32) (x3 : Vec Ideal S1x128 .f32)
    (v : Vec Ideal S1x128 .f32) (q : Fin 128) :
    (k4_pay4 x0 x1 x2 x3 v : S1x128.Idx → EReal) (ix2 (0 : Fin 1) q)
      = (v : S1x128.Idx → EReal) (ix2 (0 : Fin 1) q)
        + ∑ y : Fin 5000, (k4_pay2 x0 x1 x2 x3 : S5000x128.Idx → EReal) (ix2 y q)
            * (k4_pay2 x0 x1 x2 x3 : S5000x128.Idx → EReal) (ix2 y q) := by
  unfold k4_pay4
  simp only [shapeCast_self]
  refine (addf_apply _ _ _).trans ?_
  refine congrArg (fun z => (v : S1x128.Idx → EReal) (ix2 (0 : Fin 1) q) + z) ?_
  refine (shapeCast_a_1a_apply _ shapeCasts_S128_S1x128 (0 : Fin 1) q).trans ?_
  refine (Ideal.multiReduction_add_single (mulf (k4_pay2 x0 x1 x2 x3) (k4_pay2 x0 x1 x2 x3)) 0x00000000#32
    reduces_S5000x128_S128 (.inl rfl) rfl (ix1 q)).trans ?_
  exact Finset.sum_congr rfl fun y _ => (mulf_apply _ _ _).trans (by rw [lift4s q y])

theorem st4_pred_lt (t : Fin cfg4.N) : t.val - 1 < cfg4.N := Nat.lt_of_le_of_lt (Nat.sub_le _ _) t.isLt

variable (V : (c : Dev nD) → (b : Ref sig .tc) → Buf (Elt Ideal) ((c : Thread nD τ).loc b))

abbrev bv4 (c : Dev nD) (t : Fin cfg4.N) : S5000x128.Idx → EReal :=
  k4_pay2 (iblk4 V c 0 t) (iblk4 V c 1 t) (iblk4 V c 2 t) (iblk4 V c 3 t)

def st4 (c : Dev nD) (n : ℕ) (hn : n < cfg4.N) : S2x128.Idx → EReal := (outsAt4 V c n hn).2

theorem after4_5_st (c : Dev nD) (t : Fin cfg4.N) : (dat4 (F := Ideal) V c).after 5 t = st4 V c t.val t.isLt :=
  after4_5 V c t

theorem st4_congr (c : Dev nD) {n n' : ℕ} (h : n = n') (hn : n < cfg4.N) (hn' : n' < cfg4.N) :
    st4 V c n hn = st4 V c n' hn' := by
  subst h; rfl

-- After the first point each row holds zero plus its block sum.
theorem st4_A_rows (c : Dev nD) (t : Fin cfg4.N) (h0 : t.val % 10 = 0) (q : Fin 128) :
    st4 V c t.val t.isLt (ix2 (0 : Fin 2) q) = 0 + ∑ y : Fin 5000, bv4 V c t (ix2 y q)
    ∧ st4 V c t.val t.isLt (ix2 (1 : Fin 2) q) = 0 + ∑ y : Fin 5000, bv4 V c t (ix2 y q) * bv4 V c t (ix2 y q) := by
  unfold st4
  rw [outsAt4_A V c t h0]
  dsimp only
  exact ⟨(out4_A_5_rows (F := Ideal) ..).1.trans ((pay4_3_apply ..).trans
      (congrArg (fun z : EReal => z + _) (pay4_1_apply _))),
    (out4_A_5_rows (F := Ideal) ..).2.trans ((pay4_4_apply ..).trans
      (congrArg (fun z : EReal => z + _) (pay4_1_apply _)))⟩

-- After a later point each row holds what it held after the point before plus its block sum.
theorem st4_B_rows (c : Dev nD) (t : Fin cfg4.N) (h0 : ¬t.val % 10 = 0) (q : Fin 128) :
    st4 V c t.val t.isLt (ix2 (0 : Fin 2) q)
        = st4 V c (t.val - 1) (st4_pred_lt t) (ix2 (0 : Fin 2) q)
          + ∑ y : Fin 5000, bv4 V c t (ix2 y q)
    ∧ st4 V c t.val t.isLt (ix2 (1 : Fin 2) q)
        = st4 V c (t.val - 1) (st4_pred_lt t) (ix2 (1 : Fin 2) q)
          + ∑ y : Fin 5000, bv4 V c t (ix2 y q) * bv4 V c t (ix2 y q) := by
  unfold st4
  rw [outsAt4_B V c t h0]
  dsimp only
  exact ⟨(out4_B_5_rows (F := Ideal) ..).1.trans ((pay4_3_apply ..).trans
      (congrArg (fun z : EReal => z + _) (congrArg (outsAt4 V c (t.val - 1) _).2 (srow4_0_emb q)))),
    (out4_B_5_rows (F := Ideal) ..).2.trans ((pay4_4_apply ..).trans
      (congrArg (fun z : EReal => z + _) (congrArg (outsAt4 V c (t.val - 1) _).2 (srow4_1_emb q))))⟩

attribute [irreducible] st4

def sfin4 (c : Dev nD) : S2x128.Idx → EReal := st4 V c 9 (by rw [show cfg4.N = 10 from N_4]; decide)

-- Ten block sums of g over the values, added one after another from zero, are the sum of g over all 50000 rows.
theorem sfin4_row (c : Dev nD) (p : Fin 2) (g : EReal → EReal) (q : Fin 128)
    (hA : ∀ t : Fin cfg4.N, t.val % 10 = 0 →
      st4 V c t.val t.isLt (ix2 p q) = 0 + ∑ y : Fin 5000, g (bv4 V c t (ix2 y q)))
    (hB : ∀ t : Fin cfg4.N, ¬t.val % 10 = 0 →
      st4 V c t.val t.isLt (ix2 p q) = st4 V c (t.val - 1) (st4_pred_lt t) (ix2 p q)
        + ∑ y : Fin 5000, g (bv4 V c t (ix2 y q))) :
    sfin4 V c (ix2 p q) = ∑ r : Fin 50000, g (val4 V c r q) := by
  have hN : cfg4.N = 10 := N_4
  have h9 : 9 < cfg4.N := by rw [hN]; decide
  have key := Cert.Spec.acc_rows' (fun r => g (val4 V c r q))
    (fun n => if hn : n < cfg4.N then st4 V c n hn (ix2 p q) else 0)
    (fun n => if hn : n < cfg4.N then ∑ y : Fin 5000, g (bv4 V c ⟨n, hn⟩ (ix2 y q)) else 0)
    (fun t => by
      have ht : t.val < cfg4.N := by rw [hN]; exact t.isLt
      rw [dif_pos ht]
      exact Finset.sum_congr rfl fun y _ => congrArg g (pay2_blk4 V c ⟨t.val, ht⟩ y q))
    (by
      have h : 0 < cfg4.N := by rw [hN]; decide
      rw [dif_pos h, dif_pos h]
      exact hA ⟨0, h⟩ (Nat.zero_mod 10))
    (fun n hn => by
      have h1 : n + 1 < cfg4.N := by rw [hN]; omega
      have h0 : n < cfg4.N := by rw [hN]; omega
      rw [dif_pos h1, dif_pos h0, dif_pos h1]
      exact hB ⟨n + 1, h1⟩ (by show ¬(n + 1) % 10 = 0; omega))
  rw [dif_pos h9] at key
  exact key

theorem idx_facts4s : ∀ t : Fin cfg4.N, win4_5.index t (0 : Fin 2) = 0 ∧ win4_5.index t (1 : Fin 2) = 0 :=
  (by decide +kernel : ∀ t : Fin grid4.N, _)

-- The statistics window's one block is the whole array, so the array at the end is the two rows after the last point.
theorem flushed4_5_eq (c : Dev nD) (t : Fin cfg4.N) (hf : (cfg4.win 5).flush t = true) :
    (dat4 (F := Ideal) V c).flushed 5 t = ((cfg4.win 5).blk t).view.read (Elt Ideal) (sfin4 V c) := by
  have hN : cfg4.N = 10 := N_4
  have h9 : t.val = 9 := by have := (flush4_5 t).mp hf; have := t.isLt; omega
  obtain ⟨e0, e1⟩ := idx_facts4s t
  show (cfg4.win 5).cut (grid4.coords t) ((dat4 (F := Ideal) V c).after 5 t) = _
  rw [after4_5_st]
  funext y
  obtain ⟨p, q, rfl⟩ : ∃ (p : Fin 2) (q : Fin 128), y = ix2 p q := ⟨y 0, y 1, eq_ix2 y⟩
  show st4 V c t.val t.isLt (ix2 p q) = sfin4 V c (((cfg4.win 5).blk t).view.emb (ix2 p q))
  have he : ((cfg4.win 5).blk t).view.emb (ix2 p q) = ix2 p q := funext fun a => Fin.ext <| match a with
    | ⟨0, _⟩ => show win4_5.index t (0 : Fin 2) * 2 + 1 * p.val = p.val by omega
    | ⟨1, _⟩ => show win4_5.index t (1 : Fin 2) * 128 + 1 * q.val = q.val by omega
  rw [he]
  unfold sfin4
  exact congrFun (st4_congr V c h9 t.isLt _) (ix2 p q)

theorem covered4_5 (i : S2x128.Idx) : ∃ t : Fin cfg4.N, (cfg4.win 5).flush t = true ∧ i ∈ ((cfg4.win 5).blk t).view.set := by
  have hr : (i 0).val < 2 := (i 0).isLt
  have hc : (i 1).val < 128 := (i 1).isLt
  refine ⟨t4_9, (flush4_5 t4_9).mpr rfl, ?_⟩
  obtain ⟨e0, e1⟩ := idx_facts4s t4_9
  show i ∈ ((View.whole (Pipeline.arrRef spec4 5)).slice (win4_5.rect t4_9)).set
  rw [View.set_slice_whole, Rect.mem_set_unit]
  intro a
  match a with
  | ⟨0, _⟩ => show win4_5.index _ (0 : Fin 2) * 2 ≤ (i 0).val ∧ (i 0).val < win4_5.index _ (0 : Fin 2) * 2 + 2; rw [e0]; omega
  | ⟨1, _⟩ => show win4_5.index _ (1 : Fin 2) * 128 ≤ (i 1).val ∧ (i 1).val < win4_5.index _ (1 : Fin 2) * 128 + 128; rw [e1]; omega

theorem final4s_arr (c : Dev nD) : (dat4 (F := Ideal) V c).arrAt 5 cfg4.N = sfin4 V c :=
  (dat4 (F := Ideal) V c).arrAt_eq_of_cover 5 _ (flushed4_5_eq V c) covered4_5

theorem final4_sum (c : Dev nD) (q : Fin 128) :
    ((dat4 (F := Ideal) V c).arrAt 5 cfg4.N : S2x128.Idx → EReal) (ix2 (0 : Fin 2) q) = ∑ r : Fin 50000, val4 V c r q :=
  (congrFun (final4s_arr V c) (ix2 (0 : Fin 2) q)).trans
    (sfin4_row V c 0 (fun z => z) q (fun t h => (st4_A_rows V c t h q).1) (fun t h => (st4_B_rows V c t h q).1))

theorem final4_sumsq (c : Dev nD) (q : Fin 128) :
    ((dat4 (F := Ideal) V c).arrAt 5 cfg4.N : S2x128.Idx → EReal) (ix2 (1 : Fin 2) q)
      = ∑ r : Fin 50000, val4 V c r q * val4 V c r q :=
  (congrFun (final4s_arr V c) (ix2 (1 : Fin 2) q)).trans
    (sfin4_row V c 1 (fun z => z * z) q (fun t h => (st4_A_rows V c t h q).2) (fun t h => (st4_B_rows V c t h q).2))

end Cert.KernelIdeal.Hand

end
-- ==== Proof.KIVal5.lean ====
import proofs.«101480_j18889266168017_1_alg».proof.Proof.KIReg5
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

theorem rsqrt5_apply {s : Shape} (a : FVec Ideal s .f32) (i : s.Idx) : rsqrt a i = Ideal.rsqrt (a i) := rfl

theorem zeros5 : (![0, 0] : Fin 2 → Nat) = fun _ => 0 := funext fun a => by fin_cases a <;> rfl

variable (V : (c : Dev nD) → (b : Ref sig .tc) → Buf (Elt Ideal) ((c : Thread nD τ).loc b))

abbrev val5in (c : Dev nD) : S50000x128.Idx → EReal := V c (Pipeline.arrRef spec5 0)
abbrev mean5in (c : Dev nD) : S1x128.Idx → EReal := V c (Pipeline.arrRef spec5 1)
abbrev var5in (c : Dev nD) : S1x128.Idx → EReal := V c (Pipeline.arrRef spec5 2)
abbrev g5in (c : Dev nD) : S1x128.Idx → EReal := V c (Pipeline.arrRef spec5 3)
abbrev be5in (c : Dev nD) : S1x128.Idx → EReal := V c (Pipeline.arrRef spec5 4)

def bn5 (c : Dev nD) (r : Fin 50000) (q : Fin 128) : EReal :=
  g5in V c (ix2 0 q) * (val5in V c (ix2 r q) - mean5in V c (ix2 0 q))
      * Ideal.rsqrt (var5in V c (ix2 0 q) + Ideal.ofBits .f32 0x3727C5AC#32)
    + be5in V c (ix2 0 q)

def bn5Arr (c : Dev nD) : S50000x128.Idx → EReal := fun i => bn5 V c (i 0) (i 1)

theorem idx_facts5 : ∀ t : Fin cfg5.N,
    win5_0.index t (0 : Fin 2) = t.val ∧ win5_0.index t (1 : Fin 2) = 0
    ∧ win5_5.index t (0 : Fin 2) = t.val ∧ win5_5.index t (1 : Fin 2) = 0 :=
  (by decide +kernel : ∀ t : Fin grid5.N, _)

-- Block t of the output is block t of the normalised array: each row's block is the row itself, and row p of the values' block is row 5000·t + p.
theorem flushed5_5_eq (c : Dev nD) (t : Fin cfg5.N) :
    (dat5 (F := Ideal) V c).flushed 5 t = ((cfg5.win 5).blk t).view.read (Elt Ideal) (bn5Arr V c) := by
  show (cfg5.win 5).cut (grid5.coords t) ((dat5 (F := Ideal) V c).after 5 t) = _
  rw [after5_5]
  unfold out5_5
  rw [View.canon_unit_zero zeros5]
  simp only [View.ld_unit_zero (S := S5000x128) zeros5, View.ld_unit_zero (S := S1x128) zeros5]
  obtain ⟨e00, e01, e50, e51⟩ := idx_facts5 t
  funext y
  obtain ⟨p, q, rfl⟩ : ∃ (p : Fin 5000) (q : Fin 128), y = ix2 p q := ⟨y 0, y 1, eq_ix2 y⟩
  show (k5_pay1 (F := Ideal) _ _ _ _ _ : S5000x128.Idx → EReal) (ix2 p q) = bn5 V c _ _
  unfold k5_pay1
  simp only [shapeCast_self]
  rw [addf_apply, mulf_apply, mulf_apply, subf_apply, broadcastTo_1b_ab_apply, broadcastTo_1b_ab_apply,
    broadcastTo_1b_ab_apply, broadcastTo_1b_ab_apply, rsqrt5_apply, addf_apply, broadcast_apply]
  refine congrArg₂ (· + ·) (congrArg₂ (· * ·) (congrArg₂ (· * ·) (congrArg (g5in V c) (Shape.idx_ext₂ ?_ ?_))
      (congrArg₂ (· - ·) (congrArg (val5in V c) (Shape.idx_ext₂
          (by show win5_0.index t 0 * 5000 + 1 * p.val = win5_5.index t 0 * 5000 + 1 * p.val; omega)
          (by show win5_0.index t 1 * 128 + 1 * q.val = win5_5.index t 1 * 128 + 1 * q.val; omega)))
        (congrArg (mean5in V c) (Shape.idx_ext₂ ?_ ?_))))
    (congrArg (fun u : EReal => Ideal.rsqrt (u + _)) (congrArg (var5in V c) (Shape.idx_ext₂ ?_ ?_))))
    (congrArg (be5in V c) (Shape.idx_ext₂ ?_ ?_))
  iterate 4
    · show 0 * 1 + 1 * 0 = 0; rfl
    · show 0 * 128 + 1 * q.val = win5_5.index t 1 * 128 + 1 * q.val; omega

-- Row r lies in block r / 5000, as its row r % 5000.
theorem covered5_5 (i : S50000x128.Idx) : ∃ t : Fin cfg5.N, (cfg5.win 5).flush t = true ∧ i ∈ ((cfg5.win 5).blk t).view.set := by
  have hr : (i 0).val < 50000 := (i 0).isLt
  obtain ⟨t, ht⟩ : ∃ t : Fin cfg5.N, t.val = (i 0).val / 5000 := ⟨⟨_, by rw [show cfg5.N = 10 from N_5]; omega⟩, rfl⟩
  obtain ⟨-, -, e50, e51⟩ := idx_facts5 t
  exact ⟨t, flush5_5 t, (Shape.idx_ext₂ (show win5_5.index t 0 * 5000 + 1 * ((i 0).val % 5000) = (i 0).val by omega)
    (show win5_5.index t 1 * 128 + 1 * (i 1).val = (i 1).val by omega) :
      ((cfg5.win 5).blk t).view.emb (ix2 ⟨(i 0).val % 5000, Nat.mod_lt _ (by decide)⟩ (i 1)) = i) ▸ View.emb_mem_set _ _⟩

theorem final5 (c : Dev nD) (r : Fin 50000) (q : Fin 128) :
    ((dat5 (F := Ideal) V c).arrAt 5 cfg5.N : S50000x128.Idx → EReal) (ix2 r q) = bn5 V c r q :=
  congrFun ((dat5 (F := Ideal) V c).arrAt_eq_of_cover 5 (bn5Arr V c) (fun t _ => flushed5_5_eq V c t) covered5_5) (ix2 r q)

end Cert.KernelIdeal.Hand

end
-- ==== Proof.KIVal6.lean ====
import proofs.«101480_j18889266168017_1_alg».proof.Proof.KIReg6
import proofs.«101480_j18889266168017_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

abbrev cat6 (c : Dev nD) : S50000x384.Idx → EReal := V c (Pipeline.arrRef spec6 0)
abbrev wa6 (c : Dev nD) : S384x128.Idx → EReal := V c (Pipeline.arrRef spec6 1)
abbrev ba6 (c : Dev nD) : S1x128.Idx → EReal := V c (Pipeline.arrRef spec6 2)
abbrev wb6 (c : Dev nD) : S128x1.Idx → EReal := V c (Pipeline.arrRef spec6 3)
abbrev bb6 (c : Dev nD) : S1x1.Idx → EReal := V c (Pipeline.arrRef spec6 4)
abbrev res6 (c : Dev nD) : S50000x1.Idx → EReal := (dat6 (F := Ideal) V c).arrAt 5 cfg6.N

theorem zeros6 : (![0, 0] : Fin 2 → Nat) = fun _ => 0 := funext fun a => by fin_cases a <;> rfl

def head6 (c : Dev nD) : S50000x1.Idx → EReal :=
  fun i => max ((∑ j : Fin 128, max ((∑ k : Fin 384, cat6 V c (@ix2 50000 384 (i 0) k) * wa6 V c (ix2 k j)) + ba6 V c (ix2 0 j)) 0 * wb6 V c (ix2 j 0))
    + bb6 V c (ix2 0 0)) 0

theorem idx_facts6 : ∀ t : Fin cfg6.N,
    win6_0.index t (0 : Fin 2) = t.val ∧ win6_0.index t (1 : Fin 2) = 0
    ∧ win6_5.index t (0 : Fin 2) = t.val ∧ win6_5.index t (1 : Fin 2) = 0 :=
  (by decide +kernel : ∀ t : Fin grid6.N, _)

-- Block t of the output is block t of the head: the weights' and biases' blocks are the arrays themselves, and row p of the features' block is row 5000·t + p.
theorem flushed6_eq (c : Dev nD) (t : Fin cfg6.N) :
    (dat6 (F := Ideal) V c).flushed 5 t = ((cfg6.win 5).blk t).view.read (Elt Ideal) (head6 V c) := by
  show (cfg6.win 5).cut (grid6.coords t) ((dat6 (F := Ideal) V c).after 5 t) = _
  rw [after6_5]
  unfold out6_5
  rw [View.canon_unit_zero zeros6]
  simp only [View.ld_unit_zero (S := S5000x384) zeros6, View.ld_unit_zero (S := S384x128) zeros6,
    View.ld_unit_zero (S := S1x128) zeros6, View.ld_unit_zero (S := S128x1) zeros6, View.ld_unit_zero (S := S1x1) zeros6]
  obtain ⟨ea, eb, ek, el⟩ := idx_facts6 t
  funext y
  obtain ⟨p, q, rfl⟩ : ∃ (p : Fin 5000) (q : Fin 1), y = ix2 p q := ⟨y 0, y 1, eq_ix2 y⟩
  obtain rfl : q = 0 := Fin.eq_zero q
  have hz : ∀ n : ℕ, 0 + 1 * n = n := fun n => by omega
  show (k6_pay1 (F := Ideal) _ _ _ _ _ : S5000x1.Idx → EReal) (ix2 p 0) = head6 V c _
  unfold k6_pay1
  simp only [shapeCast_self]
  refine congrArg₂ max (congrArg₂ (· + ·)
    ((Cert.LibPlainDot.matmul_plain_apply 5000 128 1 none _ _ p 0).trans (Finset.sum_congr rfl fun j _ => congrArg₂ (· * ·)
      (congrArg₂ max (congrArg₂ (· + ·)
        ((Cert.LibPlainDot.matmul_plain_apply 5000 384 128 none _ _ p j).trans (Finset.sum_congr rfl fun k _ => congrArg₂ (· * ·)
          (congrArg (cat6 V c) (Shape.idx_ext₂ ?_ ?_)) (congrArg (wa6 V c) (Shape.idx_ext₂ (by exact hz _) (by exact hz _)))))
        ((broadcastTo_1b_ab_apply _ _ p j).trans (congrArg (ba6 V c) (Shape.idx_ext₂ (by exact hz _) (by exact hz _))))) Ideal.ofBits_zero_f32)
      (congrArg (wb6 V c) (Shape.idx_ext₂ (by exact hz _) (by exact hz _)))))
    ((broadcastTo_1b_ab_apply _ _ p 0).trans (congrArg (bb6 V c) (Shape.idx_ext₂ (by exact hz _) (by exact hz _))))) Ideal.ofBits_zero_f32
  · show win6_0.index t 0 * 5000 + 1 * p.val = win6_5.index t 0 * 5000 + 1 * p.val; omega
  · show win6_0.index t 1 * 384 + 1 * k.val = k.val; omega

-- Row r lies in block r / 5000, as its row r % 5000.
theorem covered6 (i : S50000x1.Idx) : ∃ t : Fin cfg6.N, (cfg6.win 5).flush t = true ∧ i ∈ ((cfg6.win 5).blk t).view.set := by
  have hr : (i 0).val < 50000 := (i 0).isLt
  obtain ⟨t, ht⟩ : ∃ t : Fin cfg6.N, t.val = (i 0).val / 5000 := ⟨⟨_, by rw [show cfg6.N = 10 from N_6]; omega⟩, rfl⟩
  obtain ⟨-, -, ek, el⟩ := idx_facts6 t
  exact ⟨t, flush6_5 t, (Shape.idx_ext₂ (show win6_5.index t 0 * 5000 + 1 * ((i 0).val % 5000) = (i 0).val by omega)
    (show win6_5.index t 1 * 1 + 1 * (i 1).val = (i 1).val by omega) :
      ((cfg6.win 5).blk t).view.emb (ix2 ⟨(i 0).val % 5000, Nat.mod_lt _ (by decide)⟩ (i 1)) = i) ▸ View.emb_mem_set _ _⟩

theorem final6 (c : Dev nD) (r : Fin 50000) :
    res6 V c (ix2 r 0)
      = max ((∑ j : Fin 128, max ((∑ k : Fin 384, cat6 V c (ix2 r k) * wa6 V c (ix2 k j)) + ba6 V c (ix2 0 j)) 0 * wb6 V c (ix2 j 0))
          + bb6 V c (ix2 0 0)) 0 :=
  congrFun ((dat6 (F := Ideal) V c).arrAt_eq_of_cover 5 (head6 V c) (fun t _ => flushed6_eq V c t) covered6) (ix2 r 0)

end Cert.KernelIdeal.Hand

end
-- ==== Proof.KSteps.lean ====
import proofs.«101480_j18889266168017_1_alg».proof.Proof.Terms
import proofs.«101480_j18889266168017_1_alg».proof.Proof.KIIdx
import proofs.«101480_j18889266168017_1_alg».proof.Proof.Spec
import proofs.«101480_j18889266168017_1_alg».proof.Proof.LayerMath
import proofs.«101480_j18889266168017_1_alg».proof.Proof.BridgeMath
import proofs.«101480_j18889266168017_1_alg».proof.Proof.CatArr
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Cert.BridgeMath Cert.Spec

-- Two rank-two arrays that agree at every (r, q) are equal.
theorem ext2 {a b : ℕ} {α : Type} {f g : (⟨2, ![a, b]⟩ : Shape).Idx → α}
    (h : ∀ r q, f (ix2 r q) = g (ix2 r q)) : f = g :=
  funext fun i => by rw [eq_ix2 i]; exact h _ _

theorem val_step (agg h : A2 50000 128) (d2 : A1 50000) (b : A1 128) (out : A2 50000 128)
    (hout : ∀ r q, out (ix2 r q)
      = max ((agg (ix2 r q)
            + h (ix2 r q) * shapeCast S50000x1 d2 shapeCasts_S50000_S50000x1 (ix2 r 0))
          + shapeCast S1x128 b shapeCasts_S128_S1x128 (ix2 0 q)) 0) :
    out = valArr agg h d2 b :=
  ext2 fun r q => by rw [hout, col_apply, row_apply]; rfl

theorem sums_step (E : Fin 50000 → Fin 128 → EReal) (out : A2 50000 128)
    (stats : FVec Ideal S2x128 .f32) (hout : ∀ r q, out (ix2 r q) = E r q)
    (hs0 : ∀ q, stats (ix2 0 q) = ∑ r : Fin 50000, E r q)
    (hs1 : ∀ q, stats (ix2 1 q) = ∑ r : Fin 50000, E r q * E r q) :
    (∀ q, stats (ix2 0 q) = ∑ r : Fin 50000, out (ix2 r q)) ∧
      (∀ q, stats (ix2 1 q) = ∑ r : Fin 50000, out (ix2 r q) * out (ix2 r q)) :=
  ⟨fun q => (hs0 q).trans (Finset.sum_congr rfl fun r _ => (hout r q).symm),
    fun q => (hs1 q).trans (Finset.sum_congr rfl fun r _ => by rw [hout r q])⟩

theorem mean_step (stats : FVec Ideal S2x128 .f32) (val : A2 50000 128)
    (h0 : ∀ q, stats (ix2 0 q) = ∑ r : Fin 50000, val (ix2 r q)) (q : Fin 128) :
    meanT stats (ix1 q) = meanK val q := by
  rw [meanT_apply, h0]
  rfl

theorem var_step (stats : FVec Ideal S2x128 .f32) (val : A2 50000 128)
    (h0 : ∀ q, stats (ix2 0 q) = ∑ r : Fin 50000, val (ix2 r q))
    (h1 : ∀ q, stats (ix2 1 q) = ∑ r : Fin 50000, val (ix2 r q) * val (ix2 r q)) (q : Fin 128) :
    varKT stats (ix1 q) = varK val q := by
  rw [varKT_apply, mean_step stats val h0, h1]
  rfl

theorem bn_step (val : A2 50000 128) (stats : FVec Ideal S2x128 .f32) (g be : A1 128) (ε : EReal)
    (out : A2 50000 128)
    (h0 : ∀ q, stats (ix2 0 q) = ∑ r : Fin 50000, val (ix2 r q))
    (h1 : ∀ q, stats (ix2 1 q) = ∑ r : Fin 50000, val (ix2 r q) * val (ix2 r q))
    (hout : ∀ r q, out (ix2 r q)
      = shapeCast S1x128 g shapeCasts_S128_S1x128 (ix2 0 q)
          * (val (ix2 r q) - shapeCast S1x128 (meanT stats) shapeCasts_S128_S1x128 (ix2 0 q))
          * Ideal.rsqrt (shapeCast S1x128 (varKT stats) shapeCasts_S128_S1x128 (ix2 0 q) + ε)
        + shapeCast S1x128 be shapeCasts_S128_S1x128 (ix2 0 q)) :
    out = bnArr val (meanK val) (varK val) g be ε :=
  ext2 fun r q => by
    rw [hout]
    simp only [row_apply]
    rw [mean_step stats val h0, var_step stats val h0 h1]
    rfl

-- Off the column axis, an index of a piece and an index of the side-by-side array with the same row agree.
theorem cat_off (r : Fin 50000) (q : Fin 128) (k : Fin 384) (d : Fin S50000x128.rank)
    (hd : d.cast (rfl : S50000x128.rank = S50000x384.rank) ≠ (1 : Fin 2)) :
    ((ix2 r q : S50000x128.Idx) d).val = ((ix2 r k : S50000x384.Idx) (d.cast rfl)).val := by
  match d with
  | ⟨0, _⟩ => rfl
  | ⟨1, _⟩ => exact absurd rfl hd

theorem cat_step (x h1 h2 : A2 50000 128) :
    concatenate S50000x384 1
        [⟨S50000x128, x⟩, ⟨S50000x128, h1⟩, ⟨S50000x128, h2⟩]
        concatenates_S50000x128_S50000x128_S50000x128_S50000x384_d1
      = catArr x h1 h2 :=
  ext2 fun r k => by
    have piece := concatenate_apply_piece (t := S50000x384) (1 : Fin 2)
      [⟨S50000x128, x⟩, ⟨S50000x128, h1⟩, ⟨S50000x128, h2⟩]
      concatenates_S50000x128_S50000x128_S50000x128_S50000x384_d1 (ix2 r k)
    by_cases hk : k.val < 128
    · refine (piece 0 (by simp) S50000x128 x rfl rfl 0 rfl (ix2 r ⟨k.val, hk⟩) (cat_off r _ k)
        (Nat.zero_add _)).trans ?_
      show _ = (if h : k.val < 128 then x (ix2 r ⟨k.val, h⟩) else _)
      rw [dif_pos hk]
    · by_cases hk' : k.val < 256
      · refine (piece 1 (by simp) S50000x128 h1 rfl rfl 128 rfl (ix2 r ⟨k.val - 128, by omega⟩) (cat_off r _ k)
          (Nat.add_sub_cancel' (Nat.le_of_not_lt hk))).trans ?_
        show _ = (if h : k.val < 128 then _
          else if h' : k.val < 256 then h1 (ix2 r ⟨k.val - 128, _⟩) else _)
        rw [dif_neg hk, dif_pos hk']
      · refine (piece 2 (by simp) S50000x128 h2 rfl rfl 256 rfl (ix2 r ⟨k.val - 256, by have := k.isLt; omega⟩)
          (cat_off r _ k) (Nat.add_sub_cancel' (Nat.le_of_not_lt hk'))).trans ?_
        show _ = (if h : k.val < 128 then _
          else if h' : k.val < 256 then _ else h2 (ix2 r ⟨k.val - 256, _⟩))
        rw [dif_neg hk, dif_neg hk']

theorem mlp_step (cat : A2 50000 384) (Wf1 : A2 384 128) (bf1 : A1 128) (Wf2 : A2 128 1)
    (bf2 : A1 1) (out : FVec Ideal S50000x1 .f32)
    (hout : ∀ r, out (ix2 r 0)
      = max ((∑ j : Fin 128,
            max ((∑ k : Fin 384, cat (ix2 r k) * Wf1 (ix2 k j))
                + shapeCast S1x128 bf1 shapeCasts_S128_S1x128 (ix2 0 j)) 0
              * Wf2 (ix2 j 0))
          + shapeCast S1x1 bf2 shapeCasts_S1_S1x1 (ix2 0 0)) 0) :
    shapeCast S50000 out shapeCasts_S50000x1_S50000 = mlpArr cat Wf1 bf1 Wf2 bf2 := by
  funext i
  obtain ⟨r, rfl⟩ : ∃ r, i = ix1 r := ⟨i 0, eq_ix1 i⟩
  rw [flat_apply, hout, one_apply]
  simp only [row_apply]
  rfl

end Cert.KernelIdeal.Hand

end
-- ==== Proof.KChain.lean ====
import proofs.«101480_j18889266168017_1_alg».proof.Proof.KIRun
import proofs.«101480_j18889266168017_1_alg».proof.Proof.KIHost
import proofs.«101480_j18889266168017_1_alg».proof.Proof.KIIdx
import proofs.«101480_j18889266168017_1_alg».proof.Proof.KIVal0
import proofs.«101480_j18889266168017_1_alg».proof.Proof.KIVal1V
import proofs.«101480_j18889266168017_1_alg».proof.Proof.KIVal1
import proofs.«101480_j18889266168017_1_alg».proof.Proof.KIVal2
import proofs.«101480_j18889266168017_1_alg».proof.Proof.KIVal3
import proofs.«101480_j18889266168017_1_alg».proof.Proof.KIVal4V
import proofs.«101480_j18889266168017_1_alg».proof.Proof.KIVal4
import proofs.«101480_j18889266168017_1_alg».proof.Proof.KIVal5
import proofs.«101480_j18889266168017_1_alg».proof.Proof.KIVal6
import proofs.«101480_j18889266168017_1_alg».proof.Proof.KSteps
import proofs.«101480_j18889266168017_1_alg».proof.Proof.FinChain
import proofs.«101480_j18889266168017_1_alg».proof.Proof.Terms
import proofs.«101480_j18889266168017_1_alg».proof.Proof.Spec
import proofs.«101480_j18889266168017_1_alg».proof.Proof.LayerMath
import proofs.«101480_j18889266168017_1_alg».proof.Proof.BridgeMath
import proofs.«101480_j18889266168017_1_alg».proof.Proof.CatArr
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Cert.BridgeMath Cert.Spec

attribute [local irreducible] aggT dinv2T dinvT normT degT

variable (m : (ℓ : Loc nD τ sig) → Buf (Elt Ideal) ℓ) (ρ : Dev nD → PrngReg)

abbrev xK (c : Dev nD) : A2 50000 128 := m ((c : Thread nD τ).loc main_arg0)
abbrev eiK (c : Dev nD) : IVec S2x800000 32 := m ((c : Thread nD τ).loc main_arg1)
abbrev wK (c : Dev nD) : FVec Ideal S800000 .f32 := m ((c : Thread nD τ).loc main_arg2)
abbrev W1K (c : Dev nD) : A2 128 128 := m ((c : Thread nD τ).loc main_arg3)
abbrev b1K (c : Dev nD) : A1 128 := m ((c : Thread nD τ).loc main_arg4)
abbrev g1K (c : Dev nD) : A1 128 := m ((c : Thread nD τ).loc main_arg7)
abbrev be1K (c : Dev nD) : A1 128 := m ((c : Thread nD τ).loc main_arg8)
abbrev W2K (c : Dev nD) : A2 128 128 := m ((c : Thread nD τ).loc main_arg5)
abbrev b2K (c : Dev nD) : A1 128 := m ((c : Thread nD τ).loc main_arg6)
abbrev g2K (c : Dev nD) : A1 128 := m ((c : Thread nD τ).loc main_arg9)
abbrev be2K (c : Dev nD) : A1 128 := m ((c : Thread nD τ).loc main_arg10)
abbrev Wf1K (c : Dev nD) : A2 384 128 := m ((c : Thread nD τ).loc main_arg11)
abbrev bf1K (c : Dev nD) : A1 128 := m ((c : Thread nD τ).loc main_arg12)
abbrev Wf2K (c : Dev nD) : A2 128 1 := m ((c : Thread nD τ).loc main_arg13)
abbrev bf2K (c : Dev nD) : A1 1 := m ((c : Thread nD τ).loc main_arg14)
abbrev srcK (c : Dev nD) : IVec S800000 32 := srcT (eiK m c)
abbrev dstK (c : Dev nD) : IVec S800000 32 := dstT (eiK m c)

-- An array is quiet when none of the first twelve items of the main function assigns it.
abbrev Quiet (b : Ref sig .tc) : Prop :=
  b ∉ hostOps0_W ∧ b ∉ ([main_v4] : List (Ref sig .tc)) ∧ b ∉ hostOps1_W ∧ b ∉ ([main_v53_0, main_v53_1] : List (Ref sig .tc))
    ∧ b ∉ hostOps2_W ∧ b ∉ ([main_v68] : List (Ref sig .tc)) ∧ b ∉ ([main_v69] : List (Ref sig .tc)) ∧ b ∉ hostOps4_W
    ∧ b ∉ ([main_v118_0, main_v118_1] : List (Ref sig .tc)) ∧ b ∉ hostOps5_W ∧ b ∉ ([main_v133] : List (Ref sig .tc)) ∧ b ∉ hostOps6_W

-- A quiet array holds after each of those items what the launch memory holds.
theorem W2_arg (c : Dev nD) (b : Ref sig .tc) (h : Quiet b) :
    W2 m ρ c (Proc.devRef .tc b) = m ((c : Thread nD τ).loc b) :=
  (W2_keep m ρ c b h.2.1).trans (W1_keep m ρ c b h.1)
theorem W4_arg (c : Dev nD) (b : Ref sig .tc) (h : Quiet b) :
    W4 m ρ c (Proc.devRef .tc b) = m ((c : Thread nD τ).loc b) :=
  (W4_keep m ρ c b h.2.2.2.1).trans ((W3_keep m ρ c b h.2.2.1).trans (W2_arg m ρ c b h))
theorem W6_arg (c : Dev nD) (b : Ref sig .tc) (h : Quiet b) :
    W6 m ρ c (Proc.devRef .tc b) = m ((c : Thread nD τ).loc b) :=
  (W6_keep m ρ c b h.2.2.2.2.2.1).trans ((W5_keep m ρ c b h.2.2.2.2.1).trans (W4_arg m ρ c b h))
theorem W7_arg (c : Dev nD) (b : Ref sig .tc) (h : Quiet b) :
    W7 m ρ c (Proc.devRef .tc b) = m ((c : Thread nD τ).loc b) :=
  (W7_keep m ρ c b h.2.2.2.2.2.2.1).trans (W6_arg m ρ c b h)
theorem W9_arg (c : Dev nD) (b : Ref sig .tc) (h : Quiet b) :
    W9 m ρ c (Proc.devRef .tc b) = m ((c : Thread nD τ).loc b) :=
  (W9_keep m ρ c b h.2.2.2.2.2.2.2.2.1).trans ((W8_keep m ρ c b h.2.2.2.2.2.2.2.1).trans (W7_arg m ρ c b h))
theorem W11_arg (c : Dev nD) (b : Ref sig .tc) (h : Quiet b) :
    W11 m ρ c (Proc.devRef .tc b) = m ((c : Thread nD τ).loc b) :=
  (W11_keep m ρ c b h.2.2.2.2.2.2.2.2.2.2.1).trans ((W10_keep m ρ c b h.2.2.2.2.2.2.2.2.2.1).trans (W9_arg m ρ c b h))
theorem W12_arg (c : Dev nD) (b : Ref sig .tc) (h : Quiet b) :
    W12 m ρ c (Proc.devRef .tc b) = m ((c : Thread nD τ).loc b) :=
  (W12_keep m ρ c b h.2.2.2.2.2.2.2.2.2.2.2).trans (W11_arg m ρ c b h)

theorem k_lin1 (c : Dev nD) :
    (W2 m ρ c (Proc.devRef .tc main_v4) : A2 50000 128) = linArr (xK m c) (W1K m c) := by
  rw [W2_out, final0_arr]
  show prod0 (W1 m ρ c (Proc.devRef .tc main_arg0)) (W1 m ρ c (Proc.devRef .tc main_arg3)) = _
  rw [W1_keep m ρ c main_arg0 (by decide), W1_keep m ρ c main_arg3 (by decide)]
  rfl

theorem W2_v1 (c : Dev nD) : W2 m ρ c (Proc.devRef .tc main_v1) = srcK m c :=
  (W2_keep m ρ c main_v1 (by decide)).trans (hostOps0_v1 (W0 m ρ c))
theorem W2_v3 (c : Dev nD) : W2 m ρ c (Proc.devRef .tc main_v3) = dstK m c :=
  (W2_keep m ρ c main_v3 (by decide)).trans (hostOps0_v3 (W0 m ρ c))
theorem W2_arg2 (c : Dev nD) : W2 m ρ c (Proc.devRef .tc main_arg2) = wK m c :=
  W2_arg m ρ c main_arg2 (by decide)
theorem W2_bias (c : Dev nD) : W2 m ρ c (Proc.devRef .tc main_arg4) = b1K m c :=
  W2_arg m ρ c main_arg4 (by decide)

theorem V3_a0 (c : Dev nD) :
    (V3 m ρ c (Pipeline.arrRef spec1 0) : FVec Ideal S50000x128 .f32)
      = aggT (F := Ideal) (W2 m ρ c (Proc.devRef .tc main_v4)) (srcK m c) (dstK m c) (wK m c) := by
  refine (hostOps1_v49 (W2 m ρ c)).trans ?_
  rw [W2_v1, W2_v3, W2_arg2]
theorem V3_a1 (c : Dev nD) :
    (V3 m ρ c (Pipeline.arrRef spec1 1) : FVec Ideal S50000x128 .f32)
      = W2 m ρ c (Proc.devRef .tc main_v4) :=
  W3_keep m ρ c main_v4 (by decide)
theorem V3_a2 (c : Dev nD) :
    (V3 m ρ c (Pipeline.arrRef spec1 2) : FVec Ideal S50000x1 .f32)
      = shapeCast S50000x1 (dinv2T (F := Ideal) (dstK m c) (wK m c)) shapeCasts_S50000_S50000x1 := by
  refine (hostOps1_v51 (W2 m ρ c)).trans ?_
  rw [W2_v3, W2_arg2]
theorem V3_a3 (c : Dev nD) :
    (V3 m ρ c (Pipeline.arrRef spec1 3) : FVec Ideal S1x128 .f32)
      = shapeCast S1x128 (b1K m c) shapeCasts_S128_S1x128 := by
  refine (hostOps1_v52 (W2 m ρ c)).trans ?_
  rw [W2_bias]

abbrev val1K (c : Dev nD) : A2 50000 128 := W4 m ρ c (Proc.devRef .tc main_v53_0)
abbrev stats1K (c : Dev nD) : FVec Ideal S2x128 .f32 := W4 m ρ c (Proc.devRef .tc main_v53_1)

theorem k_val1 (c : Dev nD) :
    val1K m ρ c
      = valOf (srcK m c) (dstK m c) (wK m c) (xK m c) (W1K m c) (b1K m c) := by
  unfold val1K valOf
  rw [W4_out0, ← k_lin1 m ρ c]
  refine val_step _ _ _ _ _ fun r q => ?_
  refine (final1_val (V3 m ρ) c r q).trans ?_
  unfold val1 agg1 h1in d21 b1in
  rw [V3_a0, V3_a1, V3_a2, V3_a3]

theorem stage_stats1 (c : Dev nD) :
    (∀ q, stats1K m ρ c (ix2 0 q) = ∑ r : Fin 50000, val1K m ρ c (ix2 r q)) ∧
      (∀ q, stats1K m ρ c (ix2 1 q)
        = ∑ r : Fin 50000, val1K m ρ c (ix2 r q) * val1K m ρ c (ix2 r q)) := by
  unfold val1K stats1K
  rw [W4_out0, W4_out1]
  exact sums_step (val1 (V3 m ρ) c) _ _ (final1_val (V3 m ρ) c)
    (final1_sum (V3 m ρ) c) (final1_sumsq (V3 m ρ) c)

theorem V5_a0 (c : Dev nD) :
    (V5 m ρ c (Pipeline.arrRef spec2 0) : FVec Ideal S50000x128 .f32) = val1K m ρ c :=
  W5_keep m ρ c main_v53_0 (by decide)
theorem V5_a1 (c : Dev nD) :
    (V5 m ρ c (Pipeline.arrRef spec2 1) : FVec Ideal S1x128 .f32)
      = shapeCast S1x128 (meanT (F := Ideal) (stats1K m ρ c)) shapeCasts_S128_S1x128 :=
  hostOps2_v64 (W4 m ρ c)
theorem V5_a2 (c : Dev nD) :
    (V5 m ρ c (Pipeline.arrRef spec2 2) : FVec Ideal S1x128 .f32)
      = shapeCast S1x128 (varKT (F := Ideal) (stats1K m ρ c)) shapeCasts_S128_S1x128 :=
  hostOps2_v65 (W4 m ρ c)
theorem V5_a3 (c : Dev nD) :
    (V5 m ρ c (Pipeline.arrRef spec2 3) : FVec Ideal S1x128 .f32)
      = shapeCast S1x128 (g1K m c) shapeCasts_S128_S1x128 := by
  refine (hostOps2_v66 (W4 m ρ c)).trans ?_
  rw [W4_arg m ρ c main_arg7 (by decide)]
theorem V5_a4 (c : Dev nD) :
    (V5 m ρ c (Pipeline.arrRef spec2 4) : FVec Ideal S1x128 .f32)
      = shapeCast S1x128 (be1K m c) shapeCasts_S128_S1x128 := by
  refine (hostOps2_v67 (W4 m ρ c)).trans ?_
  rw [W4_arg m ρ c main_arg8 (by decide)]

abbrev h1K (c : Dev nD) : A2 50000 128 :=
  layerK (srcK m c) (dstK m c) (wK m c) (xK m c) (W1K m c) (b1K m c) (g1K m c) (be1K m c)

theorem k_h1 (c : Dev nD) : (W6 m ρ c (Proc.devRef .tc main_v68) : A2 50000 128) = h1K m c := by
  unfold h1K layerK
  rw [← k_val1 m ρ c, W6_out]
  obtain ⟨h0, h1⟩ := stage_stats1 m ρ c
  refine bn_step _ (stats1K m ρ c) _ _ _ _ h0 h1 fun r q => ?_
  refine (final2 (V5 m ρ) c r q).trans ?_
  unfold bn2 val2in mean2in var2in g2in be2in
  rw [V5_a0, V5_a1, V5_a2, V5_a3, V5_a4]

theorem k_lin2 (c : Dev nD) :
    (W7 m ρ c (Proc.devRef .tc main_v69) : A2 50000 128) = linArr (h1K m c) (W2K m c) := by
  rw [W7_out, final3_arr, ← k_h1 m ρ c]
  show prod3 (W6 m ρ c (Proc.devRef .tc main_v68)) (W6 m ρ c (Proc.devRef .tc main_arg5)) = _
  rw [W6_arg m ρ c main_arg5 (by decide)]
  rfl

theorem W7_v1 (c : Dev nD) : W7 m ρ c (Proc.devRef .tc main_v1) = srcK m c :=
  (W7_keep m ρ c main_v1 (by decide)).trans ((W6_keep m ρ c main_v1 (by decide)).trans
    ((W5_keep m ρ c main_v1 (by decide)).trans ((W4_keep m ρ c main_v1 (by decide)).trans
    ((W3_keep m ρ c main_v1 (by decide)).trans (W2_v1 m ρ c)))))
theorem W7_v3 (c : Dev nD) : W7 m ρ c (Proc.devRef .tc main_v3) = dstK m c :=
  (W7_keep m ρ c main_v3 (by decide)).trans ((W6_keep m ρ c main_v3 (by decide)).trans
    ((W5_keep m ρ c main_v3 (by decide)).trans ((W4_keep m ρ c main_v3 (by decide)).trans
    ((W3_keep m ρ c main_v3 (by decide)).trans (W2_v3 m ρ c)))))
theorem W7_arg2 (c : Dev nD) : W7 m ρ c (Proc.devRef .tc main_arg2) = wK m c :=
  W7_arg m ρ c main_arg2 (by decide)
theorem W7_bias (c : Dev nD) : W7 m ρ c (Proc.devRef .tc main_arg6) = b2K m c :=
  W7_arg m ρ c main_arg6 (by decide)

theorem V8_a0 (c : Dev nD) :
    (V8 m ρ c (Pipeline.arrRef spec4 0) : FVec Ideal S50000x128 .f32)
      = aggT (F := Ideal) (W7 m ρ c (Proc.devRef .tc main_v69)) (srcK m c) (dstK m c) (wK m c) := by
  refine (hostOps4_v114 (W7 m ρ c)).trans ?_
  rw [W7_v1, W7_v3, W7_arg2]
theorem V8_a1 (c : Dev nD) :
    (V8 m ρ c (Pipeline.arrRef spec4 1) : FVec Ideal S50000x128 .f32)
      = W7 m ρ c (Proc.devRef .tc main_v69) :=
  W8_keep m ρ c main_v69 (by decide)
theorem V8_a2 (c : Dev nD) :
    (V8 m ρ c (Pipeline.arrRef spec4 2) : FVec Ideal S50000x1 .f32)
      = shapeCast S50000x1 (dinv2T (F := Ideal) (dstK m c) (wK m c)) shapeCasts_S50000_S50000x1 := by
  refine (hostOps4_v116 (W7 m ρ c)).trans ?_
  rw [W7_v3, W7_arg2]
theorem V8_a3 (c : Dev nD) :
    (V8 m ρ c (Pipeline.arrRef spec4 3) : FVec Ideal S1x128 .f32)
      = shapeCast S1x128 (b2K m c) shapeCasts_S128_S1x128 := by
  refine (hostOps4_v117 (W7 m ρ c)).trans ?_
  rw [W7_bias]

abbrev val2K (c : Dev nD) : A2 50000 128 := W9 m ρ c (Proc.devRef .tc main_v118_0)
abbrev stats2K (c : Dev nD) : FVec Ideal S2x128 .f32 := W9 m ρ c (Proc.devRef .tc main_v118_1)

theorem k_val2 (c : Dev nD) :
    val2K m ρ c
      = valOf (srcK m c) (dstK m c) (wK m c) (h1K m c) (W2K m c) (b2K m c) := by
  unfold val2K valOf
  rw [W9_out0, ← k_lin2 m ρ c]
  refine val_step _ _ _ _ _ fun r q => ?_
  refine (final4_val (V8 m ρ) c r q).trans ?_
  unfold val4 agg4 h4in d24 b4in
  rw [V8_a0, V8_a1, V8_a2, V8_a3]

theorem stage_stats2 (c : Dev nD) :
    (∀ q, stats2K m ρ c (ix2 0 q) = ∑ r : Fin 50000, val2K m ρ c (ix2 r q)) ∧
      (∀ q, stats2K m ρ c (ix2 1 q)
        = ∑ r : Fin 50000, val2K m ρ c (ix2 r q) * val2K m ρ c (ix2 r q)) := by
  unfold val2K stats2K
  rw [W9_out0, W9_out1]
  exact sums_step (val4 (V8 m ρ) c) _ _ (final4_val (V8 m ρ) c)
    (final4_sum (V8 m ρ) c) (final4_sumsq (V8 m ρ) c)

theorem V10_a0 (c : Dev nD) :
    (V10 m ρ c (Pipeline.arrRef spec5 0) : FVec Ideal S50000x128 .f32) = val2K m ρ c :=
  W10_keep m ρ c main_v118_0 (by decide)
theorem V10_a1 (c : Dev nD) :
    (V10 m ρ c (Pipeline.arrRef spec5 1) : FVec Ideal S1x128 .f32)
      = shapeCast S1x128 (meanT (F := Ideal) (stats2K m ρ c)) shapeCasts_S128_S1x128 :=
  hostOps5_v129 (W9 m ρ c)
theorem V10_a2 (c : Dev nD) :
    (V10 m ρ c (Pipeline.arrRef spec5 2) : FVec Ideal S1x128 .f32)
      = shapeCast S1x128 (varKT (F := Ideal) (stats2K m ρ c)) shapeCasts_S128_S1x128 :=
  hostOps5_v130 (W9 m ρ c)
theorem V10_a3 (c : Dev nD) :
    (V10 m ρ c (Pipeline.arrRef spec5 3) : FVec Ideal S1x128 .f32)
      = shapeCast S1x128 (g2K m c) shapeCasts_S128_S1x128 := by
  refine (hostOps5_v131 (W9 m ρ c)).trans ?_
  rw [W9_arg m ρ c main_arg9 (by decide)]
theorem V10_a4 (c : Dev nD) :
    (V10 m ρ c (Pipeline.arrRef spec5 4) : FVec Ideal S1x128 .f32)
      = shapeCast S1x128 (be2K m c) shapeCasts_S128_S1x128 := by
  refine (hostOps5_v132 (W9 m ρ c)).trans ?_
  rw [W9_arg m ρ c main_arg10 (by decide)]

abbrev h2K (c : Dev nD) : A2 50000 128 :=
  layerK (srcK m c) (dstK m c) (wK m c) (h1K m c) (W2K m c) (b2K m c) (g2K m c) (be2K m c)

theorem k_h2 (c : Dev nD) : (W11 m ρ c (Proc.devRef .tc main_v133) : A2 50000 128) = h2K m c := by
  unfold h2K layerK
  rw [← k_val2 m ρ c, W11_out]
  obtain ⟨h0, h1⟩ := stage_stats2 m ρ c
  refine bn_step _ (stats2K m ρ c) _ _ _ _ h0 h1 fun r q => ?_
  refine (final5 (V10 m ρ) c r q).trans ?_
  unfold bn5 val5in mean5in var5in g5in be5in
  rw [V10_a0, V10_a1, V10_a2, V10_a3, V10_a4]

theorem V12_a0 (c : Dev nD) :
    (V12 m ρ c (Pipeline.arrRef spec6 0) : FVec Ideal S50000x384 .f32)
      = catArr (xK m c) (W6 m ρ c (Proc.devRef .tc main_v68)) (W11 m ρ c (Proc.devRef .tc main_v133)) := by
  refine (hostOps6_v134 (W11 m ρ c)).trans ?_
  rw [W11_arg m ρ c main_arg0 (by decide), W11_keep m ρ c main_v68 (by decide), W10_keep m ρ c main_v68 (by decide),
    W9_keep m ρ c main_v68 (by decide), W8_keep m ρ c main_v68 (by decide), W7_keep m ρ c main_v68 (by decide)]
  exact cat_step _ _ _
theorem V12_a1 (c : Dev nD) :
    (V12 m ρ c (Pipeline.arrRef spec6 1) : FVec Ideal S384x128 .f32) = Wf1K m c :=
  W12_arg m ρ c main_arg11 (by decide)
theorem V12_a2 (c : Dev nD) :
    (V12 m ρ c (Pipeline.arrRef spec6 2) : FVec Ideal S1x128 .f32)
      = shapeCast S1x128 (bf1K m c) shapeCasts_S128_S1x128 := by
  refine (hostOps6_v135 (W11 m ρ c)).trans ?_
  rw [W11_arg m ρ c main_arg12 (by decide)]
theorem V12_a3 (c : Dev nD) :
    (V12 m ρ c (Pipeline.arrRef spec6 3) : FVec Ideal S128x1 .f32) = Wf2K m c :=
  W12_arg m ρ c main_arg13 (by decide)
theorem V12_a4 (c : Dev nD) :
    (V12 m ρ c (Pipeline.arrRef spec6 4) : FVec Ideal S1x1 .f32)
      = shapeCast S1x1 (bf2K m c) shapeCasts_S1_S1x1 := by
  refine (hostOps6_v136 (W11 m ρ c)).trans ?_
  rw [W11_arg m ρ c main_arg14 (by decide)]

theorem k_out (c : Dev nD) :
    (W14 m ρ c (Proc.devRef .tc main_v138) : A1 50000)
      = mlpArr (catArr (xK m c) (h1K m c) (h2K m c)) (Wf1K m c) (bf1K m c) (Wf2K m c) (bf2K m c) := by
  rw [← k_h1 m ρ c, ← k_h2 m ρ c]
  refine (hostOps7_v138 (W13 m ρ c)).trans ?_
  rw [W13_out]
  refine mlp_step _ _ _ _ _ _ fun r => ?_
  refine (final6 (V12 m ρ) c r).trans ?_
  unfold cat6 wa6 ba6 wb6 bb6
  rw [V12_a0, V12_a1, V12_a2, V12_a3, V12_a4]

end Cert.KernelIdeal.Hand

end
-- ==== Proof.PreDecode.lean ====
import proofs.«101480_j18889266168017_1_alg».proof.Pre_finite_inputs
import Idealize.ShloMosaic.Lib.ReduceAll
import Idealize.ShloMosaic.Lib.ValueIdx
import Idealize.ShloMosaic.PureOps.Ideal.Laws

noncomputable section

namespace Cert.Pre_finite_inputs.Hand

open Idealize.ShloMosaic Cert.Pre_finite_inputs

variable [Facts]
open Facts

instance : Subsingleton S_.Idx := ⟨fun a b => funext fun d => d.elim0⟩

theorem ofBits_inf_f32 : Ideal.ofBits .f32 0x7F800000#32 = (⊤ : EReal) := by
  simp [Ideal.ofBits, Ideal.ieee]

theorem finite_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    x ≠ ⊤ ∧ x ≠ ⊥ := by
  have h1 : Ideal.cmp .olt (max x (-x)) (Ideal.ofBits .f32 0x7F800000#32) = 1#1 := h
  rw [ofBits_inf_f32] at h1
  simp only [Ideal.cmp] at h1
  have h2 : max x (-x) < ⊤ := by
    by_contra hc
    simp [hc] at h1
  constructor <;> (rintro rfl; simp at h2)

theorem finite_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x)
      (broadcastInDim s ![] hb (constant (F := Ideal) S_ .f32 0x7F800000#32))) init hr hu j = 1#1) :
    ∀ i, x i ≠ ⊤ ∧ x i ≠ ⊥ := fun i =>
  finite_of_abs_lt_inf (x i) (Host.reduce_andi_all _ init hr hu j e i)

def degTerm {F : FTy → Type} [FloatOps F] (a1 : IVec S2x800000 32) (a2 : FVec F S800000 .f32) : FVec F S50000 .f32 :=
  let d : IVec S800000 32 := shapeCast S800000 (extractStridedSlice S1x800000 ![1, 0] a1 slices_S2x800000_S1x800000_1_0) shapeCasts_S1x800000_S800000
  addf
    (Host.scatterAdd scatter_S50000_S800000x1_S800000_n_0_0_1
      (broadcastInDim S50000 ![] bcast_S_S50000 (constant S_ .f32 0x00000000#32))
      (broadcastInDim S800000x1 ![0] bcast_S800000_S800000x1_0
        (select (cmpi .slt d (broadcastInDim S800000 ![] bcast_S_S800000 (constantI S_ 32 0#32)))
          (addi d (broadcastInDim S800000 ![] bcast_S_S800000 (constantI S_ 32 50000#32))) d))
      a2)
    (broadcastInDim S50000 ![] bcast_S_S50000 (constant S_ .f32 0x3F800000#32))

theorem fn_part4_eq {F : FTy → Type} [FloatOps F] (a1 : IVec S2x800000 32) (a2 : FVec F S800000 .f32) (v63 v67 : IVec S_ 1) :
    fn_part4 (F := F) a1 a2 v63 v67 =
      andi (andi v63 v67)
        (Host.reduce IntOp.andi (cmpf .ogt (degTerm (F := F) a1 a2)
          (broadcastInDim S50000 ![] bcast_S_S50000 (constant (F := F) S_ .f32 0x00000000#32)))
          (constantI S_ 1 1#1) reducesTo_S50000_S_d0 h_S_) := rfl

theorem pos_of_all (d : FVec Ideal S50000 .f32) (init : IVec S_ 1) (j : S_.Idx)
    (e : Host.reduce IntOp.andi (cmpf .ogt d
      (broadcastInDim S50000 ![] bcast_S_S50000 (constant (F := Ideal) S_ .f32 0x00000000#32)))
      init reducesTo_S50000_S_d0 h_S_ j = 1#1) :
    ∀ i, (0 : EReal) < d i := fun i => by
  have h1 : Ideal.cmp .ogt (d i) (Ideal.ofBits .f32 0x00000000#32) = 1#1 :=
    Host.reduce_andi_all _ init reducesTo_S50000_S_d0 h_S_ j e i
  rw [Ideal.ofBits_zero_f32] at h1
  simp only [Ideal.cmp] at h1
  by_contra hc
  simp [hc] at h1

theorem decode (a0 : FVec Ideal S50000x128 .f32) (a1 : IVec S2x800000 32) (a2 : FVec Ideal S800000 .f32)
    (a3 : FVec Ideal S128x128 .f32) (a4 : FVec Ideal S128 .f32) (a5 : FVec Ideal S128x128 .f32) (a6 : FVec Ideal S128 .f32)
    (a7 : FVec Ideal S128 .f32) (a8 : FVec Ideal S128 .f32) (a9 : FVec Ideal S128 .f32) (a10 : FVec Ideal S128 .f32)
    (a11 : FVec Ideal S384x128 .f32) (a12 : FVec Ideal S128 .f32) (a13 : FVec Ideal S128x1 .f32) (a14 : FVec Ideal S1 .f32)
    (h : Cert.Pre_finite_inputs.fn (F := Ideal) a0 a1 a2 a3 a4 a5 a6 a7 a8 a9 a10 a11 a12 a13 a14 = (fun _ => 1#1)) :
    (∀ i, a0 i ≠ ⊤ ∧ a0 i ≠ ⊥) ∧ (∀ i, a2 i ≠ ⊤ ∧ a2 i ≠ ⊥) ∧ (∀ i, a3 i ≠ ⊤ ∧ a3 i ≠ ⊥) ∧ (∀ i, a4 i ≠ ⊤ ∧ a4 i ≠ ⊥)
    ∧ (∀ i, a5 i ≠ ⊤ ∧ a5 i ≠ ⊥) ∧ (∀ i, a6 i ≠ ⊤ ∧ a6 i ≠ ⊥) ∧ (∀ i, a7 i ≠ ⊤ ∧ a7 i ≠ ⊥) ∧ (∀ i, a8 i ≠ ⊤ ∧ a8 i ≠ ⊥)
    ∧ (∀ i, (0 : EReal) < degTerm (F := Ideal) a1 a2 i) := by
  have h0 := congrFun h ValueIdx.ix0
  dsimp only [fn, fn_part1, fn_part2, fn_part3] at h0
  rw [fn_part4_eq] at h0
  dsimp only [andi] at h0
  simp only [IntOp.andi_eq_one] at h0
  obtain ⟨⟨⟨⟨⟨⟨⟨⟨⟨⟨⟨⟨⟨⟨h0', h2'⟩, h3'⟩, h4'⟩, h5'⟩, h6'⟩, h7'⟩, h8'⟩, -⟩, -⟩, -⟩, -⟩, -⟩, -⟩, hd⟩ := h0
  exact ⟨finite_of_all a0 _ _ _ _ _ h0', finite_of_all a2 _ _ _ _ _ h2', finite_of_all a3 _ _ _ _ _ h3',
    finite_of_all a4 _ _ _ _ _ h4', finite_of_all a5 _ _ _ _ _ h5', finite_of_all a6 _ _ _ _ _ h6',
    finite_of_all a7 _ _ _ _ _ h7', finite_of_all a8 _ _ _ _ _ h8', pos_of_all _ _ _ hd⟩

end Cert.Pre_finite_inputs.Hand

end
-- ==== Proof.PreLink.lean ====
import proofs.«101480_j18889266168017_1_alg».proof.Defs
import proofs.«101480_j18889266168017_1_alg».proof.Proof.PreDecode
import proofs.«101480_j18889266168017_1_alg».proof.Proof.Gen.KernelIdeal
import proofs.«101480_j18889266168017_1_alg».proof.Proof.Gen.Pre_finite_inputs
import proofs.«101480_j18889266168017_1_alg».proof.Proof.Terms
import proofs.«101480_j18889266168017_1_alg».proof.Proof.Spec

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

-- The decoded precondition at the argument arrays; its degree term is the degree defined with the layer terms, operation for operation.
theorem pre_all (h : Cert.Pre_KernelIdeal m) (c : Dev nD) :
    (∀ i, Cert.Spec.IsFin ((m ((c.tc : Thread nD τ).loc main_arg0) : FVec Ideal S50000x128 .f32) i))
    ∧ (∀ i, Cert.Spec.IsFin ((m ((c.tc : Thread nD τ).loc main_arg2) : FVec Ideal S800000 .f32) i))
    ∧ (∀ i, Cert.Spec.IsFin ((m ((c.tc : Thread nD τ).loc main_arg3) : FVec Ideal S128x128 .f32) i))
    ∧ (∀ i, Cert.Spec.IsFin ((m ((c.tc : Thread nD τ).loc main_arg4) : FVec Ideal S128 .f32) i))
    ∧ (∀ i, Cert.Spec.IsFin ((m ((c.tc : Thread nD τ).loc main_arg5) : FVec Ideal S128x128 .f32) i))
    ∧ (∀ i, Cert.Spec.IsFin ((m ((c.tc : Thread nD τ).loc main_arg6) : FVec Ideal S128 .f32) i))
    ∧ (∀ i, Cert.Spec.IsFin ((m ((c.tc : Thread nD τ).loc main_arg7) : FVec Ideal S128 .f32) i))
    ∧ (∀ i, Cert.Spec.IsFin ((m ((c.tc : Thread nD τ).loc main_arg8) : FVec Ideal S128 .f32) i))
    ∧ (∀ i, (0 : EReal) < degT (F := Ideal) (dstT (m ((c.tc : Thread nD τ).loc main_arg1) : IVec S2x800000 32)) (m ((c.tc : Thread nD τ).loc main_arg2) : FVec Ideal S800000 .f32) i) :=
  Cert.Pre_finite_inputs.Hand.decode _ _ _ _ _ _ _ _ _ _ _ _ _ _ _ (h c)

end Cert.KernelIdeal.Hand

end
-- ==== Proof.Bridge.lean ====
import proofs.«101480_j18889266168017_1_alg».proof.Defs
import proofs.«101480_j18889266168017_1_alg».proof.Proof.RChain
import proofs.«101480_j18889266168017_1_alg».proof.Proof.KChain
import proofs.«101480_j18889266168017_1_alg».proof.Proof.FinChain
import proofs.«101480_j18889266168017_1_alg».proof.Proof.PreLink

set_option maxRecDepth 16384

noncomputable section

namespace Cert.Proof

open Idealize.ShloMosaic Idealize.ShloMosaic.TcCoe Idealize.SL.Sem

theorem bridge (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    StableHlo.after (Cert.ReferenceIdeal.Hand.ops (F := Ideal)) (StableHlo.launchContents m' c) (Cert.ReferenceIdeal.main_v163 : DevRef Cert.ReferenceIdeal.τ Cert.ReferenceIdeal.sig)
      = Cert.KernelIdeal.Hand.W14 (F := Ideal) m ρ c (Proc.devRef .tc Cert.KernelIdeal.main_v138) := by
  obtain ⟨h0, h1, h2, h3, h4, h5, h6, h7, h8, h9, h10, h11, h12, h13, h14⟩ := hag
  obtain ⟨f0, f2, f3, f4, f5, f6, f7, f8, hd⟩ := Cert.KernelIdeal.Hand.pre_all m hpre c
  rw [Cert.ReferenceIdeal.Hand.r_out (StableHlo.launchContents m' c)]
  dsimp only [StableHlo.launchContents]
  rw [h0, h1, h2, h3, h4, h5, h6, h7, h8, h9, h10, h11, h12, h13, h14]
  exact ((Cert.KernelIdeal.Hand.out_eq _ _ _ _ _ _ _ f0 f3 f4 f7 f8 f5 f6 f2 hd).symm).trans (Cert.KernelIdeal.Hand.k_out m ρ c).symm

end Cert.Proof

end
-- ==== Proof.lean ====
import proofs.«101480_j18889266168017_1_alg».proof.Defs
import proofs.«101480_j18889266168017_1_alg».proof.Proof.Gen.Kernel
import proofs.«101480_j18889266168017_1_alg».proof.Proof.Gen.Kernel.Skeleton
import proofs.«101480_j18889266168017_1_alg».proof.Proof.Gen.Kernel.Launch
import proofs.«101480_j18889266168017_1_alg».proof.Proof.Gen.Kernel.Regions
import proofs.«101480_j18889266168017_1_alg».proof.Proof.Gen.Kernel.Points
import proofs.«101480_j18889266168017_1_alg».proof.Proof.Gen.KernelIdeal
import proofs.«101480_j18889266168017_1_alg».proof.Proof.Gen.KernelIdeal.Skeleton
import proofs.«101480_j18889266168017_1_alg».proof.Proof.Gen.KernelIdeal.Launch
import proofs.«101480_j18889266168017_1_alg».proof.Proof.Gen.KernelIdeal.Regions
import proofs.«101480_j18889266168017_1_alg».proof.Proof.Gen.KernelIdeal.Points
import proofs.«101480_j18889266168017_1_alg».proof.Proof.Gen.ReferenceIdeal
import proofs.«101480_j18889266168017_1_alg».proof.Proof.Gen.Pre_finite_inputs
import proofs.«101480_j18889266168017_1_alg».proof.Proof.KRun
import proofs.«101480_j18889266168017_1_alg».proof.Proof.KIRun
import proofs.«101480_j18889266168017_1_alg».proof.Proof.RefFrame
import proofs.«101480_j18889266168017_1_alg».proof.Proof.Bridge
import Idealize.ShloMosaic.Adequacy
import Idealize.ShloMosaic.Init

noncomputable section

namespace Cert.Proof

open Idealize.ShloMosaic Idealize.ShloMosaic.TcCoe Idealize.SL.Sem

-- Each kernel program's run names its result and leaves the arguments as launched; the frame is the second half.
theorem frame_k : Cert.frame_Kernel := fun m ρ _ =>
  (θ_run _ _ _).mono (fun _ h c => (h c).2) (Cert.Kernel.Hand.run_result m ρ)

theorem frame_ki : Cert.frame_KernelIdeal := fun m ρ _ =>
  (θ_run _ _ _).mono (fun _ h c => (h c).2) (Cert.KernelIdeal.Hand.run_result m ρ)

theorem frame_r : Cert.frame_ReferenceIdeal := Cert.ReferenceIdeal.Hand.frame_ref

-- Both programs end at the kernel program's last fold at its result buffer: the bridge, for finite arguments and positive degrees.
theorem algebraic : Cert.algebraic_KernelIdeal_ReferenceIdeal := fun m ρ m' ρ' hpre hag =>
  ⟨fun c => Cert.KernelIdeal.Hand.W14 (F := Ideal) m ρ c (Proc.devRef .tc Cert.KernelIdeal.main_v138),
    Cert.KernelIdeal.Hand.run_result m ρ,
    (θ_run (Cert.ReferenceIdeal.defs (F := Ideal)) _ _).mono
      (fun r h c => ⟨(h c).1.trans (bridge m ρ m' hpre c (hag c)), (h c).2⟩)
      (Cert.ReferenceIdeal.Hand.ref_result m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
